-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1536 : Shape := ⟨2, ![4096, 1536]⟩
abbrev S2x40000 : Shape := ⟨2, ![2, 40000]⟩
abbrev S1536x512 : Shape := ⟨2, ![1536, 512]⟩
abbrev S512x256 : Shape := ⟨2, ![512, 256]⟩
abbrev S256x128 : Shape := ⟨2, ![256, 128]⟩
abbrev S1x512 : Shape := ⟨2, ![1, 512]⟩
abbrev S1x256 : Shape := ⟨2, ![1, 256]⟩
abbrev S1x128 : Shape := ⟨2, ![1, 128]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S1x512 : S_.BroadcastsInDim S1x512 (![] : Fin 0 → Fin S1x512.rank)
  reducesTo_S1x512_S_d0_1 : S1x512.ReducesTo [0, 1] S_
  bcast_S_S1x256 : S_.BroadcastsInDim S1x256 (![] : Fin 0 → Fin S1x256.rank)
  reducesTo_S1x256_S_d0_1 : S1x256.ReducesTo [0, 1] S_
  bcast_S_S1x128 : S_.BroadcastsInDim S1x128 (![] : Fin 0 → Fin S1x128.rank)
  reducesTo_S1x128_S_d0_1 : S1x128.ReducesTo [0, 1] S_
  bcast_S_S2x40000 : S_.BroadcastsInDim S2x40000 (![] : Fin 0 → Fin S2x40000.rank)
  reducesTo_S2x40000_S_d0_1 : S2x40000.ReducesTo [0, 1] S_

variable [Facts]

def fn_part2 {F : FTy → Type} [FloatOps F] (main_arg1 : IVec S2x40000 32) (main_v33 : IVec S_ 1) : IVec S_ 1 :=
  let main_c_12 : IVec S_ 32 := constantI S_ 32 0#32
  let main_v34 : IVec S2x40000 32 := broadcastInDim S2x40000 ![] bcast_S_S2x40000 main_c_12
  let main_v35 : IVec S2x40000 1 := cmpi .sge main_arg1 main_v34
  let main_c_13 : IVec S_ 32 := constantI S_ 32 4096#32
  let main_v36 : IVec S2x40000 32 := broadcastInDim S2x40000 ![] bcast_S_S2x40000 main_c_13
  let main_v37 : IVec S2x40000 1 := cmpi .slt main_arg1 main_v36
  let main_v38 : IVec S2x40000 1 := andi main_v35 main_v37
  let main_c_14 : IVec S_ 1 := constantI S_ 1 1#1
  let main_v39 : IVec S_ 1 := (fun x v => Host.reduce IntOp.andi x v reducesTo_S2x40000_S_d0_1 h_S_) main_v38 main_c_14
  let main_v40 : IVec S_ 1 := andi main_v33 main_v39
  main_v40

def fn_part1 {F : FTy → Type} [FloatOps F] (main_arg1 : IVec S2x40000 32) (main_arg5 : FVec F S1x512 .f32) (main_arg6 : FVec F S1x256 .f32) (main_arg7 : FVec F S1x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S1x512 .f32 := Host.absf main_arg5
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x256 .f32 := Host.absf main_arg6
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S1x128 .f32 := Host.absf main_arg7
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg1 main_v33

def fn {F : FTy → Type} [FloatOps F] (main_arg0 : FVec F S4096x1536 .f32) (main_arg1 : IVec S2x40000 32) (main_arg2 : FVec F S1536x512 .f32) (main_arg3 : FVec F S512x256 .f32) (main_arg4 : FVec F S256x128 .f32) (main_arg5 : FVec F S1x512 .f32) (main_arg6 : FVec F S1x256 .f32) (main_arg7 : FVec F S1x128 .f32) : IVec S_ 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  let main_v4 : FVec F S1536x512 .f32 := Host.absf main_arg2
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_arg6 main_arg7 main_v13 main_v16
-- ==== Kernel.lean ====
abbrev S4096x1536 : Shape := ⟨2, ![4096, 1536]⟩
abbrev S2x40000 : Shape := ⟨2, ![2, 40000]⟩
abbrev S1536x512 : Shape := ⟨2, ![1536, 512]⟩
abbrev S512x256 : Shape := ⟨2, ![512, 256]⟩
abbrev S256x128 : Shape := ⟨2, ![256, 128]⟩
abbrev S1x512 : Shape := ⟨2, ![1, 512]⟩
abbrev S1x256 : Shape := ⟨2, ![1, 256]⟩
abbrev S1x128 : Shape := ⟨2, ![1, 128]⟩
abbrev S4096x128 : Shape := ⟨2, ![4096, 128]⟩
abbrev S1024x1536 : Shape := ⟨2, ![1024, 1536]⟩
abbrev S1024x128 : Shape := ⟨2, ![1024, 128]⟩
abbrev S1024x512 : Shape := ⟨2, ![1024, 512]⟩
abbrev S1024x256 : Shape := ⟨2, ![1024, 256]⟩
abbrev S1x40000 : Shape := ⟨2, ![1, 40000]⟩
abbrev S40000 : Shape := ⟨1, ![40000]⟩
abbrev S4096 : Shape := ⟨1, ![4096]⟩
abbrev S44096 : Shape := ⟨1, ![44096]⟩
abbrev S_ : Shape := ⟨0, ![]⟩
abbrev S4096x4096 : Shape := ⟨2, ![4096, 4096]⟩
abbrev S44096x1 : Shape := ⟨2, ![44096, 1]⟩
abbrev S44096x2 : Shape := ⟨2, ![44096, 2]⟩
abbrev S40000x1 : Shape := ⟨2, ![40000, 1]⟩
abbrev S40000x2 : Shape := ⟨2, ![40000, 2]⟩
abbrev S4096x1 : Shape := ⟨2, ![4096, 1]⟩
abbrev S512x4096 : Shape := ⟨2, ![512, 4096]⟩
abbrev S512x1 : Shape := ⟨2, ![512, 1]⟩
abbrev S512x128 : Shape := ⟨2, ![512, 128]⟩

abbrev nBuf : Space → Nat
  | .hbm => 94
  | .vmem => 30
  | .smem => 0
  | _ => 0

abbrev bufTy : (tb : Table) → Fin (tcTables nBuf tb) → BufTy
  | .hbm, ⟨0, _⟩ => ⟨S4096x1536, .f32⟩
  | .hbm, ⟨1, _⟩ => ⟨S2x40000, .i32⟩
  | .hbm, ⟨2, _⟩ => ⟨S1536x512, .f32⟩
  | .hbm, ⟨3, _⟩ => ⟨S512x256, .f32⟩
  | .hbm, ⟨4, _⟩ => ⟨S256x128, .f32⟩
  | .hbm, ⟨5, _⟩ => ⟨S1x512, .f32⟩
  | .hbm, ⟨6, _⟩ => ⟨S1x256, .f32⟩
  | .hbm, ⟨7, _⟩ => ⟨S1x128, .f32⟩
  | .hbm, ⟨8, _⟩ => ⟨S1536x512, .bf16⟩
  | .hbm, ⟨9, _⟩ => ⟨S512x256, .bf16⟩
  | .hbm, ⟨10, _⟩ => ⟨S256x128, .bf16⟩
  | .hbm, ⟨11, _⟩ => ⟨S4096x128, .f32⟩
  | .hbm, ⟨12, _⟩ => ⟨S1x40000, .i32⟩
  | .hbm, ⟨13, _⟩ => ⟨S40000, .i32⟩
  | .hbm, ⟨14, _⟩ => ⟨S1x40000, .i32⟩
  | .hbm, ⟨15, _⟩ => ⟨S40000, .i32⟩
  | .hbm, ⟨16, _⟩ => ⟨S4096, .i32⟩
  | .hbm, ⟨17, _⟩ => ⟨S44096, .i32⟩
  | .hbm, ⟨18, _⟩ => ⟨S44096, .i32⟩
  | .hbm, ⟨19, _⟩ => ⟨S_, .f32⟩
  | .hbm, ⟨20, _⟩ => ⟨S44096, .f32⟩
  | .hbm, ⟨21, _⟩ => ⟨S_, .f32⟩
  | .hbm, ⟨22, _⟩ => ⟨S4096x4096, .f32⟩
  | .hbm, ⟨23, _⟩ => ⟨S_, .i32⟩
  | .hbm, ⟨24, _⟩ => ⟨S44096, .i32⟩
  | .hbm, ⟨25, _⟩ => ⟨S44096, .i1⟩
  | .hbm, ⟨26, _⟩ => ⟨S_, .i32⟩
  | .hbm, ⟨27, _⟩ => ⟨S44096, .i32⟩
  | .hbm, ⟨28, _⟩ => ⟨S44096, .i32⟩
  | .hbm, ⟨29, _⟩ => ⟨S44096, .i32⟩
  | .hbm, ⟨30, _⟩ => ⟨S_, .i32⟩
  | .hbm, ⟨31, _⟩ => ⟨S44096, .i32⟩
  | .hbm, ⟨32, _⟩ => ⟨S44096, .i1⟩
  | .hbm, ⟨33, _⟩ => ⟨S_, .i32⟩
  | .hbm, ⟨34, _⟩ => ⟨S44096, .i32⟩
  | .hbm, ⟨35, _⟩ => ⟨S44096, .i32⟩
  | .hbm, ⟨36, _⟩ => ⟨S44096, .i32⟩
  | .hbm, ⟨37, _⟩ => ⟨S44096x1, .i32⟩
  | .hbm, ⟨38, _⟩ => ⟨S44096x1, .i32⟩
  | .hbm, ⟨39, _⟩ => ⟨S44096x2, .i32⟩
  | .hbm, ⟨40, _⟩ => ⟨S4096x4096, .f32⟩
  | .hbm, ⟨41, _⟩ => ⟨S_, .f32⟩
  | .hbm, ⟨42, _⟩ => ⟨S40000, .f32⟩
  | .hbm, ⟨43, _⟩ => ⟨S_, .f32⟩
  | .hbm, ⟨44, _⟩ => ⟨S4096x128, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S40000, .i32⟩
  | .hbm, ⟨52, _⟩ => ⟨S40000, .i32⟩
  | .hbm, ⟨53, _⟩ => ⟨S_, .i32⟩
  | .hbm, ⟨54, _⟩ => ⟨S40000, .i32⟩
  | .hbm, ⟨55, _⟩ => ⟨S40000, .i1⟩
  | .hbm, ⟨56, _⟩ => ⟨S_, .i32⟩
  | .hbm, ⟨57, _⟩ => ⟨S40000, .i32⟩
  | .hbm, ⟨58, _⟩ => ⟨S40000, .i1⟩
  | .hbm, ⟨59, _⟩ => ⟨S_, .i32⟩
  | .hbm, ⟨60, _⟩ => ⟨S_, .i1⟩
  | .hbm, ⟨61, _⟩ => ⟨S40000, .i1⟩
  | .hbm, ⟨62, _⟩ => ⟨S40000, .i1⟩
  | .hbm, ⟨63, _⟩ => ⟨S40000, .i1⟩
  | .hbm, ⟨64, _⟩ => ⟨S40000, .i32⟩
  | .hbm, ⟨65, _⟩ => ⟨S40000, .i32⟩
  | .hbm, ⟨66, _⟩ => ⟨S40000, .i32⟩
  | .hbm, ⟨67, _⟩ => ⟨S_, .i32⟩
  | .hbm, ⟨68, _⟩ => ⟨S40000, .i32⟩
  | .hbm, ⟨69, _⟩ => ⟨S40000, .i1⟩
  | .hbm, ⟨70, _⟩ => ⟨S_, .i32⟩
  | .hbm, ⟨71, _⟩ => ⟨S40000, .i32⟩
  | .hbm, ⟨72, _⟩ => ⟨S40000, .i32⟩
  | .hbm, ⟨73, _⟩ => ⟨S40000, .i32⟩
  | .hbm, ⟨74, _⟩ => ⟨S_, .i32⟩
  | .hbm, ⟨75, _⟩ => ⟨S40000, .i32⟩
  | .hbm, ⟨76, _⟩ => ⟨S40000, .i1⟩
  | .hbm, ⟨77, _⟩ => ⟨S_, .i32⟩
  | .hbm, ⟨78, _⟩ => ⟨S40000, .i32⟩
  | .hbm, ⟨79, _⟩ => ⟨S40000, .i32⟩
  | .hbm, ⟨80, _⟩ => ⟨S40000, .i32⟩
  | .hbm, ⟨81, _⟩ => ⟨S40000x1, .i32⟩
  | .hbm, ⟨82, _⟩ => ⟨S40000x1, .i32⟩
  | .hbm, ⟨83, _⟩ => ⟨S40000x2, .i32⟩
  | .hbm, ⟨84, _⟩ => ⟨S4096x128, .f32⟩
  | .hbm, ⟨85, _⟩ => ⟨S_, .f32⟩
  | .hbm, ⟨86, _⟩ => ⟨S4096, .f32⟩
  | .hbm, ⟨87, _⟩ => ⟨S_, .f32⟩
  | .hbm, ⟨88, _⟩ => ⟨S4096, .f32⟩
  | .hbm, ⟨89, _⟩ => ⟨S4096, .f32⟩
  | .hbm, ⟨90, _⟩ => ⟨S4096, .f32⟩
  | .hbm, ⟨91, _⟩ => ⟨S4096x1, .f32⟩
  | .hbm, ⟨92, _⟩ => ⟨S4096x128, .f32⟩
  | .hbm, ⟨93, _⟩ => ⟨S4096x128, .f32⟩
  | .local _ .vmem, ⟨0, _⟩ => ⟨S1024x1536, .f32⟩
  | .local _ .vmem, ⟨1, _⟩ => ⟨S1024x1536, .f32⟩
  | .local _ .vmem, ⟨2, _⟩ => ⟨S1536x512, .bf16⟩
  | .local _ .vmem, ⟨3, _⟩ => ⟨S1x512, .f32⟩
  | .local _ .vmem, ⟨4, _⟩ => ⟨S512x256, .bf16⟩
  | .local _ .vmem, ⟨5, _⟩ => ⟨S1x256, .f32⟩
  | .local _ .vmem, ⟨6, _⟩ => ⟨S256x128, .bf16⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S512x4096, .f32⟩
  | .local _ .vmem, ⟨11, _⟩ => ⟨S512x4096, .f32⟩
  | .local _ .vmem, ⟨12, _⟩ => ⟨S4096x128, .f32⟩
  | .local _ .vmem, ⟨13, _⟩ => ⟨S4096x1, .f32⟩
  | .local _ .vmem, ⟨14, _⟩ => ⟨S512x1, .f32⟩
  | .local _ .vmem, ⟨15, _⟩ => ⟨S512x1, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x4096, .f32⟩
  | .local _ .vmem, ⟨21, _⟩ => ⟨S512x4096, .f32⟩
  | .local _ .vmem, ⟨22, _⟩ => ⟨S4096x128, .f32⟩
  | .local _ .vmem, ⟨23, _⟩ => ⟨S4096x1, .f32⟩
  | .local _ .vmem, ⟨24, _⟩ => ⟨S512x1, .f32⟩
  | .local _ .vmem, ⟨25, _⟩ => ⟨S512x1, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_c_6 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_c_1 : Ref sig .tc := ⟨.hbm, 53, rfl⟩
abbrev main_call0_v5 : Ref sig .tc := ⟨.hbm, 54, rfl⟩
abbrev main_call0_v6 : Ref sig .tc := ⟨.hbm, 55, rfl⟩
abbrev main_call0_c_2 : Ref sig .tc := ⟨.hbm, 56, rfl⟩
abbrev main_call0_v7 : Ref sig .tc := ⟨.hbm, 57, rfl⟩
abbrev main_call0_v8 : Ref sig .tc := ⟨.hbm, 58, rfl⟩
abbrev main_call0_c_3 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_v29 : Ref sig .tc := ⟨.hbm, 66, rfl⟩
abbrev main_c_7 : Ref sig .tc := ⟨.hbm, 67, rfl⟩
abbrev main_v30 : Ref sig .tc := ⟨.hbm, 68, rfl⟩
abbrev main_v31 : Ref sig .tc := ⟨.hbm, 69, rfl⟩
abbrev main_c_8 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_9 : Ref sig .tc := ⟨.hbm, 74, rfl⟩
abbrev main_v35 : Ref sig .tc := ⟨.hbm, 75, rfl⟩
abbrev main_v36 : Ref sig .tc := ⟨.hbm, 76, rfl⟩
abbrev main_c_10 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_11 : Ref sig .tc := ⟨.hbm, 85, rfl⟩
abbrev main_v44 : Ref sig .tc := ⟨.hbm, 86, rfl⟩
abbrev main_cst_12 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4096x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bitsLt_bf16_f32 : FTy.bits .bf16 < FTy.bits .f32
  inb_S1024x1536_S1024x1536_0_0 : ∀ a, (![0, 0] : Fin 2 → Nat) a + S1024x1536.size a ≤ S1024x1536.size a
  h_S1024x1536 : 0 < S1024x1536.numel
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  broadcasts_S1x256_S1024x256 : S1x256.Broadcasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  slices_S2x40000_S1x40000_0_0 : S2x40000.Slices ![0, 0] S1x40000
  shapeCasts_S1x40000_S40000 : S1x40000.ShapeCasts S40000
  slices_S2x40000_S1x40000_1_0 : S2x40000.Slices ![1, 0] S1x40000
  concatenates_S40000_S4096_S44096_d0 : Shape.Concatenates [S40000, S4096] S44096 0
  bcast_S_S44096 : S_.BroadcastsInDim S44096 (![] : Fin 0 → Fin S44096.rank)
  bcast_S_S4096x4096 : S_.BroadcastsInDim S4096x4096 (![] : Fin 0 → Fin S4096x4096.rank)
  bcast_S44096_S44096x1_0 : S44096.BroadcastsInDim S44096x1 (![0] : Fin 1 → Fin S44096x1.rank)
  concatenates_S44096x1_S44096x1_S44096x2_d1 : Shape.Concatenates [S44096x1, S44096x1] S44096x2 1
  bcast_S_S40000 : S_.BroadcastsInDim S40000 (![] : Fin 0 → Fin S40000.rank)
  bcast_S_S4096x128 : S_.BroadcastsInDim S4096x128 (![] : Fin 0 → Fin S4096x128.rank)
  bcast_S40000_S40000x1_0 : S40000.BroadcastsInDim S40000x1 (![0] : Fin 1 → Fin S40000x1.rank)
  concatenates_S40000x1_S40000x1_S40000x2_d1 : Shape.Concatenates [S40000x1, S40000x1] S40000x2 1
  reducesTo_S4096x128_S4096_d1 : S4096x128.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  dot_S1024x1536_S1536x512_S1024x512_1_0_0_1_n_n_wf : DotDims.WF S1024x1536 S1536x512 S1024x512 [1] [0] [0] [1] [] []
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  scatter_S4096x4096_S44096x2_S44096_n_01_01_1_wf : ScatterDims.WF S4096x4096 S44096x2 S44096 [] [0, 1] [0, 1] 1
  scatter_S4096x128_S40000x2_S40000_n_01_01_1_wf : ScatterDims.WF S4096x128 S40000x2 S40000 [] [0, 1] [0, 1] 1
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1536.size a ≤ S4096x1536.size a
  hwx0_0 : ∀ i : grid0.Coords, EltTy.bits .f32 = 32 ∨ (Rect.block (s := S4096x1536) S1024x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .bf16 = 32 ∨ (Rect.block (s := S1536x512) S1536x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S4096x128.size a
  hwx0_7 : ∀ i : grid0.Coords, EltTy.bits .f32 = 32 ∨ (Rect.block (s := S4096x128) S1024x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S4096x1.size a
  hwx1_2 : ∀ i : grid1.Coords, EltTy.bits .f32 = 32 ∨ (Rect.block (s := S4096x1) S4096x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S4096x1.size a
  hwx1_3 : ∀ i : grid1.Coords, EltTy.bits .f32 = 32 ∨ (Rect.block (s := S4096x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x128.size a
  hwx1_4 : ∀ i : grid1.Coords, EltTy.bits .f32 = 32 ∨ (Rect.block (s := S4096x128) S512x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S4096x128.size a
  hwx1_5 : ∀ i : grid1.Coords, EltTy.bits .f32 = 32 ∨ (Rect.block (s := S4096x128) S512x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S4096x128.size a
  hwx2_1 : ∀ i : grid2.Coords, EltTy.bits .f32 = 32 ∨ (Rect.block (s := S4096x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x1.size a ≤ S4096x1.size a
  hwx2_2 : ∀ i : grid2.Coords, EltTy.bits .f32 = 32 ∨ (Rect.block (s := S4096x1) S4096x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S4096x1.size a
  hwx2_3 : ∀ i : grid2.Coords, EltTy.bits .f32 = 32 ∨ (Rect.block (s := S4096x1) S512x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S4096x128.size a
  hwx2_4 : ∀ i : grid2.Coords, EltTy.bits .f32 = 32 ∨ (Rect.block (s := S4096x128) S512x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S4096x128.size a
  hwx2_5 : ∀ i : grid2.Coords, EltTy.bits .f32 = 32 ∨ (Rect.block (s := S4096x128) S512x128.size (cc2_transform_5 i) (hinb2_5 i)).WholeWords (EltTy.packing .f32)

variable [Facts₀]

def dot_S1024x1536_S1536x512_S1024x512_1_0_0_1_n_n : DotDims S1024x1536 S1536x512 S1024x512 where
  lhsContracting := [1]
  rhsContracting := [0]
  lhsNonContracting := [0]
  rhsNonContracting := [1]
  lhsBatch := []
  rhsBatch := []
  wf := dot_S1024x1536_S1536x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def scatter_S4096x4096_S44096x2_S44096_n_01_01_1 : ScatterDims S4096x4096 S44096x2 S44096 where
  updateWindowDims := []
  insertedWindowDims := [0, 1]
  scatterDimsToOperandDims := [0, 1]
  indexVectorDim := 1
  wf := scatter_S4096x4096_S44096x2_S44096_n_01_01_1_wf
def scatter_S4096x128_S40000x2_S40000_n_01_01_1 : ScatterDims S4096x128 S40000x2 S40000 where
  updateWindowDims := []
  insertedWindowDims := [0, 1]
  scatterDimsToOperandDims := [0, 1]
  indexVectorDim := 1
  wf := scatter_S4096x128_S40000x2_S40000_n_01_01_1_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S1024x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4096x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S512x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v49) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S4096x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S4096x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S512x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S512x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v50) S512x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4096x1536 : Shape := ⟨2, ![4096, 1536]⟩
abbrev S2x40000 : Shape := ⟨2, ![2, 40000]⟩
abbrev S1536x512 : Shape := ⟨2, ![1536, 512]⟩
abbrev S512x256 : Shape := ⟨2, ![512, 256]⟩
abbrev S256x128 : Shape := ⟨2, ![256, 128]⟩
abbrev S1x512 : Shape := ⟨2, ![1, 512]⟩
abbrev S1x256 : Shape := ⟨2, ![1, 256]⟩
abbrev S1x128 : Shape := ⟨2, ![1, 128]⟩
abbrev S0 : Shape := ⟨1, ![0]⟩
abbrev S_ : Shape := ⟨0, ![]⟩
abbrev S4096x512 : Shape := ⟨2, ![4096, 512]⟩
abbrev S512x1536 : Shape := ⟨2, ![512, 1536]⟩
abbrev S512x512 : Shape := ⟨2, ![512, 512]⟩
abbrev S4096x256 : Shape := ⟨2, ![4096, 256]⟩
abbrev S4096x128 : Shape := ⟨2, ![4096, 128]⟩
abbrev S512x128 : Shape := ⟨2, ![512, 128]⟩
abbrev S1x40000 : Shape := ⟨2, ![1, 40000]⟩
abbrev S40000 : Shape := ⟨1, ![40000]⟩
abbrev S4096 : Shape := ⟨1, ![4096]⟩
abbrev S44096 : Shape := ⟨1, ![44096]⟩
abbrev S4096x4096 : Shape := ⟨2, ![4096, 4096]⟩
abbrev S44096x1 : Shape := ⟨2, ![44096, 1]⟩
abbrev S44096x2 : Shape := ⟨2, ![44096, 2]⟩
abbrev S4096x1 : Shape := ⟨2, ![4096, 1]⟩
abbrev S1x4096 : Shape := ⟨2, ![1, 4096]⟩

abbrev nBuf : Space → Nat
  | .hbm => 66
  | .vmem => 36
  | .smem => 0
  | _ => 0

abbrev bufTy : (tb : Table) → Fin (tcTables nBuf tb) → BufTy
  | .hbm, ⟨0, _⟩ => ⟨S4096x1536, .f32⟩
  | .hbm, ⟨1, _⟩ => ⟨S2x40000, .i32⟩
  | .hbm, ⟨2, _⟩ => ⟨S1536x512, .f32⟩
  | .hbm, ⟨3, _⟩ => ⟨S512x256, .f32⟩
  | .hbm, ⟨4, _⟩ => ⟨S256x128, .f32⟩
  | .hbm, ⟨5, _⟩ => ⟨S1x512, .f32⟩
  | .hbm, ⟨6, _⟩ => ⟨S1x256, .f32⟩
  | .hbm, ⟨7, _⟩ => ⟨S1x128, .f32⟩
  | .hbm, ⟨8, _⟩ => ⟨S0, .i32⟩
  | .hbm, ⟨9, _⟩ => ⟨S_, .f32⟩
  | .hbm, ⟨10, _⟩ => ⟨S4096x1536, .f32⟩
  | .hbm, ⟨11, _⟩ => ⟨S4096x1536, .f32⟩
  | .hbm, ⟨12, _⟩ => ⟨S4096x512, .f32⟩
  | .hbm, ⟨13, _⟩ => ⟨S4096x256, .f32⟩
  | .hbm, ⟨14, _⟩ => ⟨S4096x128, .f32⟩
  | .hbm, ⟨15, _⟩ => ⟨S1x40000, .i32⟩
  | .hbm, ⟨16, _⟩ => ⟨S40000, .i32⟩
  | .hbm, ⟨17, _⟩ => ⟨S1x40000, .i32⟩
  | .hbm, ⟨18, _⟩ => ⟨S40000, .i32⟩
  | .hbm, ⟨19, _⟩ => ⟨S4096, .i32⟩
  | .hbm, ⟨20, _⟩ => ⟨S44096, .i32⟩
  | .hbm, ⟨21, _⟩ => ⟨S44096, .i32⟩
  | .hbm, ⟨22, _⟩ => ⟨S_, .f32⟩
  | .hbm, ⟨23, _⟩ => ⟨S4096x4096, .f32⟩
  | .hbm, ⟨24, _⟩ => ⟨S_, .i32⟩
  | .hbm, ⟨25, _⟩ => ⟨S44096, .i32⟩
  | .hbm, ⟨26, _⟩ => ⟨S44096, .i1⟩
  | .hbm, ⟨27, _⟩ => ⟨S_, .i32⟩
  | .hbm, ⟨28, _⟩ => ⟨S44096, .i32⟩
  | .hbm, ⟨29, _⟩ => ⟨S44096, .i32⟩
  | .hbm, ⟨30, _⟩ => ⟨S44096, .i32⟩
  | .hbm, ⟨31, _⟩ => ⟨S_, .i32⟩
  | .hbm, ⟨32, _⟩ => ⟨S44096, .i32⟩
  | .hbm, ⟨33, _⟩ => ⟨S44096, .i1⟩
  | .hbm, ⟨34, _⟩ => ⟨S_, .i32⟩
  | .hbm, ⟨35, _⟩ => ⟨S44096, .i32⟩
  | .hbm, ⟨36, _⟩ => ⟨S44096, .i32⟩
  | .hbm, ⟨37, _⟩ => ⟨S44096, .i32⟩
  | .hbm, ⟨38, _⟩ => ⟨S44096x1, .i32⟩
  | .hbm, ⟨39, _⟩ => ⟨S44096x1, .i32⟩
  | .hbm, ⟨40, _⟩ => ⟨S44096x2, .i32⟩
  | .hbm, ⟨41, _⟩ => ⟨S_, .f32⟩
  | .hbm, ⟨42, _⟩ => ⟨S44096, .f32⟩
  | .hbm, ⟨43, _⟩ => ⟨S4096x4096, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .i1⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S4096x1, .f32⟩
  | .hbm, ⟨55, _⟩ => ⟨S4096x4096, .f32⟩
  | .hbm, ⟨56, _⟩ => ⟨S4096x4096, .f32⟩
  | .hbm, ⟨57, _⟩ => ⟨S1x4096, .f32⟩
  | .hbm, ⟨58, _⟩ => ⟨S4096x4096, .f32⟩
  | .hbm, ⟨59, _⟩ => ⟨S4096x4096, .f32⟩
  | .hbm, ⟨60, _⟩ => ⟨S_, .i32⟩
  | .hbm, ⟨61, _⟩ => ⟨S_, .f32⟩
  | .hbm, ⟨62, _⟩ => ⟨S4096x4096, .f32⟩
  | .hbm, ⟨63, _⟩ => ⟨S4096x4096, .bf16⟩
  | .hbm, ⟨64, _⟩ => ⟨S4096x128, .f32⟩
  | .hbm, ⟨65, _⟩ => ⟨S4096x128, .f32⟩
  | .local _ .vmem, ⟨0, _⟩ => ⟨S512x1536, .f32⟩
  | .local _ .vmem, ⟨1, _⟩ => ⟨S512x1536, .f32⟩
  | .local _ .vmem, ⟨2, _⟩ => ⟨S1536x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S1x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S256x128, .f32⟩
  | .local _ .vmem, ⟨15, _⟩ => ⟨S1x128, .f32⟩
  | .local _ .vmem, ⟨16, _⟩ => ⟨S512x128, .f32⟩
  | .local _ .vmem, ⟨17, _⟩ => ⟨S512x128, .f32⟩
  | .local _ .vmem, ⟨18, _⟩ => ⟨S512x512, .bf16⟩
  | .local _ .vmem, ⟨19, _⟩ => ⟨S512x512, .bf16⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x512, .bf16⟩
  | .local _ .vmem, ⟨28, _⟩ => ⟨S512x512, .bf16⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S512x128, .f32⟩
  | .local _ .vmem, ⟨35, _⟩ => ⟨S512x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_call0_v0 : Ref sig .tc := ⟨.hbm, 51, rfl⟩
abbrev main_call0_v1 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_call1_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![8, 8], ![false, false]⟩

def k4_cond2 (i : grid4.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S512x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S512x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S512x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

class Facts₀ : Prop where
  hz_S0 : S0.numel = 0
  bcast_S_S4096x1536 : S_.BroadcastsInDim S4096x1536 (![] : Fin 0 → Fin S4096x1536.rank)
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536x512_S1536x512_0_0 : ∀ a, (![0, 0] : Fin 2 → Nat) a + S1536x512.size a ≤ S1536x512.size a
  h_S1536x512 : 0 < S1536x512.numel
  inb_S1x512_S1x512_0_0 : ∀ a, (![0, 0] : Fin 2 → Nat) a + S1x512.size a ≤ S1x512.size a
  h_S1x512 : 0 < S1x512.numel
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  broadcasts_S1x256_S512x256 : S1x256.Broadcasts S512x256
  shapeCasts_S512x256_S512x256 : S512x256.ShapeCasts S512x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  broadcasts_S1x128_S512x128 : S1x128.Broadcasts S512x128
  inb_S512x128_S512x128_0_0 : ∀ a, (![0, 0] : Fin 2 → Nat) a + S512x128.size a ≤ S512x128.size a
  h_S512x128 : 0 < S512x128.numel
  slices_S2x40000_S1x40000_0_0 : S2x40000.Slices ![0, 0] S1x40000
  shapeCasts_S1x40000_S40000 : S1x40000.ShapeCasts S40000
  slices_S2x40000_S1x40000_1_0 : S2x40000.Slices ![1, 0] S1x40000
  concatenates_S40000_S4096_S44096_d0 : Shape.Concatenates [S40000, S4096] S44096 0
  bcast_S_S4096x4096 : S_.BroadcastsInDim S4096x4096 (![] : Fin 0 → Fin S4096x4096.rank)
  bcast_S_S44096 : S_.BroadcastsInDim S44096 (![] : Fin 0 → Fin S44096.rank)
  bcast_S44096_S44096x1_0 : S44096.BroadcastsInDim S44096x1 (![0] : Fin 1 → Fin S44096x1.rank)
  concatenates_S44096x1_S44096x1_S44096x2_d1 : Shape.Concatenates [S44096x1, S44096x1] S44096x2 1
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  pads_S4096x4096_S4096x4096_000_000 : S4096x4096.Pads (![0, 0] : Fin 2 → Nat) ![0, 0] ![0, 0] S4096x4096
  bitsLt_bf16_f32 : FTy.bits .bf16 < FTy.bits .f32
  shapeCasts_S512x128_S512x128 : S512x128.ShapeCasts S512x128
  scatter_S4096x1536_S0_S4096x1536_01_n_n_0_wf : ScatterDims.WF S4096x1536 S0 S4096x1536 [0, 1] [] [] 0
  dot_S512x1536_S1536x512_S512x512_1_0_0_1_n_n_wf : DotDims.WF S512x1536 S1536x512 S512x512 [1] [0] [0] [1] [] []
  dot_S512x512_S512x256_S512x256_1_0_0_1_n_n_wf : DotDims.WF S512x512 S512x256 S512x256 [1] [0] [0] [1] [] []
  dot_S512x256_S256x128_S512x128_1_0_0_1_n_n_wf : DotDims.WF S512x256 S256x128 S512x128 [1] [0] [0] [1] [] []
  scatter_S4096x4096_S44096x2_S44096_n_01_01_1_wf : ScatterDims.WF S4096x4096 S44096x2 S44096 [] [0, 1] [0, 1] 1
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1536.size a ≤ S4096x1536.size a
  hwx0_0 : ∀ i : grid0.Coords, EltTy.bits .f32 = 32 ∨ (Rect.block (s := S4096x1536) S512x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .f32 = 32 ∨ (Rect.block (s := S1536x512) S1536x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .f32 = 32 ∨ (Rect.block (s := S4096x512) S512x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .f32 = 32 ∨ (Rect.block (s := S4096x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x256.size a
  hwx1_3 : ∀ i : grid1.Coords, EltTy.bits .f32 = 32 ∨ (Rect.block (s := S4096x256) S512x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S4096x256.size a
  hwx2_0 : ∀ i : grid2.Coords, EltTy.bits .f32 = 32 ∨ (Rect.block (s := S4096x256) S512x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S4096x128.size a
  hwx2_3 : ∀ i : grid2.Coords, EltTy.bits .f32 = 32 ∨ (Rect.block (s := S4096x128) S512x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S4096x4096.size a
  hwx3_0 : ∀ i : grid3.Coords, EltTy.bits .bf16 = 32 ∨ (Rect.block (s := S4096x4096) S512x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x128.size a ≤ S4096x128.size a
  hwx3_1 : ∀ i : grid3.Coords, EltTy.bits .f32 = 32 ∨ (Rect.block (s := S4096x128) S512x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S4096x128.size a
  hwx3_2 : ∀ i : grid3.Coords, EltTy.bits .f32 = 32 ∨ (Rect.block (s := S4096x128) S512x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S4096x128.size a
  hwx3_3 : ∀ i : grid3.Coords, EltTy.bits .f32 = 32 ∨ (Rect.block (s := S4096x128) S512x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x512.size a ≤ S4096x4096.size a
  hwx4_0 : ∀ i : grid4.Coords, EltTy.bits .bf16 = 32 ∨ (Rect.block (s := S4096x4096) S512x512.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x128.size a ≤ S4096x128.size a
  hwx4_1 : ∀ i : grid4.Coords, EltTy.bits .f32 = 32 ∨ (Rect.block (s := S4096x128) S512x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x128.size a ≤ S4096x128.size a
  hwx4_2 : ∀ i : grid4.Coords, EltTy.bits .f32 = 32 ∨ (Rect.block (s := S4096x128) S512x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x128.size a ≤ S4096x128.size a
  hwx4_3 : ∀ i : grid4.Coords, EltTy.bits .f32 = 32 ∨ (Rect.block (s := S4096x128) S512x128.size (cc4_transform_3 i) (hinb4_3 i)).WholeWords (EltTy.packing .f32)

variable [Facts₀]

def scatter_S4096x1536_S0_S4096x1536_01_n_n_0 : ScatterDims S4096x1536 S0 S4096x1536 where
  updateWindowDims := [0, 1]
  insertedWindowDims := []
  scatterDimsToOperandDims := []
  indexVectorDim := 0
  wf := scatter_S4096x1536_S0_S4096x1536_01_n_n_0_wf
def dot_S512x1536_S1536x512_S512x512_1_0_0_1_n_n : DotDims S512x1536 S1536x512 S512x512 where
  lhsContracting := [1]
  rhsContracting := [0]
  lhsNonContracting := [0]
  rhsNonContracting := [1]
  lhsBatch := []
  rhsBatch := []
  wf := dot_S512x1536_S1536x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def scatter_S4096x4096_S44096x2_S44096_n_01_01_1 : ScatterDims S4096x4096 S44096x2 S44096 where
  updateWindowDims := []
  insertedWindowDims := [0, 1]
  scatterDimsToOperandDims := [0, 1]
  indexVectorDim := 1
  wf := scatter_S4096x4096_S44096x2_S44096_n_01_01_1_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v1) S512x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S512x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S512x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v41) S512x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v40) S512x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S512x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S512x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v42) S512x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== Proof.KB.Reg0.lean ====
import proofs.«153234_g2000604307514898_pallasbulk_606_4_alg».proof.Proof.Gen.Kernel.Launch
import proofs.«153234_g2000604307514898_pallasbulk_606_4_alg».proof.Proof.Gen.Kernel.Skeleton
import proofs.«153234_g2000604307514898_pallasbulk_606_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

section AnyFamily

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def layersOut (x0 : Vec F S1024x1536 .f32) (x1 : Vec F S1536x512 .bf16) (x2 : Vec F S1x512 .f32) (x3 : Vec F S512x256 .bf16) (x4 : Vec F S1x256 .f32) (x5 : Vec F S256x128 .bf16) (x6 : Vec F S1x128 .f32) : Vec F S1024x128 .f32 :=
  View.canon [⟨.unit _ _ inb_S1024x128_S1024x128_0_0, k0_pay1 (View.ld x0 (.unit _ _ inb_S1024x1536_S1024x1536_0_0)) (View.ld x1 (.unit _ _ inb_S1536x512_S1536x512_0_0)) (View.ld x2 (.unit _ _ inb_S1x512_S1x512_0_0))
    (View.ld x3 (.unit _ _ inb_S512x256_S512x256_0_0)) (View.ld x4 (.unit _ _ inb_S1x256_S1x256_0_0)) (View.ld x5 (.unit _ _ inb_S256x128_S256x128_0_0)) (View.ld x6 (.unit _ _ inb_S1x128_S1x128_0_0))⟩]

set_option maxHeartbeats 4000000 in
theorem sound_kernel0 (c : Dev nD) (t : Fin cfg0.N)
    (x0 : Vec F S1024x1536 .f32) (x1 : Vec F S1536x512 .bf16) (x2 : Vec F S1x512 .f32) (x3 : Vec F S512x256 .bf16) (x4 : Vec F S1x256 .f32) (x5 : Vec F S256x128 .bf16) (x6 : Vec F S1x128 .f32) (K : PUnit → sProp 𝕄) :
    iprop(owns (c : Thread nD τ) (st0_0 t) fullShare x0 ∗ owns (c : Thread nD τ) (st0_1 t) fullShare x1 ∗ owns (c : Thread nD τ) (st0_2 t) fullShare x2 ∗ owns (c : Thread nD τ) (st0_3 t) fullShare x3 ∗ owns (c : Thread nD τ) (st0_4 t) fullShare x4 ∗ owns (c : Thread nD τ) (st0_5 t) fullShare x5 ∗ owns (c : Thread nD τ) (st0_6 t) fullShare x6 ∗ (∃ d, owns (c : Thread nD τ) (st0_7 t) fullShare d)
        ∗ (iprop(owns (c : Thread nD τ) (st0_0 t) fullShare x0 ∗ owns (c : Thread nD τ) (st0_1 t) fullShare x1 ∗ owns (c : Thread nD τ) (st0_2 t) fullShare x2 ∗ owns (c : Thread nD τ) (st0_3 t) fullShare x3 ∗ owns (c : Thread nD τ) (st0_4 t) fullShare x4 ∗ owns (c : Thread nD τ) (st0_5 t) fullShare x5 ∗ owns (c : Thread nD τ) (st0_6 t) fullShare x6 ∗ owns (c : Thread nD τ) (st0_7 t) fullShare (layersOut x0 x1 x2 x3 x4 x5 x6)) -∗ K ⟨⟩))
      ⊢ wp frame (wpE (defs₀ (F := F)) Variants.none c none) Set.univ (bodyAt0 t) K := by
  unfold bodyAt0
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S1024x128.size (by rfl))

def dat0 (qs : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => layersOut (iblk0 V c 0 t) (iblk0 V c 1 t) (iblk0 V c 2 t) (iblk0 V c 3 t) (iblk0 V c 4 t) (iblk0 V c 5 t) (iblk0 V c 6 t)
  Φ _ := Pipeline.ΦA spec0 c
  q := qs
  owed _ := 0

variable (qs : Fin cfg0.W → PosShare TreeShare) (c : Dev nD)

theorem A_eq0 (w : Fin cfg0.W) : (dat0 V qs c).A w = V c (Pipeline.arrRef spec0 w) := rfl

theorem owed_eq0 (t : Fin (cfg0.N + 1)) : (dat0 V qs c).owed t = 0 := rfl

theorem q_eq0 (w : Fin cfg0.W) : (dat0 V qs c).q w = qs w := rfl

theorem recorded_eq0 (t : Fin (cfg0.N + 1)) : (dat0 V qs c).recorded t = Set.univ := rfl

theorem finds0 (t : Fin cfg0.N) :
    (∀ d, (dat0 V qs c).before 0 t d = iblk0 V c 0 t) ∧ (∀ d, (dat0 V qs c).before 1 t d = iblk0 V c 1 t)
    ∧ (∀ d, (dat0 V qs c).before 2 t d = iblk0 V c 2 t) ∧ (∀ d, (dat0 V qs c).before 3 t d = iblk0 V c 3 t)
    ∧ (∀ d, (dat0 V qs c).before 4 t d = iblk0 V c 4 t) ∧ (∀ d, (dat0 V qs c).before 5 t d = iblk0 V c 5 t)
    ∧ (∀ d, (dat0 V qs c).before 6 t d = iblk0 V c 6 t) := by
  refine ⟨?_, ?_, ?_, ?_, ?_, ?_, ?_⟩ <;>
    exact fun d => ((dat0 V qs c).before_in_eq_fetched _ rfl (fun _ => rfl) (fun _ _ _ => rfl) (fun _ => rfl) t d).trans rfl

theorem hin0 : Pipeline.ΦA spec0 c ⊢ (dat0 V qs c).Φ 0 := .rfl

theorem hout0 : (dat0 V qs c).Φ (Fin.last cfg0.N) ⊢ Pipeline.ΦA spec0 c := .rfl

theorem arrAt_in0 (w : Fin cfg0.W) (hw : w ≠ 7) (n : Nat) :
    (dat0 V qs c).arrAt w n = V c (Pipeline.arrRef spec0 w) :=
  (dat0 V qs c).arrAt_in w ((by decide : ∀ w : Fin cfg0.W, w ≠ 7 → (cfg0.win w).isOut = false) w hw) n

set_option maxHeartbeats 1000000 in
theorem body_obligation0 : BodyObligation (dat0 (F := F) V qs c) (defs₀ (F := F)) Variants.none () Set.univ := fun t => by
  rw [bigSep_W0, bigSep_W0]
  simp only [finds0 V qs c t]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c t (iblk0 V c 0 t) (iblk0 V c 1 t) (iblk0 V c 2 t) (iblk0 V c 3 t) (iblk0 V c 4 t) (iblk0 V c 5 t) (iblk0 V c 6 t) _)
  iframe H0 H1 H2 H3 H4 H5 H6
  isplitl [H7]; · iexists _; iexact H7
  iintro H
  iframe
  iexact Ho

end AnyFamily

end Cert.Kernel.Hand

end
-- ==== Proof.KB.Step.lean ====
import proofs.«153234_g2000604307514898_pallasbulk_606_4_alg».proof.Proof.Gen.Kernel.Launch
import proofs.«153234_g2000604307514898_pallasbulk_606_4_alg».proof.Proof.Gen.Kernel.Skeleton
import proofs.«153234_g2000604307514898_pallasbulk_606_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section AnyModel

def stepRows (cnt : Vec F S512x4096 .f32) (h : Vec F S4096x128 .f32) (dAll : Vec F S4096x1 .f32)
    (dRows : Vec F S512x1 .f32) (x0 : Vec F S512x128 .f32) : Vec F S512x128 .f32 :=
  k1_pay1 h dAll cnt dRows x0

theorem zeroOffsets : (![0, 0] : Fin 2 → Nat) = fun _ => 0 := funext fun a => by fin_cases a <;> rfl

def RunsStep (body : grid1.Coords → (arg1 : Memref sig .tc .vmem S512x4096 .f32) → arg1.IsWhole → (arg2 : Memref sig .tc .vmem S4096x128 .f32) → arg2.IsWhole
      → (arg3 : Memref sig .tc .vmem S4096x1 .f32) → arg3.IsWhole → (arg4 : Memref sig .tc .vmem S512x1 .f32) → arg4.IsWhole
      → (arg5 : Memref sig .tc .vmem S512x128 .f32) → arg5.IsWhole → (arg6 : Memref sig .tc .vmem S512x128 .f32) → arg6.IsWhole
      → Prog (TpuEff nD τ sig (Elt F) Λ₀ .tc) PUnit) : Prop :=
  ∀ (c : Dev nD) (E : Set ℕ) (i : grid1.Coords)
    (arg1 : Memref sig .tc .vmem S512x4096 .f32) (harg1 : arg1.IsWhole) (arg2 : Memref sig .tc .vmem S4096x128 .f32) (harg2 : arg2.IsWhole)
    (arg3 : Memref sig .tc .vmem S4096x1 .f32) (harg3 : arg3.IsWhole) (arg4 : Memref sig .tc .vmem S512x1 .f32) (harg4 : arg4.IsWhole)
    (arg5 : Memref sig .tc .vmem S512x128 .f32) (harg5 : arg5.IsWhole) (arg6 : Memref sig .tc .vmem S512x128 .f32) (harg6 : arg6.IsWhole)
    (cnt : Vec F S512x4096 .f32) (h : Vec F S4096x128 .f32) (dAll : Vec F S4096x1 .f32) (dRows : Vec F S512x1 .f32) (x0 : Vec F S512x128 .f32)
    (K : PUnit → sProp 𝕄),
    iprop(owns (c : Thread nD τ) arg1 fullShare cnt ∗ owns (c : Thread nD τ) arg2 fullShare h ∗ owns (c : Thread nD τ) arg3 fullShare dAll
        ∗ owns (c : Thread nD τ) arg4 fullShare dRows ∗ owns (c : Thread nD τ) arg5 fullShare x0 ∗ (∃ d, owns (c : Thread nD τ) arg6 fullShare d)
        ∗ (iprop(owns (c : Thread nD τ) arg1 fullShare cnt ∗ owns (c : Thread nD τ) arg2 fullShare h ∗ owns (c : Thread nD τ) arg3 fullShare dAll
            ∗ owns (c : Thread nD τ) arg4 fullShare dRows ∗ owns (c : Thread nD τ) arg5 fullShare x0
            ∗ owns (c : Thread nD τ) arg6 fullShare (stepRows cnt h dAll dRows x0)) -∗ K ⟨⟩))
      ⊢ wp frame (wpE (defs₀ (F := F)) Variants.none c none) E
          (body i arg1 harg1 arg2 harg2 arg3 harg3 arg4 harg4 arg5 harg5 arg6 harg6) K

set_option maxHeartbeats 1000000 in
theorem runs_step1 : RunsStep (F := F) cc1__prop_kernel := by
  intro c E i arg1 harg1 arg2 harg2 arg3 harg3 arg4 harg4 arg5 harg5 arg6 harg6 cnt h dAll dRows x0 K
  simp only [cc1__prop_kernel_eq_skeleton]; unfold cc1__prop_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero zeroOffsets inb_S512x128_S512x128_0_0 y⟩),
    View.canon_unit_zero zeroOffsets]
  simp only [View.readAt_eq_ld, View.ld_unit_zero (S := S4096x128) zeroOffsets, View.ld_unit_zero (S := S4096x1) zeroOffsets,
    View.ld_unit_zero (S := S512x4096) zeroOffsets, View.ld_unit_zero (S := S512x1) zeroOffsets,
    View.ld_unit_zero (S := S512x128) zeroOffsets]
  rfl

theorem runs_step2 : RunsStep (F := F) cc2__prop_kernel := runs_step1

end AnyModel

end Cert.Kernel.Hand

end
-- ==== Proof.KB.Reg1.lean ====
import proofs.«153234_g2000604307514898_pallasbulk_606_4_alg».proof.Proof.Gen.Kernel.Launch
import proofs.«153234_g2000604307514898_pallasbulk_606_4_alg».proof.Proof.Gen.Kernel.Skeleton
import proofs.«153234_g2000604307514898_pallasbulk_606_4_alg».proof.Proof.Gen.Kernel.Points
import proofs.«153234_g2000604307514898_pallasbulk_606_4_alg».proof.Proof.KB.Step
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section AnyModel

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

variable (qs : Fin cfg1.W → PosShare TreeShare) (c : Dev nD)

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => stepRows (iblk1 V c 0 t) (iblk1 V c 1 t) (iblk1 V c 2 t) (iblk1 V c 3 t) (iblk1 V c 4 t)
  Φ _ := Pipeline.ΦA spec1 c
  q := qs
  owed _ := 0

theorem A_eq1 (w : Fin cfg1.W) :
    (dat1 V qs c).A w = V c (Pipeline.arrRef spec1 w) := by
  dsimp only [dat1]

theorem owed_eq1 (t : Fin (cfg1.N + 1)) : (dat1 V qs c).owed t = 0 := by
  dsimp only [dat1]

theorem q_eq1 (w : Fin cfg1.W) : (dat1 V qs c).q w = qs w := by
  dsimp only [dat1]

theorem recorded_eq1 (t : Fin (cfg1.N + 1)) :
    (dat1 V qs c).recorded t = Set.univ := rfl

theorem holdsBlock1 (t : Fin cfg1.N) :
    (∀ d, (dat1 V qs c).before 0 t d = iblk1 V c 0 t) ∧ (∀ d, (dat1 V qs c).before 1 t d = iblk1 V c 1 t)
    ∧ (∀ d, (dat1 V qs c).before 2 t d = iblk1 V c 2 t) ∧ (∀ d, (dat1 V qs c).before 3 t d = iblk1 V c 3 t)
    ∧ (∀ d, (dat1 V qs c).before 4 t d = iblk1 V c 4 t) := by
  refine ⟨?_, ?_, ?_, ?_, ?_⟩ <;>
    exact fun d => ((dat1 V qs c).before_in_eq_fetched _ rfl (fun _ => rfl) (fun _ _ _ => rfl) (fun _ => rfl) t d).trans rfl

def handed1 (t : Fin cfg1.N) : sProp 𝕄 :=
  iprop((dat1 V qs c).Φ t.castSucc ∗ (dat1 V qs c).owesAt () t.castSucc
    ∗ (∃ d, owns (c : Thread nD τ) (st1_0 t) fullShare ((dat1 V qs c).before 0 t d))
    ∗ (∃ d, owns (c : Thread nD τ) (st1_1 t) fullShare ((dat1 V qs c).before 1 t d))
    ∗ (∃ d, owns (c : Thread nD τ) (st1_2 t) fullShare ((dat1 V qs c).before 2 t d))
    ∗ (∃ d, owns (c : Thread nD τ) (st1_3 t) fullShare ((dat1 V qs c).before 3 t d))
    ∗ (∃ d, owns (c : Thread nD τ) (st1_4 t) fullShare ((dat1 V qs c).before 4 t d))
    ∗ (∃ d, owns (c : Thread nD τ) (st1_5 t) fullShare ((dat1 V qs c).before 5 t d)))

def returned1 (t : Fin cfg1.N) : sProp 𝕄 :=
  iprop((dat1 V qs c).Φ t.succ ∗ (dat1 V qs c).owesAt () t.succ
    ∗ owns (c : Thread nD τ) (st1_0 t) fullShare ((dat1 V qs c).after 0 t)
    ∗ owns (c : Thread nD τ) (st1_1 t) fullShare ((dat1 V qs c).after 1 t)
    ∗ owns (c : Thread nD τ) (st1_2 t) fullShare ((dat1 V qs c).after 2 t)
    ∗ owns (c : Thread nD τ) (st1_3 t) fullShare ((dat1 V qs c).after 3 t)
    ∗ owns (c : Thread nD τ) (st1_4 t) fullShare ((dat1 V qs c).after 4 t)
    ∗ owns (c : Thread nD τ) (st1_5 t) fullShare ((dat1 V qs c).after 5 t))

theorem step_at_point1 (t : Fin cfg1.N) :
    handed1 V qs c t ⊢ wp frame (wpE (defs₀ (F := F)) Variants.none c none) Set.univ (bodyAt1 t) (fun _ => returned1 V qs c t) := by
  unfold handed1 returned1 bodyAt1
  simp only [holdsBlock1 V qs c t]
  rw [show (dat1 V qs c).Φ t.succ = (dat1 V qs c).Φ t.castSucc from rfl,
    show (dat1 V qs c).owesAt () t.succ = (dat1 V qs c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩⟩
  iapply (runs_step1 c Set.univ _ _ _ _ _ _ _ _ _ _ _ _ _
    (iblk1 V c 0 t) (iblk1 V c 1 t) (iblk1 V c 2 t) (iblk1 V c 3 t) (iblk1 V c 4 t) _)
  iframe H0 H1 H2 H3 H4
  isplitl [H5]; · iexists _; iexact H5
  iintro H
  iframe

theorem body_obligation1 :
    BodyObligation (dat1 (F := F) V qs c) (defs₀ (F := F)) Variants.none () Set.univ := fun t => by
  rw [bigSep_W1, bigSep_W1]
  exact step_at_point1 V qs c t

theorem hin1 : Pipeline.ΦA spec1 c ⊢ (dat1 V qs c).Φ 0 := by
  dsimp only [dat1]; iintro H; iexact H

theorem hout1 : (dat1 V qs c).Φ (Fin.last cfg1.N) ⊢ Pipeline.ΦA spec1 c := by
  dsimp only [dat1]; iintro H; iexact H

theorem arrAt_in1 (w : Fin cfg1.W) (hw : w ≠ 5) (n : Nat) :
    (dat1 V qs c).arrAt w n = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  rw [(dat1 V qs c).arrAt_in w hin n, A_eq1]

end AnyModel

end Cert.Kernel.Hand

end
-- ==== Proof.KB.Reg2.lean ====
import proofs.«153234_g2000604307514898_pallasbulk_606_4_alg».proof.Proof.Gen.Kernel.Launch
import proofs.«153234_g2000604307514898_pallasbulk_606_4_alg».proof.Proof.Gen.Kernel.Skeleton
import proofs.«153234_g2000604307514898_pallasbulk_606_4_alg».proof.Proof.Gen.Kernel.Points
import proofs.«153234_g2000604307514898_pallasbulk_606_4_alg».proof.Proof.KB.Step
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section AnyModel

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

variable (qs : Fin cfg2.W → PosShare TreeShare) (c : Dev nD)

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => stepRows (iblk2 V c 0 t) (iblk2 V c 1 t) (iblk2 V c 2 t) (iblk2 V c 3 t) (iblk2 V c 4 t)
  Φ _ := Pipeline.ΦA spec2 c
  q := qs
  owed _ := 0

theorem A_eq2 (w : Fin cfg2.W) :
    (dat2 V qs c).A w = V c (Pipeline.arrRef spec2 w) := by
  dsimp only [dat2]

theorem owed_eq2 (t : Fin (cfg2.N + 1)) : (dat2 V qs c).owed t = 0 := by
  dsimp only [dat2]

theorem q_eq2 (w : Fin cfg2.W) : (dat2 V qs c).q w = qs w := by
  dsimp only [dat2]

theorem recorded_eq2 (t : Fin (cfg2.N + 1)) :
    (dat2 V qs c).recorded t = Set.univ := rfl

theorem holdsBlock2 (t : Fin cfg2.N) :
    (∀ d, (dat2 V qs c).before 0 t d = iblk2 V c 0 t) ∧ (∀ d, (dat2 V qs c).before 1 t d = iblk2 V c 1 t)
    ∧ (∀ d, (dat2 V qs c).before 2 t d = iblk2 V c 2 t) ∧ (∀ d, (dat2 V qs c).before 3 t d = iblk2 V c 3 t)
    ∧ (∀ d, (dat2 V qs c).before 4 t d = iblk2 V c 4 t) := by
  refine ⟨?_, ?_, ?_, ?_, ?_⟩ <;>
    exact fun d => ((dat2 V qs c).before_in_eq_fetched _ rfl (fun _ => rfl) (fun _ _ _ => rfl) (fun _ => rfl) t d).trans rfl

def handed2 (t : Fin cfg2.N) : sProp 𝕄 :=
  iprop((dat2 V qs c).Φ t.castSucc ∗ (dat2 V qs c).owesAt () t.castSucc
    ∗ (∃ d, owns (c : Thread nD τ) (st2_0 t) fullShare ((dat2 V qs c).before 0 t d))
    ∗ (∃ d, owns (c : Thread nD τ) (st2_1 t) fullShare ((dat2 V qs c).before 1 t d))
    ∗ (∃ d, owns (c : Thread nD τ) (st2_2 t) fullShare ((dat2 V qs c).before 2 t d))
    ∗ (∃ d, owns (c : Thread nD τ) (st2_3 t) fullShare ((dat2 V qs c).before 3 t d))
    ∗ (∃ d, owns (c : Thread nD τ) (st2_4 t) fullShare ((dat2 V qs c).before 4 t d))
    ∗ (∃ d, owns (c : Thread nD τ) (st2_5 t) fullShare ((dat2 V qs c).before 5 t d)))

def returned2 (t : Fin cfg2.N) : sProp 𝕄 :=
  iprop((dat2 V qs c).Φ t.succ ∗ (dat2 V qs c).owesAt () t.succ
    ∗ owns (c : Thread nD τ) (st2_0 t) fullShare ((dat2 V qs c).after 0 t)
    ∗ owns (c : Thread nD τ) (st2_1 t) fullShare ((dat2 V qs c).after 1 t)
    ∗ owns (c : Thread nD τ) (st2_2 t) fullShare ((dat2 V qs c).after 2 t)
    ∗ owns (c : Thread nD τ) (st2_3 t) fullShare ((dat2 V qs c).after 3 t)
    ∗ owns (c : Thread nD τ) (st2_4 t) fullShare ((dat2 V qs c).after 4 t)
    ∗ owns (c : Thread nD τ) (st2_5 t) fullShare ((dat2 V qs c).after 5 t))

theorem step_at_point2 (t : Fin cfg2.N) :
    handed2 V qs c t ⊢ wp frame (wpE (defs₀ (F := F)) Variants.none c none) Set.univ (bodyAt2 t) (fun _ => returned2 V qs c t) := by
  unfold handed2 returned2 bodyAt2
  simp only [holdsBlock2 V qs c t]
  rw [show (dat2 V qs c).Φ t.succ = (dat2 V qs c).Φ t.castSucc from rfl,
    show (dat2 V qs c).owesAt () t.succ = (dat2 V qs c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩⟩
  iapply (runs_step2 c Set.univ _ _ _ _ _ _ _ _ _ _ _ _ _
    (iblk2 V c 0 t) (iblk2 V c 1 t) (iblk2 V c 2 t) (iblk2 V c 3 t) (iblk2 V c 4 t) _)
  iframe H0 H1 H2 H3 H4
  isplitl [H5]; · iexists _; iexact H5
  iintro H
  iframe

theorem body_obligation2 :
    BodyObligation (dat2 (F := F) V qs c) (defs₀ (F := F)) Variants.none () Set.univ := fun t => by
  rw [bigSep_W2, bigSep_W2]
  exact step_at_point2 V qs c t

theorem hin2 : Pipeline.ΦA spec2 c ⊢ (dat2 V qs c).Φ 0 := by
  dsimp only [dat2]; iintro H; iexact H

theorem hout2 : (dat2 V qs c).Φ (Fin.last cfg2.N) ⊢ Pipeline.ΦA spec2 c := by
  dsimp only [dat2]; iintro H; iexact H

theorem arrAt_in2 (w : Fin cfg2.W) (hw : w ≠ 5) (n : Nat) :
    (dat2 V qs c).arrAt w n = V c (Pipeline.arrRef spec2 w) := by
  have hin : (cfg2.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  rw [(dat2 V qs c).arrAt_in w hin n, A_eq2]

end AnyModel

end Cert.Kernel.Hand

end
-- ==== Proof.LibRun.lean ====
import Idealize.ShloMosaic.Lib.Pipeline.Frame
import Idealize.ShloMosaic.Lib.Pipeline.RegionsLoop
noncomputable section
namespace Cert.Hand.Run
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg pin BodyObligation RegionSeg arrRef)
variable {nD : Nat} {τ : Topo} {sig : RefSig} {F : FTy → Type} [FloatOps F] {U : Type} [URA U] {Λ₀ : Idealize.SL.Sem.Labels}
local notation "𝕄" => MT nD τ sig Unit (Elt F) ℕ U ℕ
abbrev atRefs (W : Dev nD → Valuation τ sig (Elt F)) : (c : Dev nD) → (b : Ref sig .tc) → Buf (Elt F) ((c : Thread nD τ).loc b) :=
  fun c b => W c b
abbrev Lz : GSem nD τ sig → Finset Unit := fun _ => ∅
abbrev lvz : GSem nD τ sig → Unit → ℕ := fun _ _ => 0
abbrev Owes (c : Dev nD) : sProp 𝕄 := iprop(∃ W, owes (c : Thread nD τ) (0 : CellTallies nD τ sig Unit) W)
abbrev Rr (c : Dev nD) : sProp 𝕄 := iprop((∃ r, prngReg c r) ∗ Owes c)
abbrev Held (c : Dev nD) (W : Valuation τ sig (Elt F)) : sProp 𝕄 := StableHlo.held (c : Thread nD τ) (Pipeline.ucRefs τ sig) W
theorem upd_other (W : Valuation τ sig (Elt F)) {r r' : Ref sig .tc} (x : (Proc.devRef (τ := τ) .tc r).ty.Contents (Elt F)) (h : r' ≠ r) :
    Function.update W (Proc.devRef .tc r) x (Proc.devRef .tc r') = W (Proc.devRef .tc r') :=
  Function.update_of_ne (StableHlo.devRef_ne_of_ne h) _ _
-- Putting back the value an update already holds at its reference gives the same update.
theorem upd_step {W W' : Valuation τ sig (Elt F)} (h : W = W') (r : DevRef τ sig) (x : r.ty.Contents (Elt F)) :
    Function.update W r (Function.update W' r x r) = Function.update W' r x := by
  rw [h, Function.update_self]
theorem Rr_owes (c : Dev nD) : (Rr c : sProp 𝕄) ⊢ Owes c := by
  iintro ⟨-, H⟩; iexact H
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp))) ∗ levAts Lz lvz)
      ⊢ (|={Set.univ}=> bigSep Finset.univ (fun c : Dev nD => Rr c) : sProp 𝕄) := by
  refine Pipeline.initEach Lz lvz fun c => ?_
  iintro ⟨⟨-, HO, -, Hp, -⟩, -⟩
  imodintro
  isplitl [Hp]; · iexists _; iexact Hp
  iexists ∅; iexact HO
theorem launch_ghost (u : U) :
    (ownU u : sProp 𝕄) ⊢ |={Set.univ}=> iprop(BI.own (emb₁ u) ∗ bigSep Finset.univ fun _ : Dev nD => (BI.emp : sProp 𝕄)) := by
  rw [ownU_emb₁, BI.bigSep_emp_const]
  iintro Hu
  imodintro
  isplitl [Hu]; · iexact Hu
  iempintro
theorem owes_enter {cfg : Cfg sig Λ₀} {c : Dev nD} (D : Dat τ (Elt F) Unit ℕ U ℕ cfg c)
    (h0 : D.owed 0 = 0) (hr : D.recorded 0 = Set.univ) : (Owes c : sProp 𝕄) ⊢ D.owesAt () 0 := by
  unfold Pipeline.Dat.owesAt Pipeline.owesWithin
  rw [h0]
  iintro ⟨%W, HO⟩
  iexists W
  isplitr
  · ipureintro; unfold Pipeline.Dat.bound; rw [hr]; exact fun _ _ => Or.inl trivial
  iexact HO
theorem owes_leave {cfg : Cfg sig Λ₀} {c : Dev nD} (D : Dat τ (Elt F) Unit ℕ U ℕ cfg c)
    (hN : D.owed (Fin.last cfg.N) = 0) : D.owesAt () (Fin.last cfg.N) ⊢ (Owes c : sProp 𝕄) := by
  unfold Pipeline.Dat.owesAt Pipeline.owesWithin
  rw [hN]
  iintro ⟨%W, -, HO⟩
  iexists W
  iexact HO
theorem enter_sorted (c : Dev nD) (Uin : Valuation τ sig (Elt F)) (A Zr Pf O : sProp 𝕄)
    (hsplit : Held c Uin ⊢ iprop(A ∗ Zr)) (hPf : (BI.emp : sProp 𝕄) ⊢ Pf) (hO : (Owes c : sProp 𝕄) ⊢ O) :
    iprop((Held c Uin ∗ Rr c) ∗ Pipeline.ownSems0 (fun k : PEmpty => k.elim) c ∗ levAts Lz lvz)
      ⊢ (|={Set.univ}=> iprop(A ∗ Pf ∗ O ∗ (∃ r, prngReg c r) ∗ Zr) : sProp 𝕄) := by
  iintro ⟨⟨Hh, Hp, HO⟩, -, -⟩
  ihave H := hsplit $$ Hh
  icases H with ⟨Ha, Hz⟩
  imodintro
  isplitl [Ha]; · iexact Ha
  isplitr; · iapply hPf; iempintro
  isplitl [HO]; · iapply hO; iexact HO
  isplitl [Hp]; · iexact Hp
  iexact Hz
theorem leave_sorted (c : Dev nD) (Uout : Valuation τ sig (Elt F)) (A Zr O : sProp 𝕄)
    (hjoin : iprop(A ∗ Zr) ⊢ Held c Uout) (hO : O ⊢ (Owes c : sProp 𝕄)) :
    iprop(A ∗ O ∗ (∃ r, prngReg c r) ∗ Zr) ⊢ (|={Set.univ}=> iprop(Held c Uout ∗ Rr c) : sProp 𝕄) := by
  iintro ⟨Ha, HO, Hp, Hz⟩
  imodintro
  isplitl [Ha Hz]
  · iapply hjoin; isplitl [Ha] <;> iassumption
  isplitl [Hp]; · iexact Hp
  iapply hO; iexact HO
theorem classInv_in {gr W : Nat} (win : Fin W → Pipeline.WinSpec sig gr) (c : Dev nD) (Pf : sProp 𝕄) :
    iprop((∃ r, prngReg c r) ∗ Pf ∗ Pipeline.scopedRest win c) ⊢ (Pipeline.ΦA win c : sProp 𝕄) := by
  unfold Pipeline.ΦA
  iintro ⟨Hp, -, Hr⟩
  isplitl [Hr]; · iexact Hr
  iexact Hp
theorem classInv_out {gr W : Nat} (win : Fin W → Pipeline.WinSpec sig gr) (c : Dev nD) :
    (Pipeline.ΦA win c : sProp 𝕄)
      ⊢ iprop((∃ r, prngReg c r) ∗ Pipeline.ownSems0 (fun k : PEmpty => k.elim) c ∗ Pipeline.scopedRest win c) := by
  rw [Pipeline.ownSems0_none]; unfold Pipeline.ΦA
  iintro ⟨Hr, Hp⟩
  isplitl [Hp]; · iexact Hp
  isplitr; · iempintro
  iexact Hr
theorem noTables (pre : Pipeline.Prefetch sig) (hK : pre.K = 0) (c : Dev nD) (q : Fin pre.K → PosShare TreeShare) (V : pre.Contents (Elt F)) :
    (BI.emp : sProp 𝕄) ⊢ Pipeline.prefHeld pre c q V := by
  unfold Pipeline.prefHeld
  haveI : IsEmpty (Fin pre.K) := by rw [hK]; infer_instance
  rw [Finset.univ_eq_empty, BI.bigSep_empty]
theorem held_split {cfg : Cfg sig Λ₀} (c : Dev nD) (hun : ∀ w, (arrRef cfg.spec w).isScoped = false) (W : Valuation τ sig (Elt F)) :
    (Held c W : sProp 𝕄) = iprop(Pipeline.arrBufs cfg.spec c (fun b => W b) ∗ Pipeline.unscopedRest cfg.spec c (fun b => W b)) := by
  unfold Held
  rw [← Pipeline.unscopedBufs_held (Ix := Unit) (Name := ℕ) (U := U) (Lvl := ℕ) c W]
  exact Pipeline.PerCore.unscopedBufs_split₀ (fun (_ : Dev nD) (_ : Unit) => cfg) () c hun _
section OneOutput
variable {cfg : Cfg sig Λ₀} {c : Dev nD} (D : Dat τ (Elt F) Unit ℕ U ℕ cfg c)
  (Vin Vout : (b : Ref sig .tc) → Buf (Elt F) ((c : Thread nD τ).loc b)) (o : Fin cfg.W)
  (hdist : ∀ w, w ≠ o → arrRef cfg.spec w ≠ arrRef cfg.spec o)
  (hin : ∀ w, w ≠ o → ∀ n, D.arrAt w n = Vin (arrRef cfg.spec w))
  (ho : Vout (arrRef cfg.spec o) = D.arrAt o cfg.N)
  (hne : ∀ b, b ≠ arrRef cfg.spec o → Vout b = Vin b)
-- Only window `o` changes its array: the others end at their entry contents, and `Vout` differs from `Vin` at `o`'s array alone.
include hdist hin ho hne in
theorem after_of (w : Fin cfg.W) : D.arrAt w cfg.N = Vout (arrRef cfg.spec w) := by
  by_cases h : w = o
  · subst h; exact ho.symm
  · exact (hin w h _).trans (hne _ (hdist w h)).symm
include hne in
theorem rest_of (b : Ref sig .tc) (hb : b ∉ Finset.univ.image (arrRef cfg.spec)) : Vout b = Vin b :=
  hne b fun e => hb (e ▸ Finset.mem_image_of_mem _ (Finset.mem_univ o))
end OneOutput
section Regions
variable {P : Type} [Fintype P] (pcs : P → PCfg sig Λ₀ (Elt F)) (a : (p : P) → (pcs p).Adm)
  (pdats : (p : P) → (c : Dev nD) → Dat τ (Elt F) Unit ℕ U ℕ (pin pcs a p) c) (defs₀ : Defs nD τ sig (Elt F) Λ₀) (p : P)
  (hK : (pcs p).pre.K = 0)
  (hblock : ∀ w : Fin (pin pcs a p).W, 0 < ((pin pcs a p).spec w).block.numel)
  (hstage : ∀ (w : Fin (pin pcs a p).W) (s : Fin ((pin pcs a p).spec w).nbuf), (((pin pcs a p).spec w).stage s).IsWhole)
  (Uin Uout : Dev nD → Valuation τ sig (Elt F))
  (hbody : ∀ c, BodyObligation (pdats p c) defs₀ Variants.none () Set.univ)
  (howed : ∀ c t, (pdats p c).owed t = 0)
  (hrec : ∀ c, (pdats p c).recorded 0 = Set.univ)
  (hΦin : ∀ c, Pipeline.ΦA (pin pcs a p).spec c ⊢ (pdats p c).Φ 0)
  (hΦout : ∀ c, (pdats p c).Φ (Fin.last (pin pcs a p).N) ⊢ Pipeline.ΦA (pin pcs a p).spec c)
-- A region from its body obligation and two entailments: the held valuation splits into the arrays and a rest, and they join again at the updated valuation.
def regWith (hwin : Pipeline.WinFacts₀ (pcs p).spec)
    (hsplit : ∀ c : Dev nD, Held c (Uin c)
      ⊢ (iprop((pdats p c).arrays ((pdats p c).arrAt · 0) ∗ Pipeline.unscopedRest (pin pcs a p).spec c (atRefs Uin c)) : sProp 𝕄))
    (hjoin : ∀ c : Dev nD, (iprop((pdats p c).arrays ((pdats p c).arrAt · (pin pcs a p).N) ∗ Pipeline.unscopedRest (pin pcs a p).spec c (atRefs Uin c)) : sProp 𝕄)
      ⊢ Held c (Uout c)) :
    RegionSeg pcs a pdats () defs₀ Variants.none Lz lvz p where
  win := hwin
  block_pos := hblock
  stage_whole := hstage
  K := PEmpty
  osem k := k.elim
  ho := Pipeline.OwnSemFacts.none _
  hbody c := (hbody c).loose
  hwaits := Pipeline.hwaits_of_owed_zero pcs a pdats () Lz lvz p howed
  pre c := iprop(Held c (Uin c) ∗ Rr c)
  post c := iprop(Held c (Uout c) ∗ Rr c)
  X c := iprop(∃ r, prngReg c r)
  Y c := iprop(∃ r, prngReg c r)
  Z c := Pipeline.unscopedRest (Ix := Unit) (Name := ℕ) (U := U) (Lvl := ℕ) (pin pcs a p).spec c (atRefs Uin c)
  hentry c := enter_sorted c (Uin c) _ _ _ _ (hsplit c) (noTables _ hK c _ _) (owes_enter (pdats p c) (howed c 0) (hrec c))
  hin c := (classInv_in (pin pcs a p).spec c _).trans (hΦin c)
  hout c := (hΦout c).trans (classInv_out (pin pcs a p).spec c)
  hexit c := leave_sorted c (Uout c) _ _ _ (hjoin c) (owes_leave (pdats p c) (howed c _))
variable (o : Fin (pin pcs a p).W)
  (hA : ∀ c w, (pdats p c).A w = atRefs Uin c (arrRef (pin pcs a p).spec w))
  (hin : ∀ c w, w ≠ o → ∀ n, (pdats p c).arrAt w n = atRefs Uin c (arrRef (pin pcs a p).spec w))
  (ho : ∀ c, atRefs Uout c (arrRef (pin pcs a p).spec o) = (pdats p c).arrAt o (pin pcs a p).N)
  (hne : ∀ c (b : Ref sig .tc), b ≠ arrRef (pin pcs a p).spec o → atRefs Uout c b = atRefs Uin c b)
-- Windows on pairwise distinct arrays at the full share: the split and the join are the library's.
def regOf (hw : Pipeline.WinFacts (pin pcs a p).spec) (harr : ∀ w, ((pin pcs a p).spec w).arr.IsWhole)
    (hq : ∀ c w, (pdats p c).q w = fullShare) : RegionSeg pcs a pdats () defs₀ Variants.none Lz lvz p :=
  regWith pcs a pdats defs₀ p hK hblock hstage Uin Uout hbody howed hrec hΦin hΦout hw.to₀
    (fun c => by
      have h := Pipeline.arrays_of_unscopedBufs pcs a pdats hw harr c ((pdats p c).share_full (hq c)) (atRefs Uin c) (hA c)
      rw [Pipeline.unscopedBufs_held] at h
      exact h)
    (fun c => by
      have h := Pipeline.unscopedBufs_of_arrays pcs a hw harr c pdats ((pdats p c).share_full (hq c))
        (atRefs Uin c) (atRefs Uout c) ((pdats p c).arrAt · (pin pcs a p).N)
        (after_of (pdats p c) _ _ o (fun w h e => h (hw.arr_inj e)) (hin c) (ho c) (hne c)) (rest_of _ _ o (hne c))
      rw [Pipeline.unscopedBufs_held] at h
      exact h)
-- Windows that share an array at complementary shares: the split and the join follow from `hiff`.
def regShared (hwin : Pipeline.WinFacts₀ (pcs p).spec) (hun : ∀ w, (arrRef (pin pcs a p).spec w).isScoped = false)
    (hdist : ∀ w, w ≠ o → arrRef (pin pcs a p).spec w ≠ arrRef (pin pcs a p).spec o)
    (hiff : ∀ (c : Dev nD) (V : (b : Ref sig .tc) → Buf (Elt F) ((c : Thread nD τ).loc b))
      (G : (w : Fin (pin pcs a p).W) → Buf (Elt F) (((pin pcs a p).win w).arr.view.loc (c : Thread nD τ))),
      (∀ w, G w = V (arrRef (pin pcs a p).spec w)) → ((Pipeline.arrBufs (pin pcs a p).spec c V : sProp 𝕄) ⊣⊢ (pdats p c).arrays G)) :
    RegionSeg pcs a pdats () defs₀ Variants.none Lz lvz p :=
  regWith pcs a pdats defs₀ p hK hblock hstage Uin Uout hbody howed hrec hΦin hΦout hwin
    (fun c => by
      rw [held_split (cfg := pin pcs a p) c hun]
      exact sep_mono (hiff c _ _ (hA c)).1 .rfl)
    (fun c => by
      rw [held_split (cfg := pin pcs a p) c hun]
      refine sep_mono (hiff c _ _ (after_of (pdats p c) _ _ o hdist (hin c) (ho c) (hne c))).2 (Entails.of_eq ?_)
      unfold Pipeline.unscopedRest
      exact bigSep_congr fun b hb => congrArg (fun x => (((c : Thread nD τ).loc b) ↦{fullShare} x : sProp 𝕄))
        (rest_of (atRefs Uin c) (atRefs Uout c) o (hne c) b (Finset.mem_sdiff.mp hb).2).symm)
end Regions
theorem init_held (m : (ℓ : Loc nD τ sig) → Buf (Elt F) ℓ) (ρ : Dev nD → PrngReg) (W0 : Dev nD → Valuation τ sig (Elt F))
    (hW : ∀ c : Dev nD, (unscopedBufs c (fun b => m ((c.tc : Thread nD τ).loc b)) : sProp 𝕄) = Held c (W0 c)) :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅
          ∗ Pipeline.launchCred (0 : Dev nD → CellTallies nD τ sig Unit) c ∗ prngReg c (ρ c) ∗ iprop(emp))) ∗ levAts Lz lvz)
      ⊢ (|={Set.univ}=> bigSep Finset.univ fun c : Dev nD => iprop(Held c (W0 c) ∗ Rr c) : sProp 𝕄) := by
  refine Pipeline.initEach Lz lvz fun c => ?_
  rw [hW c]
  iintro ⟨⟨Hh, -, HO, -, Hp, -⟩, -⟩
  imodintro
  isplitl [Hh]; · iexact Hh
  isplitl [Hp]; · iexists _; iexact Hp
  iexists ∅; iexact HO
theorem fin_read (c : Dev nD) (W : Valuation τ sig (Elt F)) (s' : Phys nD τ sig (Elt F)) :
    iprop(Held c W ∗ SI s')
      ⊢ (|={Set.univ}=> iprop(⌜∀ b ∈ Pipeline.ucRefs τ sig, s'.mem.mem (((c : Thread nD τ)).1, b) = W b⌝ ∗ SI s') : sProp 𝕄) := by
  unfold Held StableHlo.held
  iintro ⟨Hh, HSI⟩
  ihave Hr := (pointsTo_read_all (Pipeline.ucRefs τ sig) (fun b => ((c : Thread nD τ).1, b)) W s') $$ [Hh HSI]
  · isplitl [Hh] <;> iassumption
  icases Hr with ⟨%h, HSI⟩
  imodintro
  isplitr
  · ipureintro; exact h
  · iexact HSI
end Cert.Hand.Run
end
-- ==== Proof.KB.Run.lean ====
import proofs.«153234_g2000604307514898_pallasbulk_606_4_alg».proof.Proof.Gen.Kernel.Regions
import proofs.«153234_g2000604307514898_pallasbulk_606_4_alg».proof.Proof.KB.Reg0
import proofs.«153234_g2000604307514898_pallasbulk_606_4_alg».proof.Proof.KB.Reg1
import proofs.«153234_g2000604307514898_pallasbulk_606_4_alg».proof.Proof.KB.Reg2
import proofs.«153234_g2000604307514898_pallasbulk_606_4_alg».proof.Proof.LibRun
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Hand.Run
export Cert.Hand.Run (atRefs)
variable {F : FTy → Type} [FloatOps F]
local notation "𝕄" => MT nD τ sig Unit (Elt F) ℕ (UR sig nD τ) ℕ
variable (m : (ℓ : Loc nD τ sig) → Buf (Elt F) ℓ) (ρ : Dev nD → PrngReg)
def qs0 : Fin cfg0.W → PosShare TreeShare := fun _ => fullShare
def qs1 : Fin cfg1.W → PosShare TreeShare
  | ⟨0, _⟩ => fullShare
  | ⟨1, _⟩ => fullShare.left
  | ⟨2, _⟩ => fullShare.left
  | ⟨3, _⟩ => fullShare.right
  | ⟨4, _⟩ => fullShare.right
  | ⟨5, _⟩ => fullShare
def qs2 : Fin cfg2.W → PosShare TreeShare
  | ⟨0, _⟩ => fullShare
  | ⟨1, _⟩ => fullShare
  | ⟨2, _⟩ => fullShare.left
  | ⟨3, _⟩ => fullShare.right
  | ⟨4, _⟩ => fullShare
  | ⟨5, _⟩ => fullShare
def U2 (c : Dev nD) : Valuation τ sig (Elt F) :=
  Function.update (V1 m c) main_v3 ((dat0 (atRefs (V1 m)) qs0 c).arrAt 7 cfg0.N)
def U5 (c : Dev nD) : Valuation τ sig (Elt F) :=
  StableHlo.after hostOps1_2 (StableHlo.after hostOps1_1 (StableHlo.after hostOps1 (U2 m c)))
def U6 (c : Dev nD) : Valuation τ sig (Elt F) :=
  Function.update (U5 m c) main_v49 ((dat1 (atRefs (U5 m)) qs1 c).arrAt 5 cfg1.N)
def U7 (c : Dev nD) : Valuation τ sig (Elt F) :=
  Function.update (U6 m c) main_v50 ((dat2 (atRefs (U6 m)) qs2 c).arrAt 5 cfg2.N)
def outs : Outs (F := F) := fun J r c =>
  match J with
  | 2 => U2 m c r
  | 6 => U6 m c r
  | 7 => U7 m c r
  | _ => V1 m c r
theorem V2_eq (c : Dev nD) : V2 m (outs m) c = U2 m c := upd_step rfl _ _
theorem V5_eq (c : Dev nD) : V5 m (outs m) c = U5 m c :=
  congrArg (fun W => StableHlo.after hostOps1_2 (StableHlo.after hostOps1_1 (StableHlo.after hostOps1 W))) (V2_eq m c)
theorem V6_eq (c : Dev nD) : V6 m (outs m) c = U6 m c := upd_step (V5_eq m c) _ _
theorem V7_eq (c : Dev nD) : V7 m (outs m) c = U7 m c := upd_step (V6_eq m c) _ _
theorem U2_v3 (c : Dev nD) : U2 m c main_v3 = (dat0 (atRefs (V1 m)) qs0 c).arrAt 7 cfg0.N := Function.update_self ..
theorem U2_of_ne (c : Dev nD) (b : Ref sig .tc) (hb : b ≠ main_v3) : U2 m c b = V1 m c b := upd_other _ _ hb
theorem U6_v49 (c : Dev nD) : U6 m c main_v49 = (dat1 (atRefs (U5 m)) qs1 c).arrAt 5 cfg1.N := Function.update_self ..
theorem U6_of_ne (c : Dev nD) (b : Ref sig .tc) (hb : b ≠ main_v49) : U6 m c b = U5 m c b := upd_other _ _ hb
theorem U7_v50 (c : Dev nD) : U7 m c main_v50 = (dat2 (atRefs (U6 m)) qs2 c).arrAt 5 cfg2.N := Function.update_self ..
theorem U7_of_ne (c : Dev nD) (b : Ref sig .tc) (hb : b ≠ main_v50) : U7 m c b = U6 m c b := upd_other _ _ hb
attribute [irreducible] U2 U5 U6 U7
def pdats : (p : Fin 3) → (c : Dev nD) → Dat τ (Elt F) Unit ℕ (UR sig nD τ) ℕ (cfgs p) c
  | ⟨0, _⟩ => fun c => dat0 (atRefs (V1 m)) qs0 c
  | ⟨1, _⟩ => fun c => dat1 (atRefs (U5 m)) qs1 c
  | ⟨2, _⟩ => fun c => dat2 (atRefs (U6 m)) qs2 c
set_option backward.isDefEq.respectTransparency.types false in
def reg0 : RegionSeg (pcfgs (F := F)) adm (pdats m) () defs₀ Variants.none Lz lvz 0 :=
  regOf pcfgs adm (pdats m) defs₀ 0 rfl launch0.block_pos launch0.stage_whole (V1 m) (U2 m)
    (body_obligation0 (atRefs (V1 m)) qs0) (owed_eq0 (atRefs (V1 m)) qs0) (recorded_eq0 (atRefs (V1 m)) qs0 · 0)
    (hin0 (atRefs (V1 m)) qs0) (hout0 (atRefs (V1 m)) qs0) 7 (A_eq0 (atRefs (V1 m)) qs0) (arrAt_in0 (atRefs (V1 m)) qs0)
    (U2_v3 m) (U2_of_ne m) launch0.win launch0.arr_whole (q_eq0 (atRefs (V1 m)) qs0)
theorem arrs1 : Finset.univ.image (Pipeline.arrRef spec1) = {main_v26, main_v3, main_v48, main_v49} := by decide
theorem arrays1_iff (c : Dev nD) (D : Dat τ (Elt F) Unit ℕ (UR sig nD τ) ℕ cfg1 c) (hq : ∀ w, D.q w = qs1 w)
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs spec1 c V : sProp 𝕄) ⊣⊢ D.arrays G := by
  have hs (w : Fin cfg1.W) : D.share w = qs1 w := by
    unfold Pipeline.Dat.share; rw [hq]; revert w; decide
  have e1 : D.arrays G = bigSep Finset.univ fun w : Fin 6 =>
      (((c : Thread nD τ).loc (Pipeline.arrRef spec1 w)) ↦{qs1 w} V (Pipeline.arrRef spec1 w) : sProp 𝕄) := by
    unfold Pipeline.Dat.arrays
    exact bigSep_congr fun w _ => by rw [(arr_whole1 w).set_eq_univ, hG, hs]
  have e3 : (Pipeline.arrBufs spec1 c V : sProp 𝕄) = iprop((((c : Thread nD τ).loc main_v26) ↦{fullShare} V main_v26)
      ∗ (((c : Thread nD τ).loc main_v3) ↦{fullShare} V main_v3) ∗ (((c : Thread nD τ).loc main_v48) ↦{fullShare} V main_v48)
      ∗ (((c : Thread nD τ).loc main_v49) ↦{fullShare} V main_v49)) := by
    unfold Pipeline.arrBufs
    rw [arrs1, bigSep_insert (by decide), bigSep_insert (by decide), bigSep_insert (by decide), bigSep_singleton]
    rfl
  rw [e1, e3, bigSep_W1]
  exact sep_congr .rfl <| (sep_congr (pointsTo_share (PosShare.mem_left_op_right fullShare))
    (sep_congr (pointsTo_share (PosShare.mem_left_op_right fullShare)) .rfl)).trans <|
    sep_assoc.trans <| sep_congr .rfl <| sep_left_comm.trans sep_assoc
set_option backward.isDefEq.respectTransparency.types false in
def reg1 : RegionSeg (pcfgs (F := F)) adm (pdats m) () defs₀ Variants.none Lz lvz 1 :=
  regShared pcfgs adm (pdats m) defs₀ 1 rfl block_pos1 stage_whole1 (U5 m) (U6 m)
    (body_obligation1 (atRefs (U5 m)) qs1) (owed_eq1 (atRefs (U5 m)) qs1) (recorded_eq1 (atRefs (U5 m)) qs1 · 0)
    (hin1 (atRefs (U5 m)) qs1) (hout1 (atRefs (U5 m)) qs1) 5 (A_eq1 (atRefs (U5 m)) qs1) (arrAt_in1 (atRefs (U5 m)) qs1)
    (U6_v49 m) (U6_of_ne m) winFacts₀1 winFacts₀1.arr_unscoped
    (by decide : ∀ w : Fin cfg1.W, w ≠ 5 → Pipeline.arrRef spec1 w ≠ Pipeline.arrRef spec1 5)
    fun c V G hG => arrays1_iff c _ (q_eq1 (atRefs (U5 m)) qs1 c) V G hG
theorem arrs2 : Finset.univ.image (Pipeline.arrRef spec2) = {main_v26, main_v49, main_v48, main_v3, main_v50} := by decide
theorem arrays2_iff (c : Dev nD) (D : Dat τ (Elt F) Unit ℕ (UR sig nD τ) ℕ cfg2 c) (hq : ∀ w, D.q w = qs2 w)
    (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    (Pipeline.arrBufs spec2 c V : sProp 𝕄) ⊣⊢ D.arrays G := by
  have hs (w : Fin cfg2.W) : D.share w = qs2 w := by
    unfold Pipeline.Dat.share; rw [hq]; revert w; decide
  have e1 : D.arrays G = bigSep Finset.univ fun w : Fin 6 =>
      (((c : Thread nD τ).loc (Pipeline.arrRef spec2 w)) ↦{qs2 w} V (Pipeline.arrRef spec2 w) : sProp 𝕄) := by
    unfold Pipeline.Dat.arrays
    exact bigSep_congr fun w _ => by rw [(arr_whole2 w).set_eq_univ, hG, hs]
  have e3 : (Pipeline.arrBufs spec2 c V : sProp 𝕄) = iprop((((c : Thread nD τ).loc main_v26) ↦{fullShare} V main_v26)
      ∗ (((c : Thread nD τ).loc main_v49) ↦{fullShare} V main_v49) ∗ (((c : Thread nD τ).loc main_v48) ↦{fullShare} V main_v48)
      ∗ (((c : Thread nD τ).loc main_v3) ↦{fullShare} V main_v3) ∗ (((c : Thread nD τ).loc main_v50) ↦{fullShare} V main_v50)) := by
    unfold Pipeline.arrBufs
    rw [arrs2, bigSep_insert (by decide), bigSep_insert (by decide), bigSep_insert (by decide), bigSep_insert (by decide), bigSep_singleton]
    rfl
  rw [e1, e3, bigSep_W2]
  exact sep_congr .rfl <| sep_congr .rfl <| (sep_congr (pointsTo_share (PosShare.mem_left_op_right fullShare)) .rfl).trans sep_assoc
set_option backward.isDefEq.respectTransparency.types false in
def reg2 : RegionSeg (pcfgs (F := F)) adm (pdats m) () defs₀ Variants.none Lz lvz 2 :=
  regShared pcfgs adm (pdats m) defs₀ 2 rfl block_pos2 stage_whole2 (U6 m) (U7 m)
    (body_obligation2 (atRefs (U6 m)) qs2) (owed_eq2 (atRefs (U6 m)) qs2) (recorded_eq2 (atRefs (U6 m)) qs2 · 0)
    (hin2 (atRefs (U6 m)) qs2) (hout2 (atRefs (U6 m)) qs2) 5 (A_eq2 (atRefs (U6 m)) qs2) (arrAt_in2 (atRefs (U6 m)) qs2)
    (U7_v50 m) (U7_of_ne m) winFacts₀2 winFacts₀2.arr_unscoped
    (by decide : ∀ w : Fin cfg2.W, w ≠ 5 → Pipeline.arrRef spec2 w ≠ Pipeline.arrRef spec2 5)
    fun c V G hG => arrays2_iff c _ (q_eq2 (atRefs (U6 m)) qs2 c) V G hG
abbrev ArgsKept (m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7)
set_option backward.isDefEq.respectTransparency.types false in
theorem frame : θ_run defs (onTc (τ := τ) (main (F := F))) ⟨m, fun _ => 0, ρ⟩ (fun r => ∀ c : Dev nD, ArgsKept m r.2.mem c) :=
  frame_cond m emb₁ () Variants.none Lz lvz (fun _ _ => rfl) ρ (outs m) (pdats m) 0 (fun _ => iprop(emp))
    (initOf (Pipeline.cells cfgs cellOf_inj) (Pipeline.launchToks cfgs cellOf_inj)) (launch_ghost _) (fun _ c => Rr c) (rest_init ρ) Rr_owes
    (reg0 m) (fun c => .rfl) (fun c => by rw [V2_eq]; exact .rfl)
    (reg1 m) (fun c => by rw [V5_eq]; exact .rfl) (fun c => by rw [V6_eq]; exact .rfl)
    (reg2 m) (fun c => by rw [V6_eq]; exact .rfl) (fun c => by rw [V7_eq]; exact .rfl)
end Cert.Kernel.Hand
end
-- ==== Proof.KI.RunCond.lean ====
import proofs.«153234_g2000604307514898_pallasbulk_606_4_alg».proof.Proof.Gen.KernelIdeal.Regions
import proofs.«153234_g2000604307514898_pallasbulk_606_4_alg».proof.Proof.LibRun
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Hand.Run
variable {F : FTy → Type} [FloatOps F]
variable (m : (ℓ : Loc nD τ sig) → Buf (Elt F) ℓ)
set_option backward.isDefEq.respectTransparency.types false in
theorem run_cond (ρ : Dev nD → PrngReg) (outs : Outs (F := F))
    (pdats : (p : Fin 3) → (c : Dev nD) → Dat τ (Elt F) Unit ℕ (UR sig nD τ) ℕ (cfgs p) c)
    (R0 : RegionSeg (pcfgs (F := F)) adm pdats () defs₀ Variants.none Lz lvz 0)
    (hpre0 : ∀ c : Dev nD, iprop(Held c (V1 m c) ∗ Rr c) ⊢ R0.pre c)
    (hpost0 : ∀ c : Dev nD, R0.post c ⊢ iprop(Held c (V2 m outs c) ∗ Rr c))
    (R1 : RegionSeg (pcfgs (F := F)) adm pdats () defs₀ Variants.none Lz lvz 1)
    (hpre1 : ∀ c : Dev nD, iprop(Held c (V5 m outs c) ∗ Rr c) ⊢ R1.pre c)
    (hpost1 : ∀ c : Dev nD, R1.post c ⊢ iprop(Held c (V6 m outs c) ∗ Rr c))
    (R2 : RegionSeg (pcfgs (F := F)) adm pdats () defs₀ Variants.none Lz lvz 2)
    (hpre2 : ∀ c : Dev nD, iprop(Held c (V6 m outs c) ∗ Rr c) ⊢ R2.pre c)
    (hpost2 : ∀ c : Dev nD, R2.post c ⊢ iprop(Held c (V7 m outs c) ∗ Rr c)) :
    θ_run defs (onTc (τ := τ) (main (F := F))) ⟨m, fun _ => 0, ρ⟩ (fun r => ∀ c : Dev nD,
      ∀ b ∈ Pipeline.ucRefs τ sig, r.2.mem (((c : Thread nD τ)).1, b) = V7 m outs c b) :=
  Pipeline.θ_run_regions_kit_dev (pcfgs (F := F)) adm pdats () cellOf_inj emb₁ defs₀ Variants.none Lz lvz m ρ main
    (segs m outs Variants.none Lz lvz (fun _ c => Rr c) () pdats R0 R1 R2)
    (fun c Q => by
      rewrite [main_chain c, Seg.run_eq_chain,
        show (segs m outs Variants.none Lz lvz (fun _ c => Rr c) () pdats R0 R1 R2 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          Prog.lift (.customCall (Pipeline.entry 2) ()) ] from rfl]
      exact .rfl)
    (fun c => by simp only [segs, Seg.pipes_host, Seg.pipes_region, Seg.pipes_nil]; decide) 0 (fun _ _ => rfl) (fun _ => iprop(emp)) _ (launch_ghost _)
    (T₀ := fun c => iprop(Held c (V0 m c) ∗ Rr c)) (Tₙ := fun c => Held c (V7 m outs c))
    (hch := fun c => ⟨.rfl, hpre0 c, hpost0 c, .rfl, .rfl, hpre1 c, (hpost1 c).trans (hpre2 c), (hpost2 c).trans (sep_mono .rfl (Rr_owes c))⟩)
    (hinit := init_held m ρ (V0 m) fun c => Pipeline.unscopedBufs_held c (V0 m c))
    (QY := fun c s => ∀ b ∈ Pipeline.ucRefs τ sig, s.mem (((c : Thread nD τ)).1, b) = V7 m outs c b)
    (hfin := fun c s' => fin_read c _ s') (hQ := fun _ h => h)
end Cert.KernelIdeal.Hand
end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev M (a b : Nat) : Shape := ⟨2, ![a, b]⟩

abbrev L (a : Nat) : Shape := ⟨1, ![a]⟩

def c9 : EReal := Ideal.ofBits .f32 0x3F666666#32

def c1 : EReal := Ideal.ofBits .f32 0x3DCCCCCD#32

def lin {R K N : Nat} (x : (M R K).Idx → EReal) (w : (M K N).Idx → EReal) (b : (M 1 N).Idx → EReal) :
    (M R N).Idx → EReal :=
  fun i => max ((∑ k : Fin K, x (ix2 (i 0) k) * w (ix2 k (i 1))) + b (ix2 (0 : Fin 1) (i 1))) 0

def mlp {R K0 K1 K2 K3 : Nat} (x : (M R K0).Idx → EReal) (w0 : (M K0 K1).Idx → EReal) (b0 : (M 1 K1).Idx → EReal)
    (w1 : (M K1 K2).Idx → EReal) (b1 : (M 1 K2).Idx → EReal) (w2 : (M K2 K3).Idx → EReal) (b2 : (M 1 K3).Idx → EReal) :
    (M R K3).Idx → EReal :=
  lin (lin (lin x w0 b0) w1 b1) w2 b2

def propK {N Fd : Nat} (C : (M N N).Idx → EReal) (h : (M N Fd).Idx → EReal) (d : (M N 1).Idx → EReal)
    (x0 : (M N Fd).Idx → EReal) : (M N Fd).Idx → EReal :=
  fun i => (c9 * d (ix2 (i 0) (0 : Fin 1))) * (∑ k : Fin N, C (ix2 (i 0) k) * (h (ix2 k (i 1)) * d (ix2 k (0 : Fin 1))))
    + c1 * x0 i

def ahat {N : Nat} (d : (L N).Idx → EReal) (C : (M N N).Idx → EReal) : (M N N).Idx → EReal :=
  fun i => (d (ix1 (i 0)) * C i) * d (ix1 (i 1))

def stepR {N Fd : Nat} (A : (M N N).Idx → EReal) (h : (M N Fd).Idx → EReal) (x0 : (M N Fd).Idx → EReal) :
    (M N Fd).Idx → EReal :=
  fun i => c9 * (∑ k : Fin N, A (ix2 (i 0) k) * h (ix2 k (i 1))) + c1 * x0 i

def IsReal {s : Shape} (f : s.Idx → EReal) : Prop := ∀ i, ∃ r : ℝ, f i = (r : EReal)

end Cert.Spec

end
-- ==== Proof.LibDot.lean ====
import Idealize.ShloMosaic.Lib.StackMember
import Idealize.ShloMosaic.Lib.ValueIdx
import Idealize.ShloMosaic.PureOps.Ideal.Laws
import Idealize.ShloMosaic.Lib.Pipeline.Value
import proofs.«153234_g2000604307514898_pallasbulk_606_4_alg».proof.Proof.Spec

noncomputable section

namespace Cert.Hand

open Idealize.ShloMosaic Idealize.ShloMosaic.ValueIdx
open scoped BigOperators

-- a plain matrix product into a zero accumulator is, entry by entry, the sum over the contracted coordinate
theorem product_apply {m k n : Nat} {φ₁ φ₂ : FTy} (lhs : FVec Ideal ⟨2, ![m, k]⟩ φ₁) (rhs : FVec Ideal ⟨2, ![k, n]⟩ φ₂)
    (p : Fin m) (q : Fin n) :
    matmul (DotDims.plain m k n) none lhs rhs (constant _ .f32 0x00000000#32) (ix2 p q) = ∑ c : Fin k, lhs (ix2 p c) * rhs (ix2 c q) :=
  (Ideal.matmul_constant_zero_apply _ none lhs rhs _).trans
    ((Ideal.dotGeneral_apply _ none _ lhs rhs _).symm.trans (StackMember.dotGeneral_plain_apply none lhs rhs p q))

-- a layer (product, plus the bias row down the rows, clipped at zero) is `Cert.Spec.lin` entry by entry
theorem lin_eq {R K N : Nat} {φ₁ φ₂ : FTy} (d : DotDims (Cert.Spec.M R K) (Cert.Spec.M K N) (Cert.Spec.M R N)) (hd : d = DotDims.plain R K N)
    (lhs : FVec Ideal (Cert.Spec.M R K) φ₁) (w' w : FVec Ideal (Cert.Spec.M K N) φ₂) (hw : w' = w) (b : Vec Ideal (Cert.Spec.M 1 N) .f32)
    (hb : (Cert.Spec.M 1 N).Broadcasts (Cert.Spec.M R N)) :
    maximumf (addf (matmul d none lhs w' (constant _ .f32 0x00000000#32)) (broadcastTo _ b hb))
      (broadcast _ (Scalar.ofBits .f32 0x00000000#32)) = Cert.Spec.lin lhs w b := by
  subst hd hw
  funext j
  obtain ⟨p, q, rfl⟩ : ∃ (p : Fin R) (q : Fin N), j = ix2 p q := ⟨j 0, j 1, eq_ix2 j⟩
  show max (matmul (DotDims.plain R K N) none lhs w' (constant _ .f32 0x00000000#32) (ix2 p q) + broadcastTo _ b hb (ix2 p q)) (Ideal.ofBits .f32 0x00000000#32)
    = max ((∑ k : Fin K, lhs (ix2 p k) * w' (ix2 k q)) + b (ix2 (0 : Fin 1) q)) 0
  rw [product_apply, Ideal.ofBits_zero_f32,
    broadcastTo_apply b hb (ix2 p q) (ix2 (0 : Fin 1) q) (fun a => by
      match a with
      | ⟨0, _⟩ => rfl
      | ⟨1, _⟩ => show q.val = if N = 1 then 0 else q.val; have := q.isLt; split <;> omega)]

-- a layer reads its input one row at a time
theorem lin_row {R R' K N : Nat} (X : (Cert.Spec.M R K).Idx → EReal) (x : (Cert.Spec.M R' K).Idx → EReal)
    (w : (Cert.Spec.M K N).Idx → EReal) (b : (Cert.Spec.M 1 N).Idx → EReal) (r : Fin R) (p : Fin R') (q : Fin N)
    (h : ∀ k : Fin K, X (ix2 r k) = x (ix2 p k)) : Cert.Spec.lin X w b (ix2 r q) = Cert.Spec.lin x w b (ix2 p q) := by
  unfold Cert.Spec.lin
  show max ((∑ k : Fin K, X (ix2 r k) * w (ix2 k q)) + b (ix2 (0 : Fin 1) q)) 0
    = max ((∑ k : Fin K, x (ix2 p k) * w (ix2 k q)) + b (ix2 (0 : Fin 1) q)) 0
  rw [Finset.sum_congr rfl fun k _ => by rw [h k]]

-- a block at block index 0 along every axis, of the array's own extents, is the array
theorem wholeOf {S : Shape} {α : Type} (f : S.Idx → α) (e : S.Idx → S.Idx) (i : Fin S.rank → Nat) (h0 : ∀ a, i a = 0)
    (he : ∀ j a, (e j a).val = i a * S.size a + 1 * (j a).val) : (fun j => f (e j)) = f :=
  funext fun j => congrArg f (funext fun a => Fin.ext (by rw [he, h0]; omega))

end Cert.Hand

end
-- ==== Proof.KI.Reg0.lean ====
import proofs.«153234_g2000604307514898_pallasbulk_606_4_alg».proof.Proof.Gen.KernelIdeal.Launch
import proofs.«153234_g2000604307514898_pallasbulk_606_4_alg».proof.Proof.Gen.KernelIdeal.Skeleton
import proofs.«153234_g2000604307514898_pallasbulk_606_4_alg».proof.Proof.Gen.KernelIdeal.Points
import proofs.«153234_g2000604307514898_pallasbulk_606_4_alg».proof.Proof.Spec
import proofs.«153234_g2000604307514898_pallasbulk_606_4_alg».proof.Proof.LibDot
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

section AnyFamily

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def layersOut (x0 : Vec F S1024x1536 .f32) (x1 : Vec F S1536x512 .bf16) (x2 : Vec F S1x512 .f32) (x3 : Vec F S512x256 .bf16) (x4 : Vec F S1x256 .f32) (x5 : Vec F S256x128 .bf16) (x6 : Vec F S1x128 .f32) : Vec F S1024x128 .f32 :=
  View.canon [⟨.unit _ _ inb_S1024x128_S1024x128_0_0, k0_pay1 (View.ld x0 (.unit _ _ inb_S1024x1536_S1024x1536_0_0)) (View.ld x1 (.unit _ _ inb_S1536x512_S1536x512_0_0)) (View.ld x2 (.unit _ _ inb_S1x512_S1x512_0_0))
    (View.ld x3 (.unit _ _ inb_S512x256_S512x256_0_0)) (View.ld x4 (.unit _ _ inb_S1x256_S1x256_0_0)) (View.ld x5 (.unit _ _ inb_S256x128_S256x128_0_0)) (View.ld x6 (.unit _ _ inb_S1x128_S1x128_0_0))⟩]

set_option maxHeartbeats 4000000 in
theorem sound_kernel0 (c : Dev nD) (t : Fin cfg0.N)
    (x0 : Vec F S1024x1536 .f32) (x1 : Vec F S1536x512 .bf16) (x2 : Vec F S1x512 .f32) (x3 : Vec F S512x256 .bf16) (x4 : Vec F S1x256 .f32) (x5 : Vec F S256x128 .bf16) (x6 : Vec F S1x128 .f32) (K : PUnit → sProp 𝕄) :
    iprop(owns (c : Thread nD τ) (st0_0 t) fullShare x0 ∗ owns (c : Thread nD τ) (st0_1 t) fullShare x1 ∗ owns (c : Thread nD τ) (st0_2 t) fullShare x2 ∗ owns (c : Thread nD τ) (st0_3 t) fullShare x3 ∗ owns (c : Thread nD τ) (st0_4 t) fullShare x4 ∗ owns (c : Thread nD τ) (st0_5 t) fullShare x5 ∗ owns (c : Thread nD τ) (st0_6 t) fullShare x6 ∗ (∃ d, owns (c : Thread nD τ) (st0_7 t) fullShare d)
        ∗ (iprop(owns (c : Thread nD τ) (st0_0 t) fullShare x0 ∗ owns (c : Thread nD τ) (st0_1 t) fullShare x1 ∗ owns (c : Thread nD τ) (st0_2 t) fullShare x2 ∗ owns (c : Thread nD τ) (st0_3 t) fullShare x3 ∗ owns (c : Thread nD τ) (st0_4 t) fullShare x4 ∗ owns (c : Thread nD τ) (st0_5 t) fullShare x5 ∗ owns (c : Thread nD τ) (st0_6 t) fullShare x6 ∗ owns (c : Thread nD τ) (st0_7 t) fullShare (layersOut x0 x1 x2 x3 x4 x5 x6)) -∗ K ⟨⟩))
      ⊢ wp frame (wpE (defs₀ (F := F)) Variants.none c none) Set.univ (bodyAt0 t) K := by
  unfold bodyAt0
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S1024x128.size (by rfl))

def dat0 (qs : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => layersOut (iblk0 V c 0 t) (iblk0 V c 1 t) (iblk0 V c 2 t) (iblk0 V c 3 t) (iblk0 V c 4 t) (iblk0 V c 5 t) (iblk0 V c 6 t)
  Φ _ := Pipeline.ΦA spec0 c
  q := qs
  owed _ := 0

variable (qs : Fin cfg0.W → PosShare TreeShare) (c : Dev nD)

theorem A_eq0 (w : Fin cfg0.W) : (dat0 V qs c).A w = V c (Pipeline.arrRef spec0 w) := rfl

theorem owed_eq0 (t : Fin (cfg0.N + 1)) : (dat0 V qs c).owed t = 0 := rfl

theorem q_eq0 (w : Fin cfg0.W) : (dat0 V qs c).q w = qs w := rfl

theorem recorded_eq0 (t : Fin (cfg0.N + 1)) : (dat0 V qs c).recorded t = Set.univ := rfl

theorem finds0 (t : Fin cfg0.N) :
    (∀ d, (dat0 V qs c).before 0 t d = iblk0 V c 0 t) ∧ (∀ d, (dat0 V qs c).before 1 t d = iblk0 V c 1 t)
    ∧ (∀ d, (dat0 V qs c).before 2 t d = iblk0 V c 2 t) ∧ (∀ d, (dat0 V qs c).before 3 t d = iblk0 V c 3 t)
    ∧ (∀ d, (dat0 V qs c).before 4 t d = iblk0 V c 4 t) ∧ (∀ d, (dat0 V qs c).before 5 t d = iblk0 V c 5 t)
    ∧ (∀ d, (dat0 V qs c).before 6 t d = iblk0 V c 6 t) := by
  refine ⟨?_, ?_, ?_, ?_, ?_, ?_, ?_⟩ <;>
    exact fun d => ((dat0 V qs c).before_in_eq_fetched _ rfl (fun _ => rfl) (fun _ _ _ => rfl) (fun _ => rfl) t d).trans rfl

theorem hin0 : Pipeline.ΦA spec0 c ⊢ (dat0 V qs c).Φ 0 := .rfl

theorem hout0 : (dat0 V qs c).Φ (Fin.last cfg0.N) ⊢ Pipeline.ΦA spec0 c := .rfl

theorem arrAt_in0 (w : Fin cfg0.W) (hw : w ≠ 7) (n : Nat) :
    (dat0 V qs c).arrAt w n = V c (Pipeline.arrRef spec0 w) :=
  (dat0 V qs c).arrAt_in w ((by decide : ∀ w : Fin cfg0.W, w ≠ 7 → (cfg0.win w).isOut = false) w hw) n

set_option maxHeartbeats 1000000 in
theorem body_obligation0 : BodyObligation (dat0 (F := F) V qs c) (defs₀ (F := F)) Variants.none () Set.univ := fun t => by
  rw [bigSep_W0, bigSep_W0]
  simp only [finds0 V qs c t]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c t (iblk0 V c 0 t) (iblk0 V c 1 t) (iblk0 V c 2 t) (iblk0 V c 3 t) (iblk0 V c 4 t) (iblk0 V c 5 t) (iblk0 V c 6 t) _)
  iframe H0 H1 H2 H3 H4 H5 H6
  isplitl [H7]; · iexists _; iexact H7
  iintro H
  iframe
  iexact Ho

end AnyFamily

section AtIdeal

-- on the extended reals the stored value is the three layers composed
theorem pay_eq (x : Vec Ideal S1024x1536 .f32) (w0 : Vec Ideal S1536x512 .bf16) (b0 : Vec Ideal S1x512 .f32)
    (w1 : Vec Ideal S512x256 .bf16) (b1 : Vec Ideal S1x256 .f32) (w2 : Vec Ideal S256x128 .bf16) (b2 : Vec Ideal S1x128 .f32) :
    k0_pay1 (F := Ideal) x w0 b0 w1 b1 w2 b2
      = Cert.Spec.mlp (R := 1024) (K0 := 1536) (K1 := 512) (K2 := 256) (K3 := 128) x w0 b0 w1 b1 w2 b2 :=
  (Cert.Hand.lin_eq _ rfl _ _ w2 (shapeCast_self _ _) b2 _).trans (congrArg (Cert.Spec.lin · w2 b2)
    ((Cert.Hand.lin_eq _ rfl _ _ w1 (shapeCast_self _ _) b1 _).trans (congrArg (Cert.Spec.lin · w1 b1) (Cert.Hand.lin_eq _ rfl _ _ w0 (shapeCast_self _ _) b0 _))))

theorem mlp_row {R R' K0 K1 K2 K3 : Nat} (X : (Cert.Spec.M R K0).Idx → EReal) (x : (Cert.Spec.M R' K0).Idx → EReal)
    (w0 : (Cert.Spec.M K0 K1).Idx → EReal) (b0 : (Cert.Spec.M 1 K1).Idx → EReal)
    (w1 : (Cert.Spec.M K1 K2).Idx → EReal) (b1 : (Cert.Spec.M 1 K2).Idx → EReal)
    (w2 : (Cert.Spec.M K2 K3).Idx → EReal) (b2 : (Cert.Spec.M 1 K3).Idx → EReal) (r : Fin R) (p : Fin R') (q : Fin K3)
    (h : ∀ k : Fin K0, X (ix2 r k) = x (ix2 p k)) :
    Cert.Spec.mlp X w0 b0 w1 b1 w2 b2 (ix2 r q) = Cert.Spec.mlp x w0 b0 w1 b1 w2 b2 (ix2 p q) :=
  Cert.Hand.lin_row _ _ w2 b2 r p q fun k2 => Cert.Hand.lin_row _ _ w1 b1 r p k2 fun k1 => Cert.Hand.lin_row X x w0 b0 r p k1 h

variable (V : (c : Dev nD) → (b : Ref sig .tc) → Buf (Elt Ideal) ((c : Thread nD τ).loc b)) (qs : Fin cfg0.W → PosShare TreeShare) (c : Dev nD) (t : Fin cfg0.N)

theorem rowIndex : ∀ t : Fin cfg0.N, win0_0.index t (0 : Fin 2) = t.val ∧ win0_0.index t (1 : Fin 2) = 0
    ∧ win0_7.index t (0 : Fin 2) = t.val ∧ win0_7.index t (1 : Fin 2) = 0 :=
  (by decide +kernel : ∀ t : Fin grid0.N, _)

theorem zeroIndex : ∀ (t : Fin cfg0.N) (a : Fin 2), win0_1.index t a = 0 ∧ win0_2.index t a = 0 ∧ win0_3.index t a = 0
    ∧ win0_4.index t a = 0 ∧ win0_5.index t a = 0 ∧ win0_6.index t a = 0 :=
  (by decide +kernel : ∀ t : Fin grid0.N, _)

theorem wholeBlocks :
    (iblk0 V c 1 t : Vec Ideal S1536x512 .bf16) = V c main_v0 ∧ (iblk0 V c 2 t : Vec Ideal S1x512 .f32) = V c main_arg5
    ∧ (iblk0 V c 3 t : Vec Ideal S512x256 .bf16) = V c main_v1 ∧ (iblk0 V c 4 t : Vec Ideal S1x256 .f32) = V c main_arg6
    ∧ (iblk0 V c 5 t : Vec Ideal S256x128 .bf16) = V c main_v2 ∧ (iblk0 V c 6 t : Vec Ideal S1x128 .f32) = V c main_arg7 :=
  ⟨Cert.Hand.wholeOf (S := S1536x512) (V c main_v0) _ _ (fun a => (zeroIndex t a).1) fun _ _ => rfl,
    Cert.Hand.wholeOf (S := S1x512) (V c main_arg5) _ _ (fun a => (zeroIndex t a).2.1) fun _ _ => rfl,
    Cert.Hand.wholeOf (S := S512x256) (V c main_v1) _ _ (fun a => (zeroIndex t a).2.2.1) fun _ _ => rfl,
    Cert.Hand.wholeOf (S := S1x256) (V c main_arg6) _ _ (fun a => (zeroIndex t a).2.2.2.1) fun _ _ => rfl,
    Cert.Hand.wholeOf (S := S256x128) (V c main_v2) _ _ (fun a => (zeroIndex t a).2.2.2.2.1) fun _ _ => rfl,
    Cert.Hand.wholeOf (S := S1x128) (V c main_arg7) _ _ (fun a => (zeroIndex t a).2.2.2.2.2) fun _ _ => rfl⟩

theorem featuresRow (p : Fin 1024) (k : Fin 1536) (r : Fin 4096) (hr : r.val = 1024 * t.val + p.val) :
    (V c main_arg0 : Vec Ideal S4096x1536 .f32) (ix2 r k) = (iblk0 V c 0 t : Vec Ideal S1024x1536 .f32) (ix2 p k) := by
  obtain ⟨r0, k0, -, -⟩ := rowIndex t
  show V c main_arg0 (ix2 r k) = V c main_arg0 (((cfg0.win 0).blk t).view.emb (ix2 p k))
  refine congrArg _ (funext fun a => Fin.ext ?_).symm
  match a with
  | ⟨0, _⟩ => show win0_0.index t (0 : Fin 2) * 1024 + 1 * p.val = r.val; omega
  | ⟨1, _⟩ => show win0_0.index t (1 : Fin 2) * 1536 + 1 * k.val = k.val; omega

theorem resultElem (p : Fin 1024) (q : Fin 128) (r : Fin 4096) (hr : r.val = 1024 * t.val + p.val) :
    ((cfg0.win 7).blk t).view.emb (ix2 p q) = (ix2 r q : S4096x128.Idx) := by
  obtain ⟨-, -, r7, k7⟩ := rowIndex t
  funext a; apply Fin.ext
  match a with
  | ⟨0, _⟩ => show win0_7.index t (0 : Fin 2) * 1024 + 1 * p.val = r.val; omega
  | ⟨1, _⟩ => show win0_7.index t (1 : Fin 2) * 128 + 1 * q.val = q.val; omega

-- row r of the result lies in the block of point ⌊r / 1024⌋
theorem result_covered (i : S4096x128.Idx) : ∃ t : Fin cfg0.N, (cfg0.win 7).flush t = true ∧ i ∈ ((cfg0.win 7).blk t).view.set := by
  have hi0 : (i 0).val < 4096 := (i 0).isLt
  have hi1 : (i 1).val < 128 := (i 1).isLt
  have hN : grid0.N = 4 := N_0
  have ht : (i 0).val / 1024 < grid0.N := by omega
  obtain ⟨-, -, r7, k7⟩ := rowIndex ⟨(i 0).val / 1024, ht⟩
  refine ⟨⟨(i 0).val / 1024, ht⟩, flush0_7 _, ?_⟩
  show i ∈ ((View.whole main_v3).slice (win0_7.rect ⟨(i 0).val / 1024, ht⟩)).set
  rw [View.set_slice_whole, Rect.mem_set_unit]
  intro a
  match a with
  | ⟨0, _⟩ =>
    show win0_7.index _ (0 : Fin 2) * 1024 ≤ (i 0).val ∧ (i 0).val < win0_7.index _ (0 : Fin 2) * 1024 + 1024
    rw [r7]; show (i 0).val / 1024 * 1024 ≤ (i 0).val ∧ (i 0).val < (i 0).val / 1024 * 1024 + 1024; omega
  | ⟨1, _⟩ => show win0_7.index _ (1 : Fin 2) * 128 ≤ (i 1).val ∧ (i 1).val < win0_7.index _ (1 : Fin 2) * 128 + 128; rw [k7]; omega

-- the block that point t contributes to the result is block t of the three layers of the seven arrays
theorem writtenBack_eq :
    (dat0 (F := Ideal) V qs c).flushed 7 t = ((cfg0.win 7).blk t).view.read (Elt Ideal)
      (Cert.Spec.mlp (V c main_arg0 : Vec Ideal S4096x1536 .f32) (V c main_v0 : Vec Ideal S1536x512 .bf16) (V c main_arg5 : Vec Ideal S1x512 .f32)
        (V c main_v1 : Vec Ideal S512x256 .bf16) (V c main_arg6 : Vec Ideal S1x256 .f32) (V c main_v2 : Vec Ideal S256x128 .bf16) (V c main_arg7 : Vec Ideal S1x128 .f32)) := by
  show (cfg0.win 7).cut (grid0.coords t) ((dat0 V qs c).after 7 t) = _
  dsimp only [dat0]
  unfold layersOut
  have z : (![0, 0] : Fin 2 → Nat) = fun _ => 0 := by funext a; fin_cases a <;> rfl
  rw [View.canon_unit_zero z]
  simp only [View.ld_unit_zero (S := S1024x1536) z, View.ld_unit_zero (S := S1536x512) z, View.ld_unit_zero (S := S1x512) z, View.ld_unit_zero (S := S512x256) z, View.ld_unit_zero (S := S1x256) z, View.ld_unit_zero (S := S256x128) z, View.ld_unit_zero (S := S1x128) z]
  rw [pay_eq]
  simp only [wholeBlocks V c t]
  funext y
  obtain ⟨p, q, rfl⟩ : ∃ (p : Fin 1024) (q : Fin 128), y = ix2 p q := ⟨y 0, y 1, eq_ix2 y⟩
  have hN : grid0.N = 4 := N_0
  have ht : t.val < grid0.N := t.isLt
  have hr : 1024 * t.val + p.val < 4096 := by have := p.isLt; omega
  exact (mlp_row _ _ _ _ _ _ _ _ (⟨_, hr⟩ : Fin 4096) p q fun k => featuresRow V c t p k _ rfl).symm.trans
    (congrArg (Cert.Spec.mlp _ _ _ _ _ _ _) (resultElem t p q ⟨_, hr⟩ rfl).symm)

theorem value0 :
    (dat0 (F := Ideal) V qs c).arrAt 7 cfg0.N
      = Cert.Spec.mlp (V c main_arg0 : Vec Ideal S4096x1536 .f32) (V c main_v0 : Vec Ideal S1536x512 .bf16) (V c main_arg5 : Vec Ideal S1x512 .f32)
        (V c main_v1 : Vec Ideal S512x256 .bf16) (V c main_arg6 : Vec Ideal S1x256 .f32) (V c main_v2 : Vec Ideal S256x128 .bf16) (V c main_arg7 : Vec Ideal S1x128 .f32) :=
  (dat0 V qs c).arrAt_eq_of_cover 7 _ (fun t _ => writtenBack_eq V qs c t) result_covered

end AtIdeal

end Cert.KernelIdeal.Hand

end
-- ==== Proof.KI.Step.lean ====
import proofs.«153234_g2000604307514898_pallasbulk_606_4_alg».proof.Proof.Gen.KernelIdeal.Launch
import proofs.«153234_g2000604307514898_pallasbulk_606_4_alg».proof.Proof.Gen.KernelIdeal.Skeleton
import proofs.«153234_g2000604307514898_pallasbulk_606_4_alg».proof.Proof.Gen.KernelIdeal.Points
import proofs.«153234_g2000604307514898_pallasbulk_606_4_alg».proof.Proof.Spec
import proofs.«153234_g2000604307514898_pallasbulk_606_4_alg».proof.Proof.LibDot
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section AnyModel

def stepRows (cnt : Vec F S512x4096 .f32) (h : Vec F S4096x128 .f32) (dAll : Vec F S4096x1 .f32)
    (dRows : Vec F S512x1 .f32) (x0 : Vec F S512x128 .f32) : Vec F S512x128 .f32 :=
  k1_pay1 h dAll cnt dRows x0

theorem zeroOffsets : (![0, 0] : Fin 2 → Nat) = fun _ => 0 := funext fun a => by fin_cases a <;> rfl

def RunsStep (body : grid1.Coords → (arg1 : Memref sig .tc .vmem S512x4096 .f32) → arg1.IsWhole → (arg2 : Memref sig .tc .vmem S4096x128 .f32) → arg2.IsWhole
      → (arg3 : Memref sig .tc .vmem S4096x1 .f32) → arg3.IsWhole → (arg4 : Memref sig .tc .vmem S512x1 .f32) → arg4.IsWhole
      → (arg5 : Memref sig .tc .vmem S512x128 .f32) → arg5.IsWhole → (arg6 : Memref sig .tc .vmem S512x128 .f32) → arg6.IsWhole
      → Prog (TpuEff nD τ sig (Elt F) Λ₀ .tc) PUnit) : Prop :=
  ∀ (c : Dev nD) (E : Set ℕ) (i : grid1.Coords)
    (arg1 : Memref sig .tc .vmem S512x4096 .f32) (harg1 : arg1.IsWhole) (arg2 : Memref sig .tc .vmem S4096x128 .f32) (harg2 : arg2.IsWhole)
    (arg3 : Memref sig .tc .vmem S4096x1 .f32) (harg3 : arg3.IsWhole) (arg4 : Memref sig .tc .vmem S512x1 .f32) (harg4 : arg4.IsWhole)
    (arg5 : Memref sig .tc .vmem S512x128 .f32) (harg5 : arg5.IsWhole) (arg6 : Memref sig .tc .vmem S512x128 .f32) (harg6 : arg6.IsWhole)
    (cnt : Vec F S512x4096 .f32) (h : Vec F S4096x128 .f32) (dAll : Vec F S4096x1 .f32) (dRows : Vec F S512x1 .f32) (x0 : Vec F S512x128 .f32)
    (K : PUnit → sProp 𝕄),
    iprop(owns (c : Thread nD τ) arg1 fullShare cnt ∗ owns (c : Thread nD τ) arg2 fullShare h ∗ owns (c : Thread nD τ) arg3 fullShare dAll
        ∗ owns (c : Thread nD τ) arg4 fullShare dRows ∗ owns (c : Thread nD τ) arg5 fullShare x0 ∗ (∃ d, owns (c : Thread nD τ) arg6 fullShare d)
        ∗ (iprop(owns (c : Thread nD τ) arg1 fullShare cnt ∗ owns (c : Thread nD τ) arg2 fullShare h ∗ owns (c : Thread nD τ) arg3 fullShare dAll
            ∗ owns (c : Thread nD τ) arg4 fullShare dRows ∗ owns (c : Thread nD τ) arg5 fullShare x0
            ∗ owns (c : Thread nD τ) arg6 fullShare (stepRows cnt h dAll dRows x0)) -∗ K ⟨⟩))
      ⊢ wp frame (wpE (defs₀ (F := F)) Variants.none c none) E
          (body i arg1 harg1 arg2 harg2 arg3 harg3 arg4 harg4 arg5 harg5 arg6 harg6) K

set_option maxHeartbeats 1000000 in
theorem runs_step1 : RunsStep (F := F) cc1__prop_kernel := by
  intro c E i arg1 harg1 arg2 harg2 arg3 harg3 arg4 harg4 arg5 harg5 arg6 harg6 cnt h dAll dRows x0 K
  simp only [cc1__prop_kernel_eq_skeleton]; unfold cc1__prop_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero zeroOffsets inb_S512x128_S512x128_0_0 y⟩),
    View.canon_unit_zero zeroOffsets]
  simp only [View.readAt_eq_ld, View.ld_unit_zero (S := S4096x128) zeroOffsets, View.ld_unit_zero (S := S4096x1) zeroOffsets,
    View.ld_unit_zero (S := S512x4096) zeroOffsets, View.ld_unit_zero (S := S512x1) zeroOffsets,
    View.ld_unit_zero (S := S512x128) zeroOffsets]
  rfl

theorem runs_step2 : RunsStep (F := F) cc2__prop_kernel := runs_step1

end AnyModel

section AtIdeal

open Idealize.ShloMosaic.ValueIdx

theorem rowsTimes_apply (A : FVec Ideal S512x4096 .f32) (B : FVec Ideal S4096x128 .f32) (p : Fin 512) (q : Fin 128) :
    matmul dot_S512x4096_S4096x128_S512x128_1_0_0_1_n_n none A B (constant (F := Ideal) S512x128 .f32 0x00000000#32) (ix2 p q)
      = ∑ k : Fin 4096, A (ix2 p k) * B (ix2 k q) :=
  Cert.Hand.product_apply (m := 512) (k := 4096) (n := 128) A B p q

theorem colOverLanes4096 (d : FVec Ideal S4096x1 .f32) (k : Fin 4096) (q : Fin 128) :
    broadcastTo S4096x128 d broadcasts_S4096x1_S4096x128 (ix2 k q) = d (ix2 k (0 : Fin 1)) := by
  refine broadcastTo_apply d _ (ix2 k q) (ix2 k (0 : Fin 1)) fun a => ?_
  match a with
  | ⟨0, _⟩ => rfl
  | ⟨1, _⟩ => rfl

theorem colOverLanes512 (d : FVec Ideal S512x1 .f32) (p : Fin 512) (q : Fin 128) :
    broadcastTo S512x128 d broadcasts_S512x1_S512x128 (ix2 p q) = d (ix2 p (0 : Fin 1)) := by
  refine broadcastTo_apply d _ (ix2 p q) (ix2 p (0 : Fin 1)) fun a => ?_
  match a with
  | ⟨0, _⟩ => rfl
  | ⟨1, _⟩ => rfl

theorem stepRows_apply (cnt : FVec Ideal S512x4096 .f32) (h : FVec Ideal S4096x128 .f32) (dAll : FVec Ideal S4096x1 .f32)
    (dRows : FVec Ideal S512x1 .f32) (x0 : FVec Ideal S512x128 .f32) (p : Fin 512) (q : Fin 128) :
    stepRows (F := Ideal) cnt h dAll dRows x0 (ix2 p q)
      = (Cert.Spec.c9 * dRows (ix2 p (0 : Fin 1))) * (∑ k : Fin 4096, cnt (ix2 p k) * (h (ix2 k q) * dAll (ix2 k (0 : Fin 1))))
        + Cert.Spec.c1 * x0 (ix2 p q) := by
  unfold stepRows k1_pay1
  simp only [shapeCast_self]
  rw [addf_apply, mulf_apply, mulf_apply, broadcast_apply, colOverLanes512, mulf_apply, broadcast_apply, rowsTimes_apply]
  refine congrArg₂ (· + ·) (congrArg₂ (· * ·) rfl (Finset.sum_congr rfl fun k _ => ?_)) rfl
  rw [mulf_apply, colOverLanes4096]

end AtIdeal

end Cert.KernelIdeal.Hand

end
-- ==== Proof.KI.Reg1.lean ====
import proofs.«153234_g2000604307514898_pallasbulk_606_4_alg».proof.Proof.Gen.KernelIdeal.Launch
import proofs.«153234_g2000604307514898_pallasbulk_606_4_alg».proof.Proof.Gen.KernelIdeal.Skeleton
import proofs.«153234_g2000604307514898_pallasbulk_606_4_alg».proof.Proof.Gen.KernelIdeal.Points
import proofs.«153234_g2000604307514898_pallasbulk_606_4_alg».proof.Proof.KI.Step
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section AnyModel

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

variable (qs : Fin cfg1.W → PosShare TreeShare) (c : Dev nD)

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => stepRows (iblk1 V c 0 t) (iblk1 V c 1 t) (iblk1 V c 2 t) (iblk1 V c 3 t) (iblk1 V c 4 t)
  Φ _ := Pipeline.ΦA spec1 c
  q := qs
  owed _ := 0

theorem A_eq1 (w : Fin cfg1.W) :
    (dat1 V qs c).A w = V c (Pipeline.arrRef spec1 w) := by
  dsimp only [dat1]

theorem owed_eq1 (t : Fin (cfg1.N + 1)) : (dat1 V qs c).owed t = 0 := by
  dsimp only [dat1]

theorem q_eq1 (w : Fin cfg1.W) : (dat1 V qs c).q w = qs w := by
  dsimp only [dat1]

theorem recorded_eq1 (t : Fin (cfg1.N + 1)) :
    (dat1 V qs c).recorded t = Set.univ := rfl

theorem holdsBlock1 (t : Fin cfg1.N) :
    (∀ d, (dat1 V qs c).before 0 t d = iblk1 V c 0 t) ∧ (∀ d, (dat1 V qs c).before 1 t d = iblk1 V c 1 t)
    ∧ (∀ d, (dat1 V qs c).before 2 t d = iblk1 V c 2 t) ∧ (∀ d, (dat1 V qs c).before 3 t d = iblk1 V c 3 t)
    ∧ (∀ d, (dat1 V qs c).before 4 t d = iblk1 V c 4 t) := by
  refine ⟨?_, ?_, ?_, ?_, ?_⟩ <;>
    exact fun d => ((dat1 V qs c).before_in_eq_fetched _ rfl (fun _ => rfl) (fun _ _ _ => rfl) (fun _ => rfl) t d).trans rfl

def handed1 (t : Fin cfg1.N) : sProp 𝕄 :=
  iprop((dat1 V qs c).Φ t.castSucc ∗ (dat1 V qs c).owesAt () t.castSucc
    ∗ (∃ d, owns (c : Thread nD τ) (st1_0 t) fullShare ((dat1 V qs c).before 0 t d))
    ∗ (∃ d, owns (c : Thread nD τ) (st1_1 t) fullShare ((dat1 V qs c).before 1 t d))
    ∗ (∃ d, owns (c : Thread nD τ) (st1_2 t) fullShare ((dat1 V qs c).before 2 t d))
    ∗ (∃ d, owns (c : Thread nD τ) (st1_3 t) fullShare ((dat1 V qs c).before 3 t d))
    ∗ (∃ d, owns (c : Thread nD τ) (st1_4 t) fullShare ((dat1 V qs c).before 4 t d))
    ∗ (∃ d, owns (c : Thread nD τ) (st1_5 t) fullShare ((dat1 V qs c).before 5 t d)))

def returned1 (t : Fin cfg1.N) : sProp 𝕄 :=
  iprop((dat1 V qs c).Φ t.succ ∗ (dat1 V qs c).owesAt () t.succ
    ∗ owns (c : Thread nD τ) (st1_0 t) fullShare ((dat1 V qs c).after 0 t)
    ∗ owns (c : Thread nD τ) (st1_1 t) fullShare ((dat1 V qs c).after 1 t)
    ∗ owns (c : Thread nD τ) (st1_2 t) fullShare ((dat1 V qs c).after 2 t)
    ∗ owns (c : Thread nD τ) (st1_3 t) fullShare ((dat1 V qs c).after 3 t)
    ∗ owns (c : Thread nD τ) (st1_4 t) fullShare ((dat1 V qs c).after 4 t)
    ∗ owns (c : Thread nD τ) (st1_5 t) fullShare ((dat1 V qs c).after 5 t))

theorem step_at_point1 (t : Fin cfg1.N) :
    handed1 V qs c t ⊢ wp frame (wpE (defs₀ (F := F)) Variants.none c none) Set.univ (bodyAt1 t) (fun _ => returned1 V qs c t) := by
  unfold handed1 returned1 bodyAt1
  simp only [holdsBlock1 V qs c t]
  rw [show (dat1 V qs c).Φ t.succ = (dat1 V qs c).Φ t.castSucc from rfl,
    show (dat1 V qs c).owesAt () t.succ = (dat1 V qs c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩⟩
  iapply (runs_step1 c Set.univ _ _ _ _ _ _ _ _ _ _ _ _ _
    (iblk1 V c 0 t) (iblk1 V c 1 t) (iblk1 V c 2 t) (iblk1 V c 3 t) (iblk1 V c 4 t) _)
  iframe H0 H1 H2 H3 H4
  isplitl [H5]; · iexists _; iexact H5
  iintro H
  iframe

theorem body_obligation1 :
    BodyObligation (dat1 (F := F) V qs c) (defs₀ (F := F)) Variants.none () Set.univ := fun t => by
  rw [bigSep_W1, bigSep_W1]
  exact step_at_point1 V qs c t

theorem hin1 : Pipeline.ΦA spec1 c ⊢ (dat1 V qs c).Φ 0 := by
  dsimp only [dat1]; iintro H; iexact H

theorem hout1 : (dat1 V qs c).Φ (Fin.last cfg1.N) ⊢ Pipeline.ΦA spec1 c := by
  dsimp only [dat1]; iintro H; iexact H

theorem arrAt_in1 (w : Fin cfg1.W) (hw : w ≠ 5) (n : Nat) :
    (dat1 V qs c).arrAt w n = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  rw [(dat1 V qs c).arrAt_in w hin n, A_eq1]

end AnyModel

section AtIdeal

open Idealize.ShloMosaic.ValueIdx

variable (V : (c : Dev nD) → (b : Ref sig .tc) → Buf (Elt Ideal) ((c : Thread nD τ).loc b))
  (qs : Fin cfg1.W → PosShare TreeShare) (c : Dev nD)

theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 ∧ t.val < 8 :=
  (by decide +kernel : ∀ t : Fin grid1.N, _)

def rowAt1 (t : Fin cfg1.N) (p : Fin 512) : Fin 4096 :=
  ⟨t.val * 512 + p.val, by have := (blockIndex1 t).2.2.2.2.2.2.2.2.2.2.2.2; have := p.isLt; omega⟩

abbrev cntArr1 : S4096x4096.Idx → EReal := V c main_v26
abbrev hArr1 : S4096x128.Idx → EReal := V c (Pipeline.arrRef spec1 1)
abbrev dArr1 : S4096x1.Idx → EReal := V c main_v48
abbrev x0Arr1 : S4096x128.Idx → EReal := V c main_v3

theorem cntBlock1_apply (t : Fin cfg1.N) (p : Fin 512) (k : Fin 4096) :
    (iblk1 V c 0 t : S512x4096.Idx → EReal) (ix2 p k) = cntArr1 V c (ix2 (rowAt1 t p) k) := by
  show cntArr1 V c (((cfg1.win 0).blk t).view.emb (ix2 p k)) = _
  refine congrArg (cntArr1 V c) (funext fun a => Fin.ext ?_)
  obtain ⟨e0, e1, -⟩ := blockIndex1 t
  match a with
  | ⟨0, _⟩ => show win1_0.index t (0 : Fin 2) * 512 + 1 * p.val = t.val * 512 + p.val; omega
  | ⟨1, _⟩ => show win1_0.index t (1 : Fin 2) * 4096 + 1 * k.val = k.val; omega

theorem hBlock1_apply (t : Fin cfg1.N) (k : Fin 4096) (q : Fin 128) :
    (iblk1 V c 1 t : S4096x128.Idx → EReal) (ix2 k q) = hArr1 V c (ix2 k q) := by
  show hArr1 V c (((cfg1.win 1).blk t).view.emb (ix2 k q)) = _
  refine congrArg (hArr1 V c) (funext fun a => Fin.ext ?_)
  obtain ⟨-, -, e0, e1, -⟩ := blockIndex1 t
  match a with
  | ⟨0, _⟩ => show win1_1.index t (0 : Fin 2) * 4096 + 1 * k.val = k.val; omega
  | ⟨1, _⟩ => show win1_1.index t (1 : Fin 2) * 128 + 1 * q.val = q.val; omega

theorem dAllBlock1_apply (t : Fin cfg1.N) (k : Fin 4096) :
    (iblk1 V c 2 t : S4096x1.Idx → EReal) (ix2 k (0 : Fin 1)) = dArr1 V c (ix2 k (0 : Fin 1)) := by
  show dArr1 V c (((cfg1.win 2).blk t).view.emb (ix2 k (0 : Fin 1))) = _
  refine congrArg (dArr1 V c) (funext fun a => Fin.ext ?_)
  obtain ⟨-, -, -, -, e0, e1, -⟩ := blockIndex1 t
  match a with
  | ⟨0, _⟩ => show win1_2.index t (0 : Fin 2) * 4096 + 1 * k.val = k.val; omega
  | ⟨1, _⟩ => show win1_2.index t (1 : Fin 2) * 1 + 1 * (0 : Fin 1).val = (0 : Fin 1).val; omega

theorem dRowsBlock1_apply (t : Fin cfg1.N) (p : Fin 512) :
    (iblk1 V c 3 t : S512x1.Idx → EReal) (ix2 p (0 : Fin 1)) = dArr1 V c (ix2 (rowAt1 t p) (0 : Fin 1)) := by
  show dArr1 V c (((cfg1.win 3).blk t).view.emb (ix2 p (0 : Fin 1))) = _
  refine congrArg (dArr1 V c) (funext fun a => Fin.ext ?_)
  obtain ⟨-, -, -, -, -, -, e0, e1, -⟩ := blockIndex1 t
  match a with
  | ⟨0, _⟩ => show win1_3.index t (0 : Fin 2) * 512 + 1 * p.val = t.val * 512 + p.val; omega
  | ⟨1, _⟩ => show win1_3.index t (1 : Fin 2) * 1 + 1 * (0 : Fin 1).val = (0 : Fin 1).val; omega

theorem x0Block1_apply (t : Fin cfg1.N) (p : Fin 512) (q : Fin 128) :
    (iblk1 V c 4 t : S512x128.Idx → EReal) (ix2 p q) = x0Arr1 V c (ix2 (rowAt1 t p) q) := by
  show x0Arr1 V c (((cfg1.win 4).blk t).view.emb (ix2 p q)) = _
  refine congrArg (x0Arr1 V c) (funext fun a => Fin.ext ?_)
  obtain ⟨-, -, -, -, -, -, -, -, e0, e1, -⟩ := blockIndex1 t
  match a with
  | ⟨0, _⟩ => show win1_4.index t (0 : Fin 2) * 512 + 1 * p.val = t.val * 512 + p.val; omega
  | ⟨1, _⟩ => show win1_4.index t (1 : Fin 2) * 128 + 1 * q.val = q.val; omega

theorem outBlock1_emb (t : Fin cfg1.N) (p : Fin 512) (q : Fin 128) :
    (((cfg1.win 5).blk t).view.emb (ix2 p q) : S4096x128.Idx) = ix2 (rowAt1 t p) q := by
  funext a; apply Fin.ext
  obtain ⟨-, -, -, -, -, -, -, -, -, -, e0, e1, -⟩ := blockIndex1 t
  match a with
  | ⟨0, _⟩ => show win1_5.index t (0 : Fin 2) * 512 + 1 * p.val = t.val * 512 + p.val; omega
  | ⟨1, _⟩ => show win1_5.index t (1 : Fin 2) * 128 + 1 * q.val = q.val; omega

theorem writesBack1 (t : Fin cfg1.N) :
    (dat1 (F := Ideal) V qs c).flushed 5 t
      = ((cfg1.win 5).blk t).view.read (Elt Ideal)
          (Cert.Spec.propK (cntArr1 V c) (hArr1 V c) (dArr1 V c) (x0Arr1 V c)) := by
  show (cfg1.win 5).cut (grid1.coords t) ((dat1 V qs c).after 5 t) = _
  show (stepRows (F := Ideal) (iblk1 V c 0 t) (iblk1 V c 1 t) (iblk1 V c 2 t) (iblk1 V c 3 t) (iblk1 V c 4 t) : S512x128.Idx → EReal)
      = fun j : S512x128.Idx => Cert.Spec.propK (cntArr1 V c) (hArr1 V c) (dArr1 V c) (x0Arr1 V c) (((cfg1.win 5).blk t).view.emb j)
  funext j
  obtain ⟨p, q, rfl⟩ : ∃ (p : Fin 512) (q : Fin 128), j = ix2 p q := ⟨j 0, j 1, eq_ix2 j⟩
  refine (stepRows_apply (iblk1 V c 0 t) (iblk1 V c 1 t) (iblk1 V c 2 t) (iblk1 V c 3 t) (iblk1 V c 4 t) p q).trans ?_
  rw [outBlock1_emb t p q]
  show _ = (Cert.Spec.c9 * dArr1 V c (ix2 (rowAt1 t p) (0 : Fin 1)))
      * (∑ k : Fin 4096, cntArr1 V c (ix2 (rowAt1 t p) k) * (hArr1 V c (ix2 k q) * dArr1 V c (ix2 k (0 : Fin 1))))
      + Cert.Spec.c1 * x0Arr1 V c (ix2 (rowAt1 t p) q)
  refine congrArg₂ (· + ·) (congrArg₂ (· * ·) (congrArg (Cert.Spec.c9 * ·) (dRowsBlock1_apply V c t p)) (Finset.sum_congr rfl fun k _ => ?_))
    (congrArg (Cert.Spec.c1 * ·) (x0Block1_apply V c t p q))
  exact congrArg₂ (· * ·) (cntBlock1_apply V c t p k) (congrArg₂ (· * ·) (hBlock1_apply V c t k q) (dAllBlock1_apply V c t k))

theorem mem_outBlock1 (t : Fin cfg1.N) (i : S4096x128.Idx) :
    i ∈ ((cfg1.win 5).blk t).view.set ↔ ∀ a : Fin 2, win1_5.index t a * S512x128.size a ≤ (i a).val ∧ (i a).val < win1_5.index t a * S512x128.size a + S512x128.size a := by
  show i ∈ ((View.whole main_v49).slice (win1_5.rect t)).set ↔ _
  rw [View.set_slice_whole, Rect.mem_set_unit]
  exact Iff.rfl

theorem covered1 (i : S4096x128.Idx) :
    ∃ t : Fin cfg1.N, (cfg1.win 5).flush t = true ∧ i ∈ ((cfg1.win 5).blk t).view.set := by
  have hi0 : (i 0).val < 4096 := idx2_lt0 i
  have hi1 : (i 1).val < 128 := idx2_lt1 i
  have hN : (i 0).val / 512 < cfg1.N := by show _ < grid1.N; rw [N_1]; omega
  refine ⟨⟨(i 0).val / 512, hN⟩, flush1_5 _, ?_⟩
  rw [mem_outBlock1]
  obtain ⟨-, -, -, -, -, -, -, -, -, -, e0, e1, -⟩ := blockIndex1 ⟨(i 0).val / 512, hN⟩
  intro a
  match a with
  | ⟨0, _⟩ =>
    show win1_5.index ⟨(i 0).val / 512, hN⟩ (0 : Fin 2) * 512 ≤ (i 0).val ∧ (i 0).val < win1_5.index ⟨(i 0).val / 512, hN⟩ (0 : Fin 2) * 512 + 512
    rw [e0]; show (i 0).val / 512 * 512 ≤ (i 0).val ∧ (i 0).val < (i 0).val / 512 * 512 + 512; omega
  | ⟨1, _⟩ =>
    show win1_5.index ⟨(i 0).val / 512, hN⟩ (1 : Fin 2) * 128 ≤ (i 1).val ∧ (i 1).val < win1_5.index ⟨(i 0).val / 512, hN⟩ (1 : Fin 2) * 128 + 128
    rw [e1]; omega

theorem value1 :
    (dat1 (F := Ideal) V qs c).arrAt 5 cfg1.N
      = Cert.Spec.propK (V c main_v26 : S4096x4096.Idx → EReal) (V c main_v3 : S4096x128.Idx → EReal)
          (V c main_v48 : S4096x1.Idx → EReal) (V c main_v3 : S4096x128.Idx → EReal) :=
  (dat1 (F := Ideal) V qs c).arrAt_eq_of_cover 5 _ (fun t _ => writesBack1 V qs c t) covered1

end AtIdeal

end Cert.KernelIdeal.Hand

end
-- ==== Proof.KI.Reg2.lean ====
import proofs.«153234_g2000604307514898_pallasbulk_606_4_alg».proof.Proof.Gen.KernelIdeal.Launch
import proofs.«153234_g2000604307514898_pallasbulk_606_4_alg».proof.Proof.Gen.KernelIdeal.Skeleton
import proofs.«153234_g2000604307514898_pallasbulk_606_4_alg».proof.Proof.Gen.KernelIdeal.Points
import proofs.«153234_g2000604307514898_pallasbulk_606_4_alg».proof.Proof.KI.Step
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section AnyModel

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

variable (qs : Fin cfg2.W → PosShare TreeShare) (c : Dev nD)

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => stepRows (iblk2 V c 0 t) (iblk2 V c 1 t) (iblk2 V c 2 t) (iblk2 V c 3 t) (iblk2 V c 4 t)
  Φ _ := Pipeline.ΦA spec2 c
  q := qs
  owed _ := 0

theorem A_eq2 (w : Fin cfg2.W) :
    (dat2 V qs c).A w = V c (Pipeline.arrRef spec2 w) := by
  dsimp only [dat2]

theorem owed_eq2 (t : Fin (cfg2.N + 1)) : (dat2 V qs c).owed t = 0 := by
  dsimp only [dat2]

theorem q_eq2 (w : Fin cfg2.W) : (dat2 V qs c).q w = qs w := by
  dsimp only [dat2]

theorem recorded_eq2 (t : Fin (cfg2.N + 1)) :
    (dat2 V qs c).recorded t = Set.univ := rfl

theorem holdsBlock2 (t : Fin cfg2.N) :
    (∀ d, (dat2 V qs c).before 0 t d = iblk2 V c 0 t) ∧ (∀ d, (dat2 V qs c).before 1 t d = iblk2 V c 1 t)
    ∧ (∀ d, (dat2 V qs c).before 2 t d = iblk2 V c 2 t) ∧ (∀ d, (dat2 V qs c).before 3 t d = iblk2 V c 3 t)
    ∧ (∀ d, (dat2 V qs c).before 4 t d = iblk2 V c 4 t) := by
  refine ⟨?_, ?_, ?_, ?_, ?_⟩ <;>
    exact fun d => ((dat2 V qs c).before_in_eq_fetched _ rfl (fun _ => rfl) (fun _ _ _ => rfl) (fun _ => rfl) t d).trans rfl

def handed2 (t : Fin cfg2.N) : sProp 𝕄 :=
  iprop((dat2 V qs c).Φ t.castSucc ∗ (dat2 V qs c).owesAt () t.castSucc
    ∗ (∃ d, owns (c : Thread nD τ) (st2_0 t) fullShare ((dat2 V qs c).before 0 t d))
    ∗ (∃ d, owns (c : Thread nD τ) (st2_1 t) fullShare ((dat2 V qs c).before 1 t d))
    ∗ (∃ d, owns (c : Thread nD τ) (st2_2 t) fullShare ((dat2 V qs c).before 2 t d))
    ∗ (∃ d, owns (c : Thread nD τ) (st2_3 t) fullShare ((dat2 V qs c).before 3 t d))
    ∗ (∃ d, owns (c : Thread nD τ) (st2_4 t) fullShare ((dat2 V qs c).before 4 t d))
    ∗ (∃ d, owns (c : Thread nD τ) (st2_5 t) fullShare ((dat2 V qs c).before 5 t d)))

def returned2 (t : Fin cfg2.N) : sProp 𝕄 :=
  iprop((dat2 V qs c).Φ t.succ ∗ (dat2 V qs c).owesAt () t.succ
    ∗ owns (c : Thread nD τ) (st2_0 t) fullShare ((dat2 V qs c).after 0 t)
    ∗ owns (c : Thread nD τ) (st2_1 t) fullShare ((dat2 V qs c).after 1 t)
    ∗ owns (c : Thread nD τ) (st2_2 t) fullShare ((dat2 V qs c).after 2 t)
    ∗ owns (c : Thread nD τ) (st2_3 t) fullShare ((dat2 V qs c).after 3 t)
    ∗ owns (c : Thread nD τ) (st2_4 t) fullShare ((dat2 V qs c).after 4 t)
    ∗ owns (c : Thread nD τ) (st2_5 t) fullShare ((dat2 V qs c).after 5 t))

theorem step_at_point2 (t : Fin cfg2.N) :
    handed2 V qs c t ⊢ wp frame (wpE (defs₀ (F := F)) Variants.none c none) Set.univ (bodyAt2 t) (fun _ => returned2 V qs c t) := by
  unfold handed2 returned2 bodyAt2
  simp only [holdsBlock2 V qs c t]
  rw [show (dat2 V qs c).Φ t.succ = (dat2 V qs c).Φ t.castSucc from rfl,
    show (dat2 V qs c).owesAt () t.succ = (dat2 V qs c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩⟩
  iapply (runs_step2 c Set.univ _ _ _ _ _ _ _ _ _ _ _ _ _
    (iblk2 V c 0 t) (iblk2 V c 1 t) (iblk2 V c 2 t) (iblk2 V c 3 t) (iblk2 V c 4 t) _)
  iframe H0 H1 H2 H3 H4
  isplitl [H5]; · iexists _; iexact H5
  iintro H
  iframe

theorem body_obligation2 :
    BodyObligation (dat2 (F := F) V qs c) (defs₀ (F := F)) Variants.none () Set.univ := fun t => by
  rw [bigSep_W2, bigSep_W2]
  exact step_at_point2 V qs c t

theorem hin2 : Pipeline.ΦA spec2 c ⊢ (dat2 V qs c).Φ 0 := by
  dsimp only [dat2]; iintro H; iexact H

theorem hout2 : (dat2 V qs c).Φ (Fin.last cfg2.N) ⊢ Pipeline.ΦA spec2 c := by
  dsimp only [dat2]; iintro H; iexact H

theorem arrAt_in2 (w : Fin cfg2.W) (hw : w ≠ 5) (n : Nat) :
    (dat2 V qs c).arrAt w n = V c (Pipeline.arrRef spec2 w) := by
  have hin : (cfg2.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  rw [(dat2 V qs c).arrAt_in w hin n, A_eq2]

end AnyModel

section AtIdeal

open Idealize.ShloMosaic.ValueIdx

variable (V : (c : Dev nD) → (b : Ref sig .tc) → Buf (Elt Ideal) ((c : Thread nD τ).loc b))
  (qs : Fin cfg2.W → PosShare TreeShare) (c : Dev nD)

theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 ∧ t.val < 8 :=
  (by decide +kernel : ∀ t : Fin grid2.N, _)

def rowAt2 (t : Fin cfg2.N) (p : Fin 512) : Fin 4096 :=
  ⟨t.val * 512 + p.val, by have := (blockIndex2 t).2.2.2.2.2.2.2.2.2.2.2.2; have := p.isLt; omega⟩

abbrev cntArr2 : S4096x4096.Idx → EReal := V c main_v26
abbrev hArr2 : S4096x128.Idx → EReal := V c (Pipeline.arrRef spec2 1)
abbrev dArr2 : S4096x1.Idx → EReal := V c main_v48
abbrev x0Arr2 : S4096x128.Idx → EReal := V c main_v3

theorem cntBlock2_apply (t : Fin cfg2.N) (p : Fin 512) (k : Fin 4096) :
    (iblk2 V c 0 t : S512x4096.Idx → EReal) (ix2 p k) = cntArr2 V c (ix2 (rowAt2 t p) k) := by
  show cntArr2 V c (((cfg2.win 0).blk t).view.emb (ix2 p k)) = _
  refine congrArg (cntArr2 V c) (funext fun a => Fin.ext ?_)
  obtain ⟨e0, e1, -⟩ := blockIndex2 t
  match a with
  | ⟨0, _⟩ => show win2_0.index t (0 : Fin 2) * 512 + 1 * p.val = t.val * 512 + p.val; omega
  | ⟨1, _⟩ => show win2_0.index t (1 : Fin 2) * 4096 + 1 * k.val = k.val; omega

theorem hBlock2_apply (t : Fin cfg2.N) (k : Fin 4096) (q : Fin 128) :
    (iblk2 V c 1 t : S4096x128.Idx → EReal) (ix2 k q) = hArr2 V c (ix2 k q) := by
  show hArr2 V c (((cfg2.win 1).blk t).view.emb (ix2 k q)) = _
  refine congrArg (hArr2 V c) (funext fun a => Fin.ext ?_)
  obtain ⟨-, -, e0, e1, -⟩ := blockIndex2 t
  match a with
  | ⟨0, _⟩ => show win2_1.index t (0 : Fin 2) * 4096 + 1 * k.val = k.val; omega
  | ⟨1, _⟩ => show win2_1.index t (1 : Fin 2) * 128 + 1 * q.val = q.val; omega

theorem dAllBlock2_apply (t : Fin cfg2.N) (k : Fin 4096) :
    (iblk2 V c 2 t : S4096x1.Idx → EReal) (ix2 k (0 : Fin 1)) = dArr2 V c (ix2 k (0 : Fin 1)) := by
  show dArr2 V c (((cfg2.win 2).blk t).view.emb (ix2 k (0 : Fin 1))) = _
  refine congrArg (dArr2 V c) (funext fun a => Fin.ext ?_)
  obtain ⟨-, -, -, -, e0, e1, -⟩ := blockIndex2 t
  match a with
  | ⟨0, _⟩ => show win2_2.index t (0 : Fin 2) * 4096 + 1 * k.val = k.val; omega
  | ⟨1, _⟩ => show win2_2.index t (1 : Fin 2) * 1 + 1 * (0 : Fin 1).val = (0 : Fin 1).val; omega

theorem dRowsBlock2_apply (t : Fin cfg2.N) (p : Fin 512) :
    (iblk2 V c 3 t : S512x1.Idx → EReal) (ix2 p (0 : Fin 1)) = dArr2 V c (ix2 (rowAt2 t p) (0 : Fin 1)) := by
  show dArr2 V c (((cfg2.win 3).blk t).view.emb (ix2 p (0 : Fin 1))) = _
  refine congrArg (dArr2 V c) (funext fun a => Fin.ext ?_)
  obtain ⟨-, -, -, -, -, -, e0, e1, -⟩ := blockIndex2 t
  match a with
  | ⟨0, _⟩ => show win2_3.index t (0 : Fin 2) * 512 + 1 * p.val = t.val * 512 + p.val; omega
  | ⟨1, _⟩ => show win2_3.index t (1 : Fin 2) * 1 + 1 * (0 : Fin 1).val = (0 : Fin 1).val; omega

theorem x0Block2_apply (t : Fin cfg2.N) (p : Fin 512) (q : Fin 128) :
    (iblk2 V c 4 t : S512x128.Idx → EReal) (ix2 p q) = x0Arr2 V c (ix2 (rowAt2 t p) q) := by
  show x0Arr2 V c (((cfg2.win 4).blk t).view.emb (ix2 p q)) = _
  refine congrArg (x0Arr2 V c) (funext fun a => Fin.ext ?_)
  obtain ⟨-, -, -, -, -, -, -, -, e0, e1, -⟩ := blockIndex2 t
  match a with
  | ⟨0, _⟩ => show win2_4.index t (0 : Fin 2) * 512 + 1 * p.val = t.val * 512 + p.val; omega
  | ⟨1, _⟩ => show win2_4.index t (1 : Fin 2) * 128 + 1 * q.val = q.val; omega

theorem outBlock2_emb (t : Fin cfg2.N) (p : Fin 512) (q : Fin 128) :
    (((cfg2.win 5).blk t).view.emb (ix2 p q) : S4096x128.Idx) = ix2 (rowAt2 t p) q := by
  funext a; apply Fin.ext
  obtain ⟨-, -, -, -, -, -, -, -, -, -, e0, e1, -⟩ := blockIndex2 t
  match a with
  | ⟨0, _⟩ => show win2_5.index t (0 : Fin 2) * 512 + 1 * p.val = t.val * 512 + p.val; omega
  | ⟨1, _⟩ => show win2_5.index t (1 : Fin 2) * 128 + 1 * q.val = q.val; omega

theorem writesBack2 (t : Fin cfg2.N) :
    (dat2 (F := Ideal) V qs c).flushed 5 t
      = ((cfg2.win 5).blk t).view.read (Elt Ideal)
          (Cert.Spec.propK (cntArr2 V c) (hArr2 V c) (dArr2 V c) (x0Arr2 V c)) := by
  show (cfg2.win 5).cut (grid2.coords t) ((dat2 V qs c).after 5 t) = _
  show (stepRows (F := Ideal) (iblk2 V c 0 t) (iblk2 V c 1 t) (iblk2 V c 2 t) (iblk2 V c 3 t) (iblk2 V c 4 t) : S512x128.Idx → EReal)
      = fun j : S512x128.Idx => Cert.Spec.propK (cntArr2 V c) (hArr2 V c) (dArr2 V c) (x0Arr2 V c) (((cfg2.win 5).blk t).view.emb j)
  funext j
  obtain ⟨p, q, rfl⟩ : ∃ (p : Fin 512) (q : Fin 128), j = ix2 p q := ⟨j 0, j 1, eq_ix2 j⟩
  refine (stepRows_apply (iblk2 V c 0 t) (iblk2 V c 1 t) (iblk2 V c 2 t) (iblk2 V c 3 t) (iblk2 V c 4 t) p q).trans ?_
  rw [outBlock2_emb t p q]
  show _ = (Cert.Spec.c9 * dArr2 V c (ix2 (rowAt2 t p) (0 : Fin 1)))
      * (∑ k : Fin 4096, cntArr2 V c (ix2 (rowAt2 t p) k) * (hArr2 V c (ix2 k q) * dArr2 V c (ix2 k (0 : Fin 1))))
      + Cert.Spec.c1 * x0Arr2 V c (ix2 (rowAt2 t p) q)
  refine congrArg₂ (· + ·) (congrArg₂ (· * ·) (congrArg (Cert.Spec.c9 * ·) (dRowsBlock2_apply V c t p)) (Finset.sum_congr rfl fun k _ => ?_))
    (congrArg (Cert.Spec.c1 * ·) (x0Block2_apply V c t p q))
  exact congrArg₂ (· * ·) (cntBlock2_apply V c t p k) (congrArg₂ (· * ·) (hBlock2_apply V c t k q) (dAllBlock2_apply V c t k))

theorem mem_outBlock2 (t : Fin cfg2.N) (i : S4096x128.Idx) :
    i ∈ ((cfg2.win 5).blk t).view.set ↔ ∀ a : Fin 2, win2_5.index t a * S512x128.size a ≤ (i a).val ∧ (i a).val < win2_5.index t a * S512x128.size a + S512x128.size a := by
  show i ∈ ((View.whole main_v50).slice (win2_5.rect t)).set ↔ _
  rw [View.set_slice_whole, Rect.mem_set_unit]
  exact Iff.rfl

theorem covered2 (i : S4096x128.Idx) :
    ∃ t : Fin cfg2.N, (cfg2.win 5).flush t = true ∧ i ∈ ((cfg2.win 5).blk t).view.set := by
  have hi0 : (i 0).val < 4096 := idx2_lt0 i
  have hi1 : (i 1).val < 128 := idx2_lt1 i
  have hN : (i 0).val / 512 < cfg2.N := by show _ < grid2.N; rw [N_2]; omega
  refine ⟨⟨(i 0).val / 512, hN⟩, flush2_5 _, ?_⟩
  rw [mem_outBlock2]
  obtain ⟨-, -, -, -, -, -, -, -, -, -, e0, e1, -⟩ := blockIndex2 ⟨(i 0).val / 512, hN⟩
  intro a
  match a with
  | ⟨0, _⟩ =>
    show win2_5.index ⟨(i 0).val / 512, hN⟩ (0 : Fin 2) * 512 ≤ (i 0).val ∧ (i 0).val < win2_5.index ⟨(i 0).val / 512, hN⟩ (0 : Fin 2) * 512 + 512
    rw [e0]; show (i 0).val / 512 * 512 ≤ (i 0).val ∧ (i 0).val < (i 0).val / 512 * 512 + 512; omega
  | ⟨1, _⟩ =>
    show win2_5.index ⟨(i 0).val / 512, hN⟩ (1 : Fin 2) * 128 ≤ (i 1).val ∧ (i 1).val < win2_5.index ⟨(i 0).val / 512, hN⟩ (1 : Fin 2) * 128 + 128
    rw [e1]; omega

theorem value2 :
    (dat2 (F := Ideal) V qs c).arrAt 5 cfg2.N
      = Cert.Spec.propK (V c main_v26 : S4096x4096.Idx → EReal) (V c main_v49 : S4096x128.Idx → EReal)
          (V c main_v48 : S4096x1.Idx → EReal) (V c main_v3 : S4096x128.Idx → EReal) :=
  (dat2 (F := Ideal) V qs c).arrAt_eq_of_cover 5 _ (fun t _ => writesBack2 V qs c t) covered2

end AtIdeal

end Cert.KernelIdeal.Hand

end
-- ==== Proof.KI.Run.lean ====
import proofs.«153234_g2000604307514898_pallasbulk_606_4_alg».proof.Proof.Gen.KernelIdeal.Regions
import proofs.«153234_g2000604307514898_pallasbulk_606_4_alg».proof.Proof.KI.RunCond
import proofs.«153234_g2000604307514898_pallasbulk_606_4_alg».proof.Proof.KI.Reg0
import proofs.«153234_g2000604307514898_pallasbulk_606_4_alg».proof.Proof.KI.Reg1
import proofs.«153234_g2000604307514898_pallasbulk_606_4_alg».proof.Proof.KI.Reg2
import proofs.«153234_g2000604307514898_pallasbulk_606_4_alg».proof.Proof.LibRun
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Hand.Run
export Cert.Hand.Run (atRefs)
variable {F : FTy → Type} [FloatOps F]
local notation "𝕄" => MT nD τ sig Unit (Elt F) ℕ (UR sig nD τ) ℕ
variable (m : (ℓ : Loc nD τ sig) → Buf (Elt F) ℓ) (ρ : Dev nD → PrngReg)
def qs0 : Fin cfg0.W → PosShare TreeShare := fun _ => fullShare
def qs1 : Fin cfg1.W → PosShare TreeShare
  | ⟨0, _⟩ => fullShare
  | ⟨1, _⟩ => fullShare.left
  | ⟨2, _⟩ => fullShare.left
  | ⟨3, _⟩ => fullShare.right
  | ⟨4, _⟩ => fullShare.right
  | ⟨5, _⟩ => fullShare
def qs2 : Fin cfg2.W → PosShare TreeShare
  | ⟨0, _⟩ => fullShare
  | ⟨1, _⟩ => fullShare
  | ⟨2, _⟩ => fullShare.left
  | ⟨3, _⟩ => fullShare.right
  | ⟨4, _⟩ => fullShare
  | ⟨5, _⟩ => fullShare
def U2 (c : Dev nD) : Valuation τ sig (Elt F) :=
  Function.update (V1 m c) main_v3 ((dat0 (atRefs (V1 m)) qs0 c).arrAt 7 cfg0.N)
def U5 (c : Dev nD) : Valuation τ sig (Elt F) :=
  StableHlo.after hostOps1_2 (StableHlo.after hostOps1_1 (StableHlo.after hostOps1 (U2 m c)))
def U6 (c : Dev nD) : Valuation τ sig (Elt F) :=
  Function.update (U5 m c) main_v49 ((dat1 (atRefs (U5 m)) qs1 c).arrAt 5 cfg1.N)
def U7 (c : Dev nD) : Valuation τ sig (Elt F) :=
  Function.update (U6 m c) main_v50 ((dat2 (atRefs (U6 m)) qs2 c).arrAt 5 cfg2.N)
def outs : Outs (F := F) := fun J r c =>
  match J with
  | 2 => U2 m c r
  | 6 => U6 m c r
  | 7 => U7 m c r
  | _ => V1 m c r
theorem V2_eq (c : Dev nD) : V2 m (outs m) c = U2 m c := upd_step rfl _ _
theorem V5_eq (c : Dev nD) : V5 m (outs m) c = U5 m c :=
  congrArg (fun W => StableHlo.after hostOps1_2 (StableHlo.after hostOps1_1 (StableHlo.after hostOps1 W))) (V2_eq m c)
theorem V6_eq (c : Dev nD) : V6 m (outs m) c = U6 m c := upd_step (V5_eq m c) _ _
theorem V7_eq (c : Dev nD) : V7 m (outs m) c = U7 m c := upd_step (V6_eq m c) _ _
theorem U2_v3 (c : Dev nD) : U2 m c main_v3 = (dat0 (atRefs (V1 m)) qs0 c).arrAt 7 cfg0.N := Function.update_self ..
theorem U2_of_ne (c : Dev nD) (b : Ref sig .tc) (hb : b ≠ main_v3) : U2 m c b = V1 m c b := upd_other _ _ hb
theorem U6_v49 (c : Dev nD) : U6 m c main_v49 = (dat1 (atRefs (U5 m)) qs1 c).arrAt 5 cfg1.N := Function.update_self ..
theorem U6_of_ne (c : Dev nD) (b : Ref sig .tc) (hb : b ≠ main_v49) : U6 m c b = U5 m c b := upd_other _ _ hb
theorem U7_v50 (c : Dev nD) : U7 m c main_v50 = (dat2 (atRefs (U6 m)) qs2 c).arrAt 5 cfg2.N := Function.update_self ..
theorem U7_of_ne (c : Dev nD) (b : Ref sig .tc) (hb : b ≠ main_v50) : U7 m c b = U6 m c b := upd_other _ _ hb
attribute [irreducible] U2 U5 U6 U7
def pdats : (p : Fin 3) → (c : Dev nD) → Dat τ (Elt F) Unit ℕ (UR sig nD τ) ℕ (cfgs p) c
  | ⟨0, _⟩ => fun c => dat0 (atRefs (V1 m)) qs0 c
  | ⟨1, _⟩ => fun c => dat1 (atRefs (U5 m)) qs1 c
  | ⟨2, _⟩ => fun c => dat2 (atRefs (U6 m)) qs2 c
set_option backward.isDefEq.respectTransparency.types false in
def reg0 : RegionSeg (pcfgs (F := F)) adm (pdats m) () defs₀ Variants.none Lz lvz 0 :=
  regOf pcfgs adm (pdats m) defs₀ 0 rfl launch0.block_pos launch0.stage_whole (V1 m) (U2 m)
    (body_obligation0 (atRefs (V1 m)) qs0) (owed_eq0 (atRefs (V1 m)) qs0) (recorded_eq0 (atRefs (V1 m)) qs0 · 0)
    (hin0 (atRefs (V1 m)) qs0) (hout0 (atRefs (V1 m)) qs0) 7 (A_eq0 (atRefs (V1 m)) qs0) (arrAt_in0 (atRefs (V1 m)) qs0)
    (U2_v3 m) (U2_of_ne m) launch0.win launch0.arr_whole (q_eq0 (atRefs (V1 m)) qs0)
theorem arrs1 : Finset.univ.image (Pipeline.arrRef spec1) = {main_v26, main_v3, main_v48, main_v49} := by decide
theorem arrays1_iff (c : Dev nD) (D : Dat τ (Elt F) Unit ℕ (UR sig nD τ) ℕ cfg1 c) (hq : ∀ w, D.q w = qs1 w)
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs spec1 c V : sProp 𝕄) ⊣⊢ D.arrays G := by
  have hs (w : Fin cfg1.W) : D.share w = qs1 w := by
    unfold Pipeline.Dat.share; rw [hq]; revert w; decide
  have e1 : D.arrays G = bigSep Finset.univ fun w : Fin 6 =>
      (((c : Thread nD τ).loc (Pipeline.arrRef spec1 w)) ↦{qs1 w} V (Pipeline.arrRef spec1 w) : sProp 𝕄) := by
    unfold Pipeline.Dat.arrays
    exact bigSep_congr fun w _ => by rw [(arr_whole1 w).set_eq_univ, hG, hs]
  have e3 : (Pipeline.arrBufs spec1 c V : sProp 𝕄) = iprop((((c : Thread nD τ).loc main_v26) ↦{fullShare} V main_v26)
      ∗ (((c : Thread nD τ).loc main_v3) ↦{fullShare} V main_v3) ∗ (((c : Thread nD τ).loc main_v48) ↦{fullShare} V main_v48)
      ∗ (((c : Thread nD τ).loc main_v49) ↦{fullShare} V main_v49)) := by
    unfold Pipeline.arrBufs
    rw [arrs1, bigSep_insert (by decide), bigSep_insert (by decide), bigSep_insert (by decide), bigSep_singleton]
    rfl
  rw [e1, e3, bigSep_W1]
  exact sep_congr .rfl <| (sep_congr (pointsTo_share (PosShare.mem_left_op_right fullShare))
    (sep_congr (pointsTo_share (PosShare.mem_left_op_right fullShare)) .rfl)).trans <|
    sep_assoc.trans <| sep_congr .rfl <| sep_left_comm.trans sep_assoc
set_option backward.isDefEq.respectTransparency.types false in
def reg1 : RegionSeg (pcfgs (F := F)) adm (pdats m) () defs₀ Variants.none Lz lvz 1 :=
  regShared pcfgs adm (pdats m) defs₀ 1 rfl block_pos1 stage_whole1 (U5 m) (U6 m)
    (body_obligation1 (atRefs (U5 m)) qs1) (owed_eq1 (atRefs (U5 m)) qs1) (recorded_eq1 (atRefs (U5 m)) qs1 · 0)
    (hin1 (atRefs (U5 m)) qs1) (hout1 (atRefs (U5 m)) qs1) 5 (A_eq1 (atRefs (U5 m)) qs1) (arrAt_in1 (atRefs (U5 m)) qs1)
    (U6_v49 m) (U6_of_ne m) winFacts₀1 winFacts₀1.arr_unscoped
    (by decide : ∀ w : Fin cfg1.W, w ≠ 5 → Pipeline.arrRef spec1 w ≠ Pipeline.arrRef spec1 5)
    fun c V G hG => arrays1_iff c _ (q_eq1 (atRefs (U5 m)) qs1 c) V G hG
theorem arrs2 : Finset.univ.image (Pipeline.arrRef spec2) = {main_v26, main_v49, main_v48, main_v3, main_v50} := by decide
theorem arrays2_iff (c : Dev nD) (D : Dat τ (Elt F) Unit ℕ (UR sig nD τ) ℕ cfg2 c) (hq : ∀ w, D.q w = qs2 w)
    (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    (Pipeline.arrBufs spec2 c V : sProp 𝕄) ⊣⊢ D.arrays G := by
  have hs (w : Fin cfg2.W) : D.share w = qs2 w := by
    unfold Pipeline.Dat.share; rw [hq]; revert w; decide
  have e1 : D.arrays G = bigSep Finset.univ fun w : Fin 6 =>
      (((c : Thread nD τ).loc (Pipeline.arrRef spec2 w)) ↦{qs2 w} V (Pipeline.arrRef spec2 w) : sProp 𝕄) := by
    unfold Pipeline.Dat.arrays
    exact bigSep_congr fun w _ => by rw [(arr_whole2 w).set_eq_univ, hG, hs]
  have e3 : (Pipeline.arrBufs spec2 c V : sProp 𝕄) = iprop((((c : Thread nD τ).loc main_v26) ↦{fullShare} V main_v26)
      ∗ (((c : Thread nD τ).loc main_v49) ↦{fullShare} V main_v49) ∗ (((c : Thread nD τ).loc main_v48) ↦{fullShare} V main_v48)
      ∗ (((c : Thread nD τ).loc main_v3) ↦{fullShare} V main_v3) ∗ (((c : Thread nD τ).loc main_v50) ↦{fullShare} V main_v50)) := by
    unfold Pipeline.arrBufs
    rw [arrs2, bigSep_insert (by decide), bigSep_insert (by decide), bigSep_insert (by decide), bigSep_insert (by decide), bigSep_singleton]
    rfl
  rw [e1, e3, bigSep_W2]
  exact sep_congr .rfl <| sep_congr .rfl <| (sep_congr (pointsTo_share (PosShare.mem_left_op_right fullShare)) .rfl).trans sep_assoc
set_option backward.isDefEq.respectTransparency.types false in
def reg2 : RegionSeg (pcfgs (F := F)) adm (pdats m) () defs₀ Variants.none Lz lvz 2 :=
  regShared pcfgs adm (pdats m) defs₀ 2 rfl block_pos2 stage_whole2 (U6 m) (U7 m)
    (body_obligation2 (atRefs (U6 m)) qs2) (owed_eq2 (atRefs (U6 m)) qs2) (recorded_eq2 (atRefs (U6 m)) qs2 · 0)
    (hin2 (atRefs (U6 m)) qs2) (hout2 (atRefs (U6 m)) qs2) 5 (A_eq2 (atRefs (U6 m)) qs2) (arrAt_in2 (atRefs (U6 m)) qs2)
    (U7_v50 m) (U7_of_ne m) winFacts₀2 winFacts₀2.arr_unscoped
    (by decide : ∀ w : Fin cfg2.W, w ≠ 5 → Pipeline.arrRef spec2 w ≠ Pipeline.arrRef spec2 5)
    fun c V G hG => arrays2_iff c _ (q_eq2 (atRefs (U6 m)) qs2 c) V G hG
abbrev ArgsKept (m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7)
set_option backward.isDefEq.respectTransparency.types false in
theorem frame : θ_run defs (onTc (τ := τ) (main (F := F))) ⟨m, fun _ => 0, ρ⟩ (fun r => ∀ c : Dev nD, ArgsKept m r.2.mem c) :=
  frame_cond m emb₁ () Variants.none Lz lvz (fun _ _ => rfl) ρ (outs m) (pdats m) 0 (fun _ => iprop(emp))
    (initOf (Pipeline.cells cfgs cellOf_inj) (Pipeline.launchToks cfgs cellOf_inj)) (launch_ghost _) (fun _ c => Rr c) (rest_init ρ) Rr_owes
    (reg0 m) (fun c => .rfl) (fun c => by rw [V2_eq]; exact .rfl)
    (reg1 m) (fun c => by rw [V5_eq]; exact .rfl) (fun c => by rw [V6_eq]; exact .rfl)
    (reg2 m) (fun c => by rw [V6_eq]; exact .rfl) (fun c => by rw [V7_eq]; exact .rfl)
section Value
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = U7 m c b) :=
  (θ_run defs _ _).mono (fun r h c b hb => (h c b hb).trans (congrFun (V7_eq m c) b)) <| run_cond m ρ (outs m) (pdats m)
    (reg0 m) (fun c => .rfl) (fun c => by rw [V2_eq]; exact .rfl)
    (reg1 m) (fun c => by rw [V5_eq]; exact .rfl) (fun c => by rw [V6_eq]; exact .rfl)
    (reg2 m) (fun c => by rw [V6_eq]; exact .rfl) (fun c => by rw [V7_eq]; exact .rfl)
theorem run_value : θ_run defs (onTc (τ := τ) (main (F := F))) ⟨m, fun _ => 0, ρ⟩ (fun r => ∀ c : Dev nD,
      r.2.mem ((c.tc : Thread nD τ).loc main_v50) = U7 m c main_v50 ∧ ArgsKept m r.2.mem c) := by
  refine (θ_run defs _ _).mono (fun r hr c => ?_) (run_all m ρ)
  have hv (b : Ref sig .tc) (hb : ¬ (Proc.devRef .tc b : DevRef τ sig).isScoped) :
      r.2.mem ((c.tc : Thread nD τ).loc b) = V7 m (outs m) c b :=
    (hr c _ (Finset.mem_filter.mpr ⟨StableHlo.devRef_mem_tcRefs b, hb⟩)).trans (congrFun (V7_eq m c).symm _)
  exact ⟨(hv main_v50 (by decide)).trans (congrFun (V7_eq m c) _),
    (hv main_arg0 (by decide)).trans (V7_main_arg0 m (outs m) c),
    (hv main_arg1 (by decide)).trans (V7_main_arg1 m (outs m) c),
    (hv main_arg2 (by decide)).trans (V7_main_arg2 m (outs m) c),
    (hv main_arg3 (by decide)).trans (V7_main_arg3 m (outs m) c),
    (hv main_arg4 (by decide)).trans (V7_main_arg4 m (outs m) c),
    (hv main_arg5 (by decide)).trans (V7_main_arg5 m (outs m) c),
    (hv main_arg6 (by decide)).trans (V7_main_arg6 m (outs m) c),
    (hv main_arg7 (by decide)).trans (V7_main_arg7 m (outs m) c)⟩
end Value
end Cert.KernelIdeal.Hand
end
-- ==== Proof.RI.RunCond.lean ====
import proofs.«153234_g2000604307514898_pallasbulk_606_4_alg».proof.Proof.Gen.ReferenceIdeal.Regions
import proofs.«153234_g2000604307514898_pallasbulk_606_4_alg».proof.Proof.LibRun
noncomputable section
namespace Cert.ReferenceIdeal.Hand
open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Hand.Run
variable {F : FTy → Type} [FloatOps F]
variable (m : (ℓ : Loc nD τ sig) → Buf (Elt F) ℓ)
set_option backward.isDefEq.respectTransparency.types false in
theorem run_cond (ρ : Dev nD → PrngReg) (outs : Outs (F := F))
    (pdats : (p : Fin 5) → (c : Dev nD) → Dat τ (Elt F) Unit ℕ (UR sig nD τ) ℕ (cfgs p) c)
    (R0 : RegionSeg (pcfgs (F := F)) adm pdats () defs₀ Variants.none Lz lvz 0)
    (hpre0 : ∀ c : Dev nD, iprop(Held c (V1 m c) ∗ Rr c) ⊢ R0.pre c)
    (hpost0 : ∀ c : Dev nD, R0.post c ⊢ iprop(Held c (V2 m outs c) ∗ Rr c))
    (R1 : RegionSeg (pcfgs (F := F)) adm pdats () defs₀ Variants.none Lz lvz 1)
    (hpre1 : ∀ c : Dev nD, iprop(Held c (V2 m outs c) ∗ Rr c) ⊢ R1.pre c)
    (hpost1 : ∀ c : Dev nD, R1.post c ⊢ iprop(Held c (V3 m outs c) ∗ Rr c))
    (R2 : RegionSeg (pcfgs (F := F)) adm pdats () defs₀ Variants.none Lz lvz 2)
    (hpre2 : ∀ c : Dev nD, iprop(Held c (V3 m outs c) ∗ Rr c) ⊢ R2.pre c)
    (hpost2 : ∀ c : Dev nD, R2.post c ⊢ iprop(Held c (V4 m outs c) ∗ Rr c))
    (R3 : RegionSeg (pcfgs (F := F)) adm pdats () defs₀ Variants.none Lz lvz 3)
    (hpre3 : ∀ c : Dev nD, iprop(Held c (V9 m outs c) ∗ Rr c) ⊢ R3.pre c)
    (hpost3 : ∀ c : Dev nD, R3.post c ⊢ iprop(Held c (V10 m outs c) ∗ Rr c))
    (R4 : RegionSeg (pcfgs (F := F)) adm pdats () defs₀ Variants.none Lz lvz 4)
    (hpre4 : ∀ c : Dev nD, iprop(Held c (V10 m outs c) ∗ Rr c) ⊢ R4.pre c)
    (hpost4 : ∀ c : Dev nD, R4.post c ⊢ iprop(Held c (V11 m outs c) ∗ Rr c)) :
    θ_run defs (onTc (τ := τ) (main (F := F))) ⟨m, fun _ => 0, ρ⟩ (fun r => ∀ c : Dev nD,
      ∀ b ∈ Pipeline.ucRefs τ sig, r.2.mem (((c : Thread nD τ)).1, b) = V11 m outs c b) :=
  Pipeline.θ_run_regions_kit_dev (pcfgs (F := F)) adm pdats () cellOf_inj emb₁ defs₀ Variants.none Lz lvz m ρ main
    (segs m outs Variants.none Lz lvz (fun _ c => Rr c) () pdats R0 R1 R2 R3 R4)
    (fun c Q => by
      rewrite [main_chain c, Seg.run_eq_chain,
        show (segs m outs Variants.none Lz lvz (fun _ c => Rr c) () pdats R0 R1 R2 R3 R4 c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          Prog.lift (.customCall (Pipeline.entry 4) ()) ] from rfl]
      exact .rfl)
    (fun c => by simp only [segs, Seg.pipes_host, Seg.pipes_region, Seg.pipes_nil]; decide) 0 (fun _ _ => rfl) (fun _ => iprop(emp)) _ (launch_ghost _)
    (T₀ := fun c => iprop(Held c (V0 m c) ∗ Rr c)) (Tₙ := fun c => Held c (V11 m outs c))
    (hch := fun c => ⟨.rfl, hpre0 c, (hpost0 c).trans (hpre1 c), (hpost1 c).trans (hpre2 c), hpost2 c, .rfl, .rfl, .rfl, .rfl, hpre3 c, (hpost3 c).trans (hpre4 c), (hpost4 c).trans (sep_mono .rfl (Rr_owes c))⟩)
    (hinit := init_held m ρ (V0 m) fun c => Pipeline.unscopedBufs_held c (V0 m c))
    (QY := fun c s => ∀ b ∈ Pipeline.ucRefs τ sig, s.mem (((c : Thread nD τ)).1, b) = V11 m outs c b)
    (hfin := fun c s' => fin_read c _ s') (hQ := fun _ h => h)
end Cert.ReferenceIdeal.Hand
end
-- ==== Proof.RI.Reg0.lean ====
import proofs.«153234_g2000604307514898_pallasbulk_606_4_alg».proof.Proof.Gen.ReferenceIdeal.Launch
import proofs.«153234_g2000604307514898_pallasbulk_606_4_alg».proof.Proof.Gen.ReferenceIdeal.Skeleton
import proofs.«153234_g2000604307514898_pallasbulk_606_4_alg».proof.Proof.Gen.ReferenceIdeal.Points
import proofs.«153234_g2000604307514898_pallasbulk_606_4_alg».proof.Proof.Spec
import proofs.«153234_g2000604307514898_pallasbulk_606_4_alg».proof.Proof.LibDot
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝐊" => 1536
local notation "𝐍" => 512

section AnyModel

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev allRows0 : Rect S512x1536 := Rect.unit (s := S512x1536) ![0, 0] S512x1536.size inb_S512x1536_S512x1536_0_0
abbrev allWeights0 : Rect S1536x512 := Rect.unit (s := S1536x512) ![0, 0] S1536x512.size inb_S1536x512_S1536x512_0_0
abbrev allBias0 : Rect S1x512 := Rect.unit (s := S1x512) ![0, 0] S1x512.size inb_S1x512_S1x512_0_0
abbrev allOut0 : Rect S512x512 := Rect.unit (s := S512x512) ![0, 0] S512x512.size inb_S512x512_S512x512_0_0

def layerTile0 (x : Vec F S512x1536 .f32) (w : Vec F S1536x512 .f32) (b : Vec F S1x512 .f32) : Vec F S512x512 .f32 :=
  View.canon [⟨allOut0, k0_pay1 (View.ld x allRows0) (View.ld w allWeights0) (View.ld b allBias0)⟩]

theorem layerTile0_covers (p : Vec F S512x512 .f32) (y : S512x512.Idx) :
    ∃ pc ∈ ([⟨allOut0, p⟩] : List (View.Piece (Elt F) S512x512 .f32)), y ∈ pc.1.set :=
  View.cover_of_tiled [⟨allOut0, p⟩] S512x512.size (by rfl) y

set_option maxHeartbeats 1000000 in

theorem layer_kernel0 (c : Dev nD) (E : Set ℕ) (i : grid0.Coords)
    (arg1 : Memref sig .tc .vmem S512x1536 .f32) (harg1 : arg1.IsWhole) (arg2 : Memref sig .tc .vmem S1536x512 .f32) (harg2 : arg2.IsWhole)
    (arg3 : Memref sig .tc .vmem S1x512 .f32) (harg3 : arg3.IsWhole) (arg4 : Memref sig .tc .vmem S512x512 .f32) (harg4 : arg4.IsWhole)
    (x : Vec F S512x1536 .f32) (w : Vec F S1536x512 .f32) (b : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (layerTile0 x w b)) -∗ K ⟨⟩))
      ⊢ wp frame (wpE (defs₀ (F := F)) Variants.none c none) E (cc0_linear_relu_kernel i arg1 harg1 arg2 harg2 arg3 harg3 arg4 harg4) K := by
  simp only [cc0_linear_relu_kernel_eq_skeleton]; unfold cc0_linear_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (layerTile0_covers _)

variable (qs : Fin cfg0.W → PosShare TreeShare) (c : Dev nD)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => layerTile0 (iblk0 V c 0 t) (iblk0 V c 1 t) (iblk0 V c 2 t)
  Φ _ := Pipeline.ΦA spec0 c
  q := qs
  owed _ := 0

theorem A_eq0 (w : Fin cfg0.W) : (dat0 V qs c).A w = V c (Pipeline.arrRef spec0 w) := by
  dsimp only [dat0]

theorem owed_eq0 (t : Fin (cfg0.N + 1)) : (dat0 V qs c).owed t = 0 := by
  dsimp only [dat0]

theorem q_eq0 (w : Fin cfg0.W) : (dat0 V qs c).q w = qs w := by
  dsimp only [dat0]

theorem recorded_eq0 (t : Fin (cfg0.N + 1)) : (dat0 V qs c).recorded t = Set.univ := rfl

theorem holds0 (t : Fin cfg0.N) :
    (∀ d, (dat0 V qs c).before 0 t d = iblk0 V c 0 t) ∧ (∀ d, (dat0 V qs c).before 1 t d = iblk0 V c 1 t)
    ∧ (∀ d, (dat0 V qs c).before 2 t d = iblk0 V c 2 t) := by
  refine ⟨?_, ?_, ?_⟩ <;>
    exact fun d => ((dat0 V qs c).before_in_eq_fetched _ rfl (fun _ => rfl) (fun _ _ _ => rfl) (fun _ => rfl) t d).trans rfl

def bodyPre0 (t : Fin cfg0.N) : sProp 𝕄 :=
  iprop((dat0 V qs c).Φ t.castSucc ∗ (dat0 V qs c).owesAt () t.castSucc
    ∗ (∃ d, owns (c : Thread nD τ) (st0_0 t) fullShare ((dat0 V qs c).before 0 t d))
    ∗ (∃ d, owns (c : Thread nD τ) (st0_1 t) fullShare ((dat0 V qs c).before 1 t d))
    ∗ (∃ d, owns (c : Thread nD τ) (st0_2 t) fullShare ((dat0 V qs c).before 2 t d))
    ∗ (∃ d, owns (c : Thread nD τ) (st0_3 t) fullShare ((dat0 V qs c).before 3 t d)))

def bodyPost0 (t : Fin cfg0.N) : sProp 𝕄 :=
  iprop((dat0 V qs c).Φ t.succ ∗ (dat0 V qs c).owesAt () t.succ
    ∗ owns (c : Thread nD τ) (st0_0 t) fullShare ((dat0 V qs c).after 0 t)
    ∗ owns (c : Thread nD τ) (st0_1 t) fullShare ((dat0 V qs c).after 1 t)
    ∗ owns (c : Thread nD τ) (st0_2 t) fullShare ((dat0 V qs c).after 2 t)
    ∗ owns (c : Thread nD τ) (st0_3 t) fullShare ((dat0 V qs c).after 3 t))

theorem layer_body0 (t : Fin cfg0.N) :
    bodyPre0 V qs c t ⊢ wp frame (wpE (defs₀ (F := F)) Variants.none c none) Set.univ (bodyAt0 t) (fun _ => bodyPost0 V qs c t) := by
  unfold bodyPre0 bodyPost0 bodyAt0
  simp only [holds0 V qs c t]
  rw [show (dat0 V qs c).Φ t.succ = (dat0 V qs c).Φ t.castSucc from rfl,
    show (dat0 V qs c).owesAt () t.succ = (dat0 V qs c).owesAt () t.castSucc from rfl]
  dsimp only [dat0]
  iintro ⟨HΦ, Ho, ⟨%d0, H0⟩, ⟨%d1, H1⟩, ⟨%d2, H2⟩, ⟨%d3, H3⟩⟩
  iapply (layer_kernel0 c Set.univ _ _ _ _ _ _ _ _ _ (iblk0 V c 0 t) (iblk0 V c 1 t) (iblk0 V c 2 t) _)
  iframe H0 H1 H2
  isplitl [H3]; · iexists _; iexact H3
  iintro H
  iframe

theorem body_obligation0 :
    BodyObligation (dat0 (F := F) V qs c) (defs₀ (F := F)) Variants.none () Set.univ := fun t => by
  rw [bigSep_W0, bigSep_W0]
  exact layer_body0 V qs c t

theorem hin0 : Pipeline.ΦA spec0 c ⊢ (dat0 V qs c).Φ 0 := by
  dsimp only [dat0]; exact .rfl

theorem hout0 : (dat0 V qs c).Φ (Fin.last cfg0.N) ⊢ Pipeline.ΦA spec0 c := by
  dsimp only [dat0]; exact .rfl

theorem arrAt_in0 (w : Fin cfg0.W) (hw : w ≠ 3) (n : Nat) :
    (dat0 V qs c).arrAt w n = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, h => exact absurd rfl h
  rw [(dat0 V qs c).arrAt_in w hin n, A_eq0]

end AnyModel

section IdealModel

open Idealize.ShloMosaic.ValueIdx
open scoped BigOperators

variable (V : (c : Dev nD) → (b : Ref sig .tc) → Buf (Elt Ideal) ((c : Thread nD τ).loc b))
  (qs : Fin cfg0.W → PosShare TreeShare) (c : Dev nD) (t : Fin cfg0.N)

theorem pay0_eq (x : Vec Ideal S512x1536 .f32) (w : Vec Ideal S1536x512 .f32) (b : Vec Ideal S1x512 .f32) :
    k0_pay1 (F := Ideal) x w b = Cert.Spec.lin x w b :=
  (Cert.Hand.lin_eq _ rfl _ w w rfl b _).trans (by rw [shapeCast_self])

theorem rowIdx0 : ∀ t : Fin cfg0.N, win0_0.index t (0 : Fin 2) = t.val ∧ win0_0.index t (1 : Fin 2) = 0
    ∧ win0_3.index t (0 : Fin 2) = t.val ∧ win0_3.index t (1 : Fin 2) = 0 ∧ t.val < 8 :=
  (by decide +kernel : ∀ t : Fin grid0.N, _)

theorem zeroIdx0 : ∀ (t : Fin cfg0.N) (a : Fin 2), win0_1.index t a = 0 ∧ win0_2.index t a = 0 :=
  (by decide +kernel : ∀ t : Fin grid0.N, _)

theorem wholeBlocks0 :
    (iblk0 V c 1 t : Vec Ideal S1536x512 .f32) = V c main_arg2 ∧ (iblk0 V c 2 t : Vec Ideal S1x512 .f32) = V c main_arg5 :=
  ⟨Cert.Hand.wholeOf (S := S1536x512) (V c main_arg2) _ _ (fun a => (zeroIdx0 t a).1) fun _ _ => rfl,
    Cert.Hand.wholeOf (S := S1x512) (V c main_arg5) _ _ (fun a => (zeroIdx0 t a).2) fun _ _ => rfl⟩

theorem rowTile0_at (p : Fin 512) (k : Fin 𝐊) (r : Fin 4096) (hr : r.val = 512 * t.val + p.val) :
    (V c main_v1 : Vec Ideal S4096x1536 .f32) (ix2 r k) = (iblk0 V c 0 t : Vec Ideal S512x1536 .f32) (ix2 p k) := by
  obtain ⟨r0, k0, -⟩ := rowIdx0 t
  show V c main_v1 (ix2 r k) = V c main_v1 (((cfg0.win 0).blk t).view.emb (ix2 p k))
  refine congrArg _ (funext fun a => Fin.ext ?_).symm
  match a with
  | ⟨0, _⟩ => show win0_0.index t (0 : Fin 2) * 512 + 1 * p.val = r.val; omega
  | ⟨1, _⟩ => show win0_0.index t (1 : Fin 2) * 𝐊 + 1 * k.val = k.val; omega

theorem outTile0_emb (p : Fin 512) (q : Fin 𝐍) (r : Fin 4096) (hr : r.val = 512 * t.val + p.val) :
    ((cfg0.win 3).blk t).view.emb (ix2 p q) = (ix2 r q : S4096x512.Idx) := by
  obtain ⟨-, -, r3, k3, -⟩ := rowIdx0 t
  funext a; apply Fin.ext
  match a with
  | ⟨0, _⟩ => show win0_3.index t (0 : Fin 2) * 512 + 1 * p.val = r.val; omega
  | ⟨1, _⟩ => show win0_3.index t (1 : Fin 2) * 𝐍 + 1 * q.val = q.val; omega

theorem tile_flushed0 :
    (dat0 (F := Ideal) V qs c).flushed 3 t = ((cfg0.win 3).blk t).view.read (Elt Ideal)
      (Cert.Spec.lin (V c main_v1 : S4096x1536.Idx → EReal) (V c main_arg2 : S1536x512.Idx → EReal) (V c main_arg5 : S1x512.Idx → EReal)) := by
  show (cfg0.win 3).cut (grid0.coords t) ((dat0 V qs c).after 3 t) = _
  dsimp only [dat0]
  unfold layerTile0
  have z : (![0, 0] : Fin 2 → Nat) = fun _ => 0 := by funext a; fin_cases a <;> rfl
  rw [View.canon_unit_zero z]
  simp only [View.ld_unit_zero (S := S512x1536) z, View.ld_unit_zero (S := S1536x512) z, View.ld_unit_zero (S := S1x512) z]
  rw [pay0_eq]
  simp only [wholeBlocks0 V c t]
  funext y
  obtain ⟨p, q, rfl⟩ : ∃ (p : Fin 512) (q : Fin 𝐍), y = ix2 p q := ⟨y 0, y 1, eq_ix2 y⟩
  have hr : 512 * t.val + p.val < 4096 := by have := (rowIdx0 t).2.2.2.2; have := p.isLt; omega
  exact (Cert.Hand.lin_row _ _ _ _ (⟨_, hr⟩ : Fin 4096) p q fun k => rowTile0_at V c t p k _ rfl).symm.trans
    (congrArg (Cert.Spec.lin _ _ _) (outTile0_emb t p q ⟨_, hr⟩ rfl).symm)

theorem outTiles_cover0 (i : S4096x512.Idx) :
    ∃ t : Fin cfg0.N, (cfg0.win 3).flush t = true ∧ i ∈ ((cfg0.win 3).blk t).view.set := by
  have hi0 : (i 0).val < 4096 := (i 0).isLt
  have hi1 : (i 1).val < 𝐍 := (i 1).isLt
  have ht : (i 0).val / 512 < grid0.N := by rw [N_0]; omega
  obtain ⟨-, -, r3, k3, -⟩ := rowIdx0 ⟨(i 0).val / 512, ht⟩
  refine ⟨⟨(i 0).val / 512, ht⟩, flush0_3 _, ?_⟩
  show i ∈ ((View.whole main_v2).slice (win0_3.rect ⟨(i 0).val / 512, ht⟩)).set
  rw [View.set_slice_whole, Rect.mem_set_unit]
  intro a
  match a with
  | ⟨0, _⟩ =>
    show win0_3.index _ (0 : Fin 2) * 512 ≤ (i 0).val ∧ (i 0).val < win0_3.index _ (0 : Fin 2) * 512 + 512
    rw [r3]; show (i 0).val / 512 * 512 ≤ (i 0).val ∧ (i 0).val < (i 0).val / 512 * 512 + 512; omega
  | ⟨1, _⟩ => show win0_3.index _ (1 : Fin 2) * 𝐍 ≤ (i 1).val ∧ (i 1).val < win0_3.index _ (1 : Fin 2) * 𝐍 + 𝐍; rw [k3]; omega

theorem value0 :
    (dat0 (F := Ideal) V qs c).arrAt 3 cfg0.N
      = Cert.Spec.lin (V c main_v1 : S4096x1536.Idx → EReal) (V c main_arg2 : S1536x512.Idx → EReal) (V c main_arg5 : S1x512.Idx → EReal) :=
  (dat0 V qs c).arrAt_eq_of_cover 3 _ (fun t _ => tile_flushed0 V qs c t) outTiles_cover0

end IdealModel

end Cert.ReferenceIdeal.Hand

end
-- ==== Proof.RI.Reg1.lean ====
import proofs.«153234_g2000604307514898_pallasbulk_606_4_alg».proof.Proof.Gen.ReferenceIdeal.Launch
import proofs.«153234_g2000604307514898_pallasbulk_606_4_alg».proof.Proof.Gen.ReferenceIdeal.Skeleton
import proofs.«153234_g2000604307514898_pallasbulk_606_4_alg».proof.Proof.Gen.ReferenceIdeal.Points
import proofs.«153234_g2000604307514898_pallasbulk_606_4_alg».proof.Proof.Spec
import proofs.«153234_g2000604307514898_pallasbulk_606_4_alg».proof.Proof.LibDot
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝐊" => 512
local notation "𝐍" => 256

section AnyModel

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev allRows1 : Rect S512x512 := Rect.unit (s := S512x512) ![0, 0] S512x512.size inb_S512x512_S512x512_0_0
abbrev allWeights1 : Rect S512x256 := Rect.unit (s := S512x256) ![0, 0] S512x256.size inb_S512x256_S512x256_0_0
abbrev allBias1 : Rect S1x256 := Rect.unit (s := S1x256) ![0, 0] S1x256.size inb_S1x256_S1x256_0_0
abbrev allOut1 : Rect S512x256 := Rect.unit (s := S512x256) ![0, 0] S512x256.size inb_S512x256_S512x256_0_0

def layerTile1 (x : Vec F S512x512 .f32) (w : Vec F S512x256 .f32) (b : Vec F S1x256 .f32) : Vec F S512x256 .f32 :=
  View.canon [⟨allOut1, k1_pay1 (View.ld x allRows1) (View.ld w allWeights1) (View.ld b allBias1)⟩]

theorem layerTile1_covers (p : Vec F S512x256 .f32) (y : S512x256.Idx) :
    ∃ pc ∈ ([⟨allOut1, p⟩] : List (View.Piece (Elt F) S512x256 .f32)), y ∈ pc.1.set :=
  View.cover_of_tiled [⟨allOut1, p⟩] S512x256.size (by rfl) y

set_option maxHeartbeats 1000000 in

theorem layer_kernel1 (c : Dev nD) (E : Set ℕ) (i : grid1.Coords)
    (arg1 : Memref sig .tc .vmem S512x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S512x256 .f32) (harg4 : arg4.IsWhole)
    (x : Vec F S512x512 .f32) (w : Vec F S512x256 .f32) (b : Vec F S1x256 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (layerTile1 x w b)) -∗ K ⟨⟩))
      ⊢ wp frame (wpE (defs₀ (F := F)) Variants.none c none) E (cc1_linear_relu_kernel i arg1 harg1 arg2 harg2 arg3 harg3 arg4 harg4) K := by
  simp only [cc1_linear_relu_kernel_eq_skeleton]; unfold cc1_linear_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (layerTile1_covers _)

variable (qs : Fin cfg1.W → PosShare TreeShare) (c : Dev nD)

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => layerTile1 (iblk1 V c 0 t) (iblk1 V c 1 t) (iblk1 V c 2 t)
  Φ _ := Pipeline.ΦA spec1 c
  q := qs
  owed _ := 0

theorem A_eq1 (w : Fin cfg1.W) : (dat1 V qs c).A w = V c (Pipeline.arrRef spec1 w) := by
  dsimp only [dat1]

theorem owed_eq1 (t : Fin (cfg1.N + 1)) : (dat1 V qs c).owed t = 0 := by
  dsimp only [dat1]

theorem q_eq1 (w : Fin cfg1.W) : (dat1 V qs c).q w = qs w := by
  dsimp only [dat1]

theorem recorded_eq1 (t : Fin (cfg1.N + 1)) : (dat1 V qs c).recorded t = Set.univ := rfl

theorem holds1 (t : Fin cfg1.N) :
    (∀ d, (dat1 V qs c).before 0 t d = iblk1 V c 0 t) ∧ (∀ d, (dat1 V qs c).before 1 t d = iblk1 V c 1 t)
    ∧ (∀ d, (dat1 V qs c).before 2 t d = iblk1 V c 2 t) := by
  refine ⟨?_, ?_, ?_⟩ <;>
    exact fun d => ((dat1 V qs c).before_in_eq_fetched _ rfl (fun _ => rfl) (fun _ _ _ => rfl) (fun _ => rfl) t d).trans rfl

def bodyPre1 (t : Fin cfg1.N) : sProp 𝕄 :=
  iprop((dat1 V qs c).Φ t.castSucc ∗ (dat1 V qs c).owesAt () t.castSucc
    ∗ (∃ d, owns (c : Thread nD τ) (st1_0 t) fullShare ((dat1 V qs c).before 0 t d))
    ∗ (∃ d, owns (c : Thread nD τ) (st1_1 t) fullShare ((dat1 V qs c).before 1 t d))
    ∗ (∃ d, owns (c : Thread nD τ) (st1_2 t) fullShare ((dat1 V qs c).before 2 t d))
    ∗ (∃ d, owns (c : Thread nD τ) (st1_3 t) fullShare ((dat1 V qs c).before 3 t d)))

def bodyPost1 (t : Fin cfg1.N) : sProp 𝕄 :=
  iprop((dat1 V qs c).Φ t.succ ∗ (dat1 V qs c).owesAt () t.succ
    ∗ owns (c : Thread nD τ) (st1_0 t) fullShare ((dat1 V qs c).after 0 t)
    ∗ owns (c : Thread nD τ) (st1_1 t) fullShare ((dat1 V qs c).after 1 t)
    ∗ owns (c : Thread nD τ) (st1_2 t) fullShare ((dat1 V qs c).after 2 t)
    ∗ owns (c : Thread nD τ) (st1_3 t) fullShare ((dat1 V qs c).after 3 t))

theorem layer_body1 (t : Fin cfg1.N) :
    bodyPre1 V qs c t ⊢ wp frame (wpE (defs₀ (F := F)) Variants.none c none) Set.univ (bodyAt1 t) (fun _ => bodyPost1 V qs c t) := by
  unfold bodyPre1 bodyPost1 bodyAt1
  simp only [holds1 V qs c t]
  rw [show (dat1 V qs c).Φ t.succ = (dat1 V qs c).Φ t.castSucc from rfl,
    show (dat1 V qs c).owesAt () t.succ = (dat1 V qs c).owesAt () t.castSucc from rfl]
  dsimp only [dat1]
  iintro ⟨HΦ, Ho, ⟨%d0, H0⟩, ⟨%d1, H1⟩, ⟨%d2, H2⟩, ⟨%d3, H3⟩⟩
  iapply (layer_kernel1 c Set.univ _ _ _ _ _ _ _ _ _ (iblk1 V c 0 t) (iblk1 V c 1 t) (iblk1 V c 2 t) _)
  iframe H0 H1 H2
  isplitl [H3]; · iexists _; iexact H3
  iintro H
  iframe

theorem body_obligation1 :
    BodyObligation (dat1 (F := F) V qs c) (defs₀ (F := F)) Variants.none () Set.univ := fun t => by
  rw [bigSep_W1, bigSep_W1]
  exact layer_body1 V qs c t

theorem hin1 : Pipeline.ΦA spec1 c ⊢ (dat1 V qs c).Φ 0 := by
  dsimp only [dat1]; exact .rfl

theorem hout1 : (dat1 V qs c).Φ (Fin.last cfg1.N) ⊢ Pipeline.ΦA spec1 c := by
  dsimp only [dat1]; exact .rfl

theorem arrAt_in1 (w : Fin cfg1.W) (hw : w ≠ 3) (n : Nat) :
    (dat1 V qs c).arrAt w n = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, h => exact absurd rfl h
  rw [(dat1 V qs c).arrAt_in w hin n, A_eq1]

end AnyModel

section IdealModel

open Idealize.ShloMosaic.ValueIdx
open scoped BigOperators

variable (V : (c : Dev nD) → (b : Ref sig .tc) → Buf (Elt Ideal) ((c : Thread nD τ).loc b))
  (qs : Fin cfg1.W → PosShare TreeShare) (c : Dev nD) (t : Fin cfg1.N)

theorem pay1_eq (x : Vec Ideal S512x512 .f32) (w : Vec Ideal S512x256 .f32) (b : Vec Ideal S1x256 .f32) :
    k1_pay1 (F := Ideal) x w b = Cert.Spec.lin x w b :=
  (Cert.Hand.lin_eq _ rfl _ w w rfl b _).trans (by rw [shapeCast_self])

theorem rowIdx1 : ∀ t : Fin cfg1.N, win1_0.index t (0 : Fin 2) = t.val ∧ win1_0.index t (1 : Fin 2) = 0
    ∧ win1_3.index t (0 : Fin 2) = t.val ∧ win1_3.index t (1 : Fin 2) = 0 ∧ t.val < 8 :=
  (by decide +kernel : ∀ t : Fin grid1.N, _)

theorem zeroIdx1 : ∀ (t : Fin cfg1.N) (a : Fin 2), win1_1.index t a = 0 ∧ win1_2.index t a = 0 :=
  (by decide +kernel : ∀ t : Fin grid1.N, _)

theorem wholeBlocks1 :
    (iblk1 V c 1 t : Vec Ideal S512x256 .f32) = V c main_arg3 ∧ (iblk1 V c 2 t : Vec Ideal S1x256 .f32) = V c main_arg6 :=
  ⟨Cert.Hand.wholeOf (S := S512x256) (V c main_arg3) _ _ (fun a => (zeroIdx1 t a).1) fun _ _ => rfl,
    Cert.Hand.wholeOf (S := S1x256) (V c main_arg6) _ _ (fun a => (zeroIdx1 t a).2) fun _ _ => rfl⟩

theorem rowTile1_at (p : Fin 512) (k : Fin 𝐊) (r : Fin 4096) (hr : r.val = 512 * t.val + p.val) :
    (V c main_v2 : Vec Ideal S4096x512 .f32) (ix2 r k) = (iblk1 V c 0 t : Vec Ideal S512x512 .f32) (ix2 p k) := by
  obtain ⟨r0, k0, -⟩ := rowIdx1 t
  show V c main_v2 (ix2 r k) = V c main_v2 (((cfg1.win 0).blk t).view.emb (ix2 p k))
  refine congrArg _ (funext fun a => Fin.ext ?_).symm
  match a with
  | ⟨0, _⟩ => show win1_0.index t (0 : Fin 2) * 512 + 1 * p.val = r.val; omega
  | ⟨1, _⟩ => show win1_0.index t (1 : Fin 2) * 𝐊 + 1 * k.val = k.val; omega

theorem outTile1_emb (p : Fin 512) (q : Fin 𝐍) (r : Fin 4096) (hr : r.val = 512 * t.val + p.val) :
    ((cfg1.win 3).blk t).view.emb (ix2 p q) = (ix2 r q : S4096x256.Idx) := by
  obtain ⟨-, -, r3, k3, -⟩ := rowIdx1 t
  funext a; apply Fin.ext
  match a with
  | ⟨0, _⟩ => show win1_3.index t (0 : Fin 2) * 512 + 1 * p.val = r.val; omega
  | ⟨1, _⟩ => show win1_3.index t (1 : Fin 2) * 𝐍 + 1 * q.val = q.val; omega

theorem tile_flushed1 :
    (dat1 (F := Ideal) V qs c).flushed 3 t = ((cfg1.win 3).blk t).view.read (Elt Ideal)
      (Cert.Spec.lin (V c main_v2 : S4096x512.Idx → EReal) (V c main_arg3 : S512x256.Idx → EReal) (V c main_arg6 : S1x256.Idx → EReal)) := by
  show (cfg1.win 3).cut (grid1.coords t) ((dat1 V qs c).after 3 t) = _
  dsimp only [dat1]
  unfold layerTile1
  have z : (![0, 0] : Fin 2 → Nat) = fun _ => 0 := by funext a; fin_cases a <;> rfl
  rw [View.canon_unit_zero z]
  simp only [View.ld_unit_zero (S := S512x512) z, View.ld_unit_zero (S := S512x256) z, View.ld_unit_zero (S := S1x256) z]
  rw [pay1_eq]
  simp only [wholeBlocks1 V c t]
  funext y
  obtain ⟨p, q, rfl⟩ : ∃ (p : Fin 512) (q : Fin 𝐍), y = ix2 p q := ⟨y 0, y 1, eq_ix2 y⟩
  have hr : 512 * t.val + p.val < 4096 := by have := (rowIdx1 t).2.2.2.2; have := p.isLt; omega
  exact (Cert.Hand.lin_row _ _ _ _ (⟨_, hr⟩ : Fin 4096) p q fun k => rowTile1_at V c t p k _ rfl).symm.trans
    (congrArg (Cert.Spec.lin _ _ _) (outTile1_emb t p q ⟨_, hr⟩ rfl).symm)

theorem outTiles_cover1 (i : S4096x256.Idx) :
    ∃ t : Fin cfg1.N, (cfg1.win 3).flush t = true ∧ i ∈ ((cfg1.win 3).blk t).view.set := by
  have hi0 : (i 0).val < 4096 := (i 0).isLt
  have hi1 : (i 1).val < 𝐍 := (i 1).isLt
  have ht : (i 0).val / 512 < grid1.N := by rw [N_1]; omega
  obtain ⟨-, -, r3, k3, -⟩ := rowIdx1 ⟨(i 0).val / 512, ht⟩
  refine ⟨⟨(i 0).val / 512, ht⟩, flush1_3 _, ?_⟩
  show i ∈ ((View.whole main_v3).slice (win1_3.rect ⟨(i 0).val / 512, ht⟩)).set
  rw [View.set_slice_whole, Rect.mem_set_unit]
  intro a
  match a with
  | ⟨0, _⟩ =>
    show win1_3.index _ (0 : Fin 2) * 512 ≤ (i 0).val ∧ (i 0).val < win1_3.index _ (0 : Fin 2) * 512 + 512
    rw [r3]; show (i 0).val / 512 * 512 ≤ (i 0).val ∧ (i 0).val < (i 0).val / 512 * 512 + 512; omega
  | ⟨1, _⟩ => show win1_3.index _ (1 : Fin 2) * 𝐍 ≤ (i 1).val ∧ (i 1).val < win1_3.index _ (1 : Fin 2) * 𝐍 + 𝐍; rw [k3]; omega

theorem value1 :
    (dat1 (F := Ideal) V qs c).arrAt 3 cfg1.N
      = Cert.Spec.lin (V c main_v2 : S4096x512.Idx → EReal) (V c main_arg3 : S512x256.Idx → EReal) (V c main_arg6 : S1x256.Idx → EReal) :=
  (dat1 V qs c).arrAt_eq_of_cover 3 _ (fun t _ => tile_flushed1 V qs c t) outTiles_cover1

end IdealModel

end Cert.ReferenceIdeal.Hand

end
-- ==== Proof.RI.Reg2.lean ====
import proofs.«153234_g2000604307514898_pallasbulk_606_4_alg».proof.Proof.Gen.ReferenceIdeal.Launch
import proofs.«153234_g2000604307514898_pallasbulk_606_4_alg».proof.Proof.Gen.ReferenceIdeal.Skeleton
import proofs.«153234_g2000604307514898_pallasbulk_606_4_alg».proof.Proof.Gen.ReferenceIdeal.Points
import proofs.«153234_g2000604307514898_pallasbulk_606_4_alg».proof.Proof.Spec
import proofs.«153234_g2000604307514898_pallasbulk_606_4_alg».proof.Proof.LibDot
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝐊" => 256
local notation "𝐍" => 128

section AnyModel

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev allRows2 : Rect S512x256 := Rect.unit (s := S512x256) ![0, 0] S512x256.size inb_S512x256_S512x256_0_0
abbrev allWeights2 : Rect S256x128 := Rect.unit (s := S256x128) ![0, 0] S256x128.size inb_S256x128_S256x128_0_0
abbrev allBias2 : Rect S1x128 := Rect.unit (s := S1x128) ![0, 0] S1x128.size inb_S1x128_S1x128_0_0
abbrev allOut2 : Rect S512x128 := Rect.unit (s := S512x128) ![0, 0] S512x128.size inb_S512x128_S512x128_0_0

def layerTile2 (x : Vec F S512x256 .f32) (w : Vec F S256x128 .f32) (b : Vec F S1x128 .f32) : Vec F S512x128 .f32 :=
  View.canon [⟨allOut2, k2_pay1 (View.ld x allRows2) (View.ld w allWeights2) (View.ld b allBias2)⟩]

theorem layerTile2_covers (p : Vec F S512x128 .f32) (y : S512x128.Idx) :
    ∃ pc ∈ ([⟨allOut2, p⟩] : List (View.Piece (Elt F) S512x128 .f32)), y ∈ pc.1.set :=
  View.cover_of_tiled [⟨allOut2, p⟩] S512x128.size (by rfl) y

set_option maxHeartbeats 1000000 in

theorem layer_kernel2 (c : Dev nD) (E : Set ℕ) (i : grid2.Coords)
    (arg1 : Memref sig .tc .vmem S512x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S512x128 .f32) (harg4 : arg4.IsWhole)
    (x : Vec F S512x256 .f32) (w : Vec F S256x128 .f32) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (layerTile2 x w b)) -∗ K ⟨⟩))
      ⊢ wp frame (wpE (defs₀ (F := F)) Variants.none c none) E (cc2_linear_relu_kernel i arg1 harg1 arg2 harg2 arg3 harg3 arg4 harg4) K := by
  simp only [cc2_linear_relu_kernel_eq_skeleton]; unfold cc2_linear_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (layerTile2_covers _)

variable (qs : Fin cfg2.W → PosShare TreeShare) (c : Dev nD)

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => layerTile2 (iblk2 V c 0 t) (iblk2 V c 1 t) (iblk2 V c 2 t)
  Φ _ := Pipeline.ΦA spec2 c
  q := qs
  owed _ := 0

theorem A_eq2 (w : Fin cfg2.W) : (dat2 V qs c).A w = V c (Pipeline.arrRef spec2 w) := by
  dsimp only [dat2]

theorem owed_eq2 (t : Fin (cfg2.N + 1)) : (dat2 V qs c).owed t = 0 := by
  dsimp only [dat2]

theorem q_eq2 (w : Fin cfg2.W) : (dat2 V qs c).q w = qs w := by
  dsimp only [dat2]

theorem recorded_eq2 (t : Fin (cfg2.N + 1)) : (dat2 V qs c).recorded t = Set.univ := rfl

theorem holds2 (t : Fin cfg2.N) :
    (∀ d, (dat2 V qs c).before 0 t d = iblk2 V c 0 t) ∧ (∀ d, (dat2 V qs c).before 1 t d = iblk2 V c 1 t)
    ∧ (∀ d, (dat2 V qs c).before 2 t d = iblk2 V c 2 t) := by
  refine ⟨?_, ?_, ?_⟩ <;>
    exact fun d => ((dat2 V qs c).before_in_eq_fetched _ rfl (fun _ => rfl) (fun _ _ _ => rfl) (fun _ => rfl) t d).trans rfl

def bodyPre2 (t : Fin cfg2.N) : sProp 𝕄 :=
  iprop((dat2 V qs c).Φ t.castSucc ∗ (dat2 V qs c).owesAt () t.castSucc
    ∗ (∃ d, owns (c : Thread nD τ) (st2_0 t) fullShare ((dat2 V qs c).before 0 t d))
    ∗ (∃ d, owns (c : Thread nD τ) (st2_1 t) fullShare ((dat2 V qs c).before 1 t d))
    ∗ (∃ d, owns (c : Thread nD τ) (st2_2 t) fullShare ((dat2 V qs c).before 2 t d))
    ∗ (∃ d, owns (c : Thread nD τ) (st2_3 t) fullShare ((dat2 V qs c).before 3 t d)))

def bodyPost2 (t : Fin cfg2.N) : sProp 𝕄 :=
  iprop((dat2 V qs c).Φ t.succ ∗ (dat2 V qs c).owesAt () t.succ
    ∗ owns (c : Thread nD τ) (st2_0 t) fullShare ((dat2 V qs c).after 0 t)
    ∗ owns (c : Thread nD τ) (st2_1 t) fullShare ((dat2 V qs c).after 1 t)
    ∗ owns (c : Thread nD τ) (st2_2 t) fullShare ((dat2 V qs c).after 2 t)
    ∗ owns (c : Thread nD τ) (st2_3 t) fullShare ((dat2 V qs c).after 3 t))

theorem layer_body2 (t : Fin cfg2.N) :
    bodyPre2 V qs c t ⊢ wp frame (wpE (defs₀ (F := F)) Variants.none c none) Set.univ (bodyAt2 t) (fun _ => bodyPost2 V qs c t) := by
  unfold bodyPre2 bodyPost2 bodyAt2
  simp only [holds2 V qs c t]
  rw [show (dat2 V qs c).Φ t.succ = (dat2 V qs c).Φ t.castSucc from rfl,
    show (dat2 V qs c).owesAt () t.succ = (dat2 V qs c).owesAt () t.castSucc from rfl]
  dsimp only [dat2]
  iintro ⟨HΦ, Ho, ⟨%d0, H0⟩, ⟨%d1, H1⟩, ⟨%d2, H2⟩, ⟨%d3, H3⟩⟩
  iapply (layer_kernel2 c Set.univ _ _ _ _ _ _ _ _ _ (iblk2 V c 0 t) (iblk2 V c 1 t) (iblk2 V c 2 t) _)
  iframe H0 H1 H2
  isplitl [H3]; · iexists _; iexact H3
  iintro H
  iframe

theorem body_obligation2 :
    BodyObligation (dat2 (F := F) V qs c) (defs₀ (F := F)) Variants.none () Set.univ := fun t => by
  rw [bigSep_W2, bigSep_W2]
  exact layer_body2 V qs c t

theorem hin2 : Pipeline.ΦA spec2 c ⊢ (dat2 V qs c).Φ 0 := by
  dsimp only [dat2]; exact .rfl

theorem hout2 : (dat2 V qs c).Φ (Fin.last cfg2.N) ⊢ Pipeline.ΦA spec2 c := by
  dsimp only [dat2]; exact .rfl

theorem arrAt_in2 (w : Fin cfg2.W) (hw : w ≠ 3) (n : Nat) :
    (dat2 V qs c).arrAt w n = V c (Pipeline.arrRef spec2 w) := by
  have hin : (cfg2.win w).isOut = false := by
    match w, hw with
    | ⟨0, _⟩, _ => rfl
    | ⟨1, _⟩, _ => rfl
    | ⟨2, _⟩, _ => rfl
    | ⟨3, _⟩, h => exact absurd rfl h
  rw [(dat2 V qs c).arrAt_in w hin n, A_eq2]

end AnyModel

section IdealModel

open Idealize.ShloMosaic.ValueIdx
open scoped BigOperators

variable (V : (c : Dev nD) → (b : Ref sig .tc) → Buf (Elt Ideal) ((c : Thread nD τ).loc b))
  (qs : Fin cfg2.W → PosShare TreeShare) (c : Dev nD) (t : Fin cfg2.N)

theorem pay2_eq (x : Vec Ideal S512x256 .f32) (w : Vec Ideal S256x128 .f32) (b : Vec Ideal S1x128 .f32) :
    k2_pay1 (F := Ideal) x w b = Cert.Spec.lin x w b :=
  (Cert.Hand.lin_eq _ rfl _ w w rfl b _).trans (by rw [shapeCast_self])

theorem rowIdx2 : ∀ t : Fin cfg2.N, win2_0.index t (0 : Fin 2) = t.val ∧ win2_0.index t (1 : Fin 2) = 0
    ∧ win2_3.index t (0 : Fin 2) = t.val ∧ win2_3.index t (1 : Fin 2) = 0 ∧ t.val < 8 :=
  (by decide +kernel : ∀ t : Fin grid2.N, _)

theorem zeroIdx2 : ∀ (t : Fin cfg2.N) (a : Fin 2), win2_1.index t a = 0 ∧ win2_2.index t a = 0 :=
  (by decide +kernel : ∀ t : Fin grid2.N, _)

theorem wholeBlocks2 :
    (iblk2 V c 1 t : Vec Ideal S256x128 .f32) = V c main_arg4 ∧ (iblk2 V c 2 t : Vec Ideal S1x128 .f32) = V c main_arg7 :=
  ⟨Cert.Hand.wholeOf (S := S256x128) (V c main_arg4) _ _ (fun a => (zeroIdx2 t a).1) fun _ _ => rfl,
    Cert.Hand.wholeOf (S := S1x128) (V c main_arg7) _ _ (fun a => (zeroIdx2 t a).2) fun _ _ => rfl⟩

theorem rowTile2_at (p : Fin 512) (k : Fin 𝐊) (r : Fin 4096) (hr : r.val = 512 * t.val + p.val) :
    (V c main_v3 : Vec Ideal S4096x256 .f32) (ix2 r k) = (iblk2 V c 0 t : Vec Ideal S512x256 .f32) (ix2 p k) := by
  obtain ⟨r0, k0, -⟩ := rowIdx2 t
  show V c main_v3 (ix2 r k) = V c main_v3 (((cfg2.win 0).blk t).view.emb (ix2 p k))
  refine congrArg _ (funext fun a => Fin.ext ?_).symm
  match a with
  | ⟨0, _⟩ => show win2_0.index t (0 : Fin 2) * 512 + 1 * p.val = r.val; omega
  | ⟨1, _⟩ => show win2_0.index t (1 : Fin 2) * 𝐊 + 1 * k.val = k.val; omega

theorem outTile2_emb (p : Fin 512) (q : Fin 𝐍) (r : Fin 4096) (hr : r.val = 512 * t.val + p.val) :
    ((cfg2.win 3).blk t).view.emb (ix2 p q) = (ix2 r q : S4096x128.Idx) := by
  obtain ⟨-, -, r3, k3, -⟩ := rowIdx2 t
  funext a; apply Fin.ext
  match a with
  | ⟨0, _⟩ => show win2_3.index t (0 : Fin 2) * 512 + 1 * p.val = r.val; omega
  | ⟨1, _⟩ => show win2_3.index t (1 : Fin 2) * 𝐍 + 1 * q.val = q.val; omega

theorem tile_flushed2 :
    (dat2 (F := Ideal) V qs c).flushed 3 t = ((cfg2.win 3).blk t).view.read (Elt Ideal)
      (Cert.Spec.lin (V c main_v3 : S4096x256.Idx → EReal) (V c main_arg4 : S256x128.Idx → EReal) (V c main_arg7 : S1x128.Idx → EReal)) := by
  show (cfg2.win 3).cut (grid2.coords t) ((dat2 V qs c).after 3 t) = _
  dsimp only [dat2]
  unfold layerTile2
  have z : (![0, 0] : Fin 2 → Nat) = fun _ => 0 := by funext a; fin_cases a <;> rfl
  rw [View.canon_unit_zero z]
  simp only [View.ld_unit_zero (S := S512x256) z, View.ld_unit_zero (S := S256x128) z, View.ld_unit_zero (S := S1x128) z]
  rw [pay2_eq]
  simp only [wholeBlocks2 V c t]
  funext y
  obtain ⟨p, q, rfl⟩ : ∃ (p : Fin 512) (q : Fin 𝐍), y = ix2 p q := ⟨y 0, y 1, eq_ix2 y⟩
  have hr : 512 * t.val + p.val < 4096 := by have := (rowIdx2 t).2.2.2.2; have := p.isLt; omega
  exact (Cert.Hand.lin_row _ _ _ _ (⟨_, hr⟩ : Fin 4096) p q fun k => rowTile2_at V c t p k _ rfl).symm.trans
    (congrArg (Cert.Spec.lin _ _ _) (outTile2_emb t p q ⟨_, hr⟩ rfl).symm)

theorem outTiles_cover2 (i : S4096x128.Idx) :
    ∃ t : Fin cfg2.N, (cfg2.win 3).flush t = true ∧ i ∈ ((cfg2.win 3).blk t).view.set := by
  have hi0 : (i 0).val < 4096 := (i 0).isLt
  have hi1 : (i 1).val < 𝐍 := (i 1).isLt
  have ht : (i 0).val / 512 < grid2.N := by rw [N_2]; omega
  obtain ⟨-, -, r3, k3, -⟩ := rowIdx2 ⟨(i 0).val / 512, ht⟩
  refine ⟨⟨(i 0).val / 512, ht⟩, flush2_3 _, ?_⟩
  show i ∈ ((View.whole main_v4).slice (win2_3.rect ⟨(i 0).val / 512, ht⟩)).set
  rw [View.set_slice_whole, Rect.mem_set_unit]
  intro a
  match a with
  | ⟨0, _⟩ =>
    show win2_3.index _ (0 : Fin 2) * 512 ≤ (i 0).val ∧ (i 0).val < win2_3.index _ (0 : Fin 2) * 512 + 512
    rw [r3]; show (i 0).val / 512 * 512 ≤ (i 0).val ∧ (i 0).val < (i 0).val / 512 * 512 + 512; omega
  | ⟨1, _⟩ => show win2_3.index _ (1 : Fin 2) * 𝐍 ≤ (i 1).val ∧ (i 1).val < win2_3.index _ (1 : Fin 2) * 𝐍 + 𝐍; rw [k3]; omega

theorem value2 :
    (dat2 (F := Ideal) V qs c).arrAt 3 cfg2.N
      = Cert.Spec.lin (V c main_v3 : S4096x256.Idx → EReal) (V c main_arg4 : S256x128.Idx → EReal) (V c main_arg7 : S1x128.Idx → EReal) :=
  (dat2 V qs c).arrAt_eq_of_cover 3 _ (fun t _ => tile_flushed2 V qs c t) outTiles_cover2

end IdealModel

end Cert.ReferenceIdeal.Hand

end
-- ==== Proof.RI.Reg3.lean ====
import proofs.«153234_g2000604307514898_pallasbulk_606_4_alg».proof.Proof.Gen.ReferenceIdeal.Launch
import proofs.«153234_g2000604307514898_pallasbulk_606_4_alg».proof.Proof.Gen.ReferenceIdeal.Skeleton
import proofs.«153234_g2000604307514898_pallasbulk_606_4_alg».proof.Proof.Gen.ReferenceIdeal.Points
import proofs.«153234_g2000604307514898_pallasbulk_606_4_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Frame

variable {F : FTy → Type} [FloatOps F]

local notation "𝕄" => MT nD τ sig Unit (Elt F) ℕ (UR sig nD τ) ℕ

variable (V : (c : Dev nD) → (b : Ref sig .tc) → Buf (Elt F) ((c : Thread nD τ).loc b))
  (qs : Fin cfg3.W → PosShare TreeShare) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

section Shared

abbrev isFirst3 (i : grid3.Coords) : Prop := (Scalar.cmpi .ne (Scalar.extui (Scalar.cmpi .eq (BitVec.ofNat 32 (i 1).val) 0#32)) 0#32) = 1#1
theorem isFirst3_iff : ∀ t : Fin cfg3.N, isFirst3 (grid3.coords t) ↔ t.val % 8 = 0 :=
  (by decide +kernel : ∀ t : Fin grid3.N, isFirst3 (grid3.coords t) ↔ t.val % 8 = 0)

abbrev isLast3 (i : grid3.Coords) : Prop := k3_cond2 i = 1#1
theorem isLast3_iff : ∀ t : Fin cfg3.N, isLast3 (grid3.coords t) ↔ t.val % 8 = 7 :=
  (by decide +kernel : ∀ t : Fin grid3.N, isLast3 (grid3.coords t) ↔ t.val % 8 = 7)

theorem zeroOff3 : (![0, 0] : Fin 2 → Nat) = fun _ => 0 := funext fun a => by fin_cases a <;> rfl

theorem wholeStore3 {S : Shape} {e : EltTy} (M : Memref sig .tc .vmem S e) (f : M.view.ty.Contents (Elt F))
    {off : Fin S.rank → Nat} (hz : off = fun _ => 0) (inb : ∀ a, off a + S.size a ≤ S.size a) (w : S.Idx → Elt F e)
    (L : List (View.Piece (Elt F) S e)) :
    M.view.read (Elt F) (M.view.writes (Elt F) f (⟨Rect.unit off S.size inb, w⟩ :: L)) = w := by
  rw [View.read_writes_eq_canon _ _ _ (fun y => ⟨_, List.mem_cons_self .., View.mem_set_unit_zero hz inb y⟩), View.canon_cons_unit_zero hz]

set_option maxHeartbeats 1000000 in
theorem run3 (E : Set ℕ) (i : grid3.Coords)
    (arg2 : Memref sig .tc .vmem S512x512 .bf16) (harg2 : arg2.IsWhole) (arg3 : Memref sig .tc .vmem S512x128 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S512x128 .f32) (harg6 : arg6.IsWhole)
    (a : Vec F S512x512 .bf16) (h x0 d acc : Vec F S512x128 .f32) (K : PUnit → sProp 𝕄) :
    iprop(owns (c : Thread nD τ) arg2 fullShare a ∗ owns (c : Thread nD τ) arg3 fullShare h ∗ owns (c : Thread nD τ) arg4 fullShare x0 ∗ owns (c : Thread nD τ) arg5 fullShare d ∗ owns (c : Thread nD τ) arg6 fullShare acc
        ∗ (iprop(owns (c : Thread nD τ) arg2 fullShare a ∗ owns (c : Thread nD τ) arg3 fullShare h ∗ owns (c : Thread nD τ) arg4 fullShare x0
            ∗ owns (c : Thread nD τ) arg5 fullShare (if isLast3 i then k3_pay3 (k3_pay2 (if isFirst3 i then k3_pay1 (F := F) else acc) a h) x0 else d)
            ∗ owns (c : Thread nD τ) arg6 fullShare (k3_pay2 (if isFirst3 i then k3_pay1 (F := F) else acc) a h)) -∗ K ⟨⟩))
      ⊢ wp frame (wpE (defs₀ (F := F)) Variants.none c none) E (cc3_appnp_step_kernel i arg2 harg2 arg3 harg3 arg4 harg4 arg5 harg5 arg6 harg6) K := by
  simp only [cc3_appnp_step_kernel_eq_skeleton]; unfold cc3_appnp_step_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  by_cases hc0 : isFirst3 i <;> by_cases hc1 : isLast3 i
  all_goals
    first | rw [if_pos hc0] | rw [if_neg hc0]
    first | rw [if_pos hc1] | rw [if_neg hc1]
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr
      swap; · iexact H5
      ipureintro
      first
      | exact harg5.read_unread _
      | sl_unfold_run_names
        rw [wholeStore3 _ _ zeroOff3]
        simp only [View.readCov_cons_toLoadRect, View.readAt_eq_ld, harg2.read_unread, harg3.read_unread, harg4.read_unread, harg6.read_unread,
          View.ld_unit_zero (S := S512x128) zeroOff3, View.ld_unit_zero (S := S512x512) zeroOff3]
    iexists _; isplitr
    swap; · iexact H6
    ipureintro
    sl_unfold_run_names
    rw [wholeStore3 _ _ zeroOff3]
    simp only [View.readCov_cons_toLoadRect, View.readAt_eq_ld, harg2.read_unread, harg3.read_unread, harg6.read_unread,
      View.ld_unit_zero (S := S512x128) zeroOff3, View.ld_unit_zero (S := S512x512) zeroOff3]

end Shared

theorem idleRes3 : ∀ t : Fin cfg3.N, ¬isLast3 (grid3.coords t) → cfg3.idle 3 (grid3.coords t) = true ∧ (cfg3.win 3).flush t = false := by
  decide +kernel
theorem liveRes3 : ∀ t : Fin cfg3.N, isLast3 (grid3.coords t) → cfg3.idle 3 (grid3.coords t) = false := by decide +kernel

abbrev accM3 : Memref sig .tc .vmem S512x128 .f32 := Memref.whole cc3_scratch0

def accAt3 : (n : ℕ) → n < cfg3.N → Vec F S512x128 .f32
  | 0, hn => k3_pay2 (k3_pay1 (F := F)) (iblk3 V c 0 ⟨0, hn⟩) (iblk3 V c 1 ⟨0, hn⟩)
  | n + 1, hn => k3_pay2 (if (n + 1) % 8 = 0 then k3_pay1 (F := F) else accAt3 n (Nat.lt_of_succ_lt hn))
      (iblk3 V c 0 ⟨n + 1, hn⟩) (iblk3 V c 1 ⟨n + 1, hn⟩)

theorem accAt3_step (t : Fin cfg3.N) : accAt3 V c t.val t.isLt
    = k3_pay2 (if t.val % 8 = 0 then k3_pay1 (F := F) else accAt3 V c (t.val - 1) (Nat.lt_of_le_of_lt (Nat.sub_le _ _) t.isLt))
      (iblk3 V c 0 t) (iblk3 V c 1 t) := by
  obtain ⟨_ | n, hn⟩ := t <;> rfl

def restA3 : sProp 𝕄 :=
  iprop(Pipeline.scopedRestBut (Ix := Unit) (Name := ℕ) (U := UR sig nD τ) (Lvl := ℕ) (Val := Elt F) spec3 c [cc3_scratch0])

theorem PhiA3_eq : (Pipeline.ΦA spec3 c : sProp 𝕄)
    = iprop(iprop(iprop((∃ d, owns (c : Thread nD τ) accM3 fullShare d)) ∗ restA3 (F := F) c) ∗ (∃ r, prngReg c r)) := by
  unfold Pipeline.ΦA restA3; rw [scopedRest3_split]; simp only [accM3, owns_whole]; try rfl

def PhiAcc3 : (n : ℕ) → n ≤ cfg3.N → sProp 𝕄
  | 0, _ => Pipeline.ΦA spec3 c
  | n + 1, hn => iprop(iprop(owns (c : Thread nD τ) accM3 fullShare (accAt3 V c n hn) ∗ restA3 (F := F) c) ∗ (∃ r, prngReg c r))

theorem PhiAcc3_pos (n : ℕ) (h : n ≤ cfg3.N) (hz : n ≠ 0) :
    PhiAcc3 V c n h = iprop(iprop(owns (c : Thread nD τ) accM3 fullShare (accAt3 V c (n - 1) (by omega)) ∗ restA3 (F := F) c) ∗ (∃ r, prngReg c r)) := by
  cases n with
  | zero => exact absurd rfl hz
  | succ n => rfl

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (accAt3 V c t.val t.isLt) (iblk3 V c 2 t)
  Φ t := PhiAcc3 V c t.val (Nat.le_of_lt_succ t.isLt)
  q := qs
  owed _ := 0

theorem A_eq3 (w : Fin cfg3.W) : (dat3 V qs c).A w = V c (Pipeline.arrRef spec3 w) := rfl
theorem owed_eq3 (t : Fin (cfg3.N + 1)) : (dat3 V qs c).owed t = 0 := rfl
theorem q_eq3 (w : Fin cfg3.W) : (dat3 V qs c).q w = qs w := rfl
theorem recorded_eq3 (t : Fin (cfg3.N + 1)) : (dat3 V qs c).recorded t = Set.univ := rfl

theorem before3 (t : Fin cfg3.N) : (∀ d, (dat3 V qs c).before 0 t d = iblk3 V c 0 t) ∧ (∀ d, (dat3 V qs c).before 1 t d = iblk3 V c 1 t)
    ∧ (∀ d, (dat3 V qs c).before 2 t d = iblk3 V c 2 t) := by
  refine ⟨?_, ?_, ?_⟩ <;>
    exact fun d => ((dat3 V qs c).before_in_eq_fetched _ rfl (fun _ => rfl) (fun _ _ _ => rfl) (fun _ => rfl) t d).trans rfl

theorem leaves3 (t : Fin cfg3.N) : (dat3 V qs c).leavesExact 0 t = owns (c : Thread nD τ) (st3_0 t) fullShare (iblk3 V c 0 t)
    ∧ (dat3 V qs c).leavesExact 1 t = owns (c : Thread nD τ) (st3_1 t) fullShare (iblk3 V c 1 t)
    ∧ (dat3 V qs c).leavesExact 2 t = owns (c : Thread nD τ) (st3_2 t) fullShare (iblk3 V c 2 t) :=
  ⟨rfl, rfl, rfl⟩

def bodyPre3 (t : Fin cfg3.N) : sProp 𝕄 :=
  iprop((dat3 V qs c).Φ t.castSucc ∗ (dat3 V qs c).owesAt () t.castSucc
    ∗ (∃ d, owns (c : Thread nD τ) (st3_0 t) fullShare ((dat3 V qs c).before 0 t d))
    ∗ (∃ d, owns (c : Thread nD τ) (st3_1 t) fullShare ((dat3 V qs c).before 1 t d))
    ∗ (∃ d, owns (c : Thread nD τ) (st3_2 t) fullShare ((dat3 V qs c).before 2 t d))
    ∗ (∃ d, owns (c : Thread nD τ) (st3_3 t) fullShare ((dat3 V qs c).before 3 t d)))

def bodyPost3 (t : Fin cfg3.N) : sProp 𝕄 :=
  iprop((dat3 V qs c).Φ t.succ ∗ (dat3 V qs c).owesAt () t.succ
    ∗ (dat3 V qs c).leavesExact 0 t
    ∗ (dat3 V qs c).leavesExact 1 t
    ∗ (dat3 V qs c).leavesExact 2 t
    ∗ (dat3 V qs c).leavesExact 3 t)

set_option maxHeartbeats 4800000 in
theorem sound_body3 (t : Fin cfg3.N) :
    bodyPre3 V qs c t ⊢ wp frame (wpE (defs₀ (F := F)) Variants.none c none) Set.univ (bodyAt3 t) (fun _ => bodyPost3 V qs c t) := by
  unfold bodyPre3 bodyPost3 bodyAt3
  simp only [before3 V qs c t]
  rw [show (dat3 V qs c).owesAt () t.succ = (dat3 V qs c).owesAt () t.castSucc from rfl,
    show (dat3 V qs c).Φ t.succ = iprop(iprop(owns (c : Thread nD τ) accM3 fullShare (accAt3 V c t.val t.isLt) ∗ restA3 (F := F) c) ∗ (∃ r, prngReg c r)) from rfl,
    show (dat3 V qs c).Φ t.castSucc = PhiAcc3 V c t.val (Nat.le_of_lt t.isLt) from rfl,
    (leaves3 V qs c t).1, (leaves3 V qs c t).2.1, (leaves3 V qs c t).2.2, accAt3_step V c t]
  by_cases h0 : t.val % 8 = 0
  · have hF := (isFirst3_iff t).mpr h0
    have hL : ¬isLast3 (grid3.coords t) := fun h => by have := (isLast3_iff t).mp h; omega
    rw [Dat.leavesExact_idle (dat3 V qs c) 3 t (idleRes3 t hL).1 (idleRes3 t hL).2, if_pos h0]
    by_cases hz : t.val = 0
    · rw [show PhiAcc3 V c t.val (Nat.le_of_lt t.isLt) = Pipeline.ΦA spec3 c from by
        obtain ⟨_ | n, hn⟩ := t <;> first | rfl | exact absurd hz (Nat.succ_ne_zero _), PhiA3_eq]
      iintro ⟨⟨⟨⟨%a, HS⟩, HR⟩, Hg⟩, Ho, ⟨%d0, H0⟩, ⟨%d1, H1⟩, ⟨%d2, H2⟩, ⟨%d3, H3⟩⟩
      iapply (run3 c Set.univ (grid3.coords t) _ _ _ _ _ _ _ _ _ _ (iblk3 V c 0 t) (iblk3 V c 1 t) (iblk3 V c 2 t) _ a _)
      iframe H0 H1 H2 H3 HS
      rw [if_pos hF, if_neg hL]
      iintro ⟨H0, H1, H2, H3, HS⟩
      iframe
      iexists _; iexact H3
    · rw [PhiAcc3_pos V c _ _ hz]
      iintro ⟨⟨⟨HS, HR⟩, Hg⟩, Ho, ⟨%d0, H0⟩, ⟨%d1, H1⟩, ⟨%d2, H2⟩, ⟨%d3, H3⟩⟩
      iapply (run3 c Set.univ (grid3.coords t) _ _ _ _ _ _ _ _ _ _ (iblk3 V c 0 t) (iblk3 V c 1 t) (iblk3 V c 2 t) _ _ _)
      iframe H0 H1 H2 H3 HS
      rw [if_pos hF, if_neg hL]
      iintro ⟨H0, H1, H2, H3, HS⟩
      iframe
      iexists _; iexact H3
  · have hF : ¬isFirst3 (grid3.coords t) := fun h => h0 ((isFirst3_iff t).mp h)
    rw [if_neg h0, PhiAcc3_pos V c _ _ fun e => h0 (by rw [e])]
    by_cases h1 : t.val % 8 = 7
    · have hL : isLast3 (grid3.coords t) := (isLast3_iff t).mpr h1
      rw [show (dat3 V qs c).leavesExact 3 t = owns (c : Thread nD τ) (st3_3 t) fullShare (k3_pay3 (accAt3 V c t.val t.isLt) (iblk3 V c 2 t)) from by
        unfold Dat.leavesExact; rw [liveRes3 t hL]; rfl, accAt3_step V c t, if_neg h0]
      iintro ⟨⟨⟨HS, HR⟩, Hg⟩, Ho, ⟨%d0, H0⟩, ⟨%d1, H1⟩, ⟨%d2, H2⟩, ⟨%d3, H3⟩⟩
      iapply (run3 c Set.univ (grid3.coords t) _ _ _ _ _ _ _ _ _ _ (iblk3 V c 0 t) (iblk3 V c 1 t) (iblk3 V c 2 t) _ _ _)
      iframe H0 H1 H2 H3 HS
      rw [if_neg hF, if_pos hL]
      iintro ⟨H0, H1, H2, H3, HS⟩
      iframe
    · have hL : ¬isLast3 (grid3.coords t) := fun h => h1 ((isLast3_iff t).mp h)
      rw [Dat.leavesExact_idle (dat3 V qs c) 3 t (idleRes3 t hL).1 (idleRes3 t hL).2]
      iintro ⟨⟨⟨HS, HR⟩, Hg⟩, Ho, ⟨%d0, H0⟩, ⟨%d1, H1⟩, ⟨%d2, H2⟩, ⟨%d3, H3⟩⟩
      iapply (run3 c Set.univ (grid3.coords t) _ _ _ _ _ _ _ _ _ _ (iblk3 V c 0 t) (iblk3 V c 1 t) (iblk3 V c 2 t) _ _ _)
      iframe H0 H1 H2 H3 HS
      rw [if_neg hF, if_neg hL]
      iintro ⟨H0, H1, H2, H3, HS⟩
      iframe
      iexists _; iexact H3

theorem body_obligation3 : BodyObligation (dat3 (F := F) V qs c) (defs₀ (F := F)) Variants.none () Set.univ := fun t => by
  rw [bigSep_W3, bigSep_W3]
  exact sound_body3 V qs c t

theorem hin3 : Pipeline.ΦA spec3 c ⊢ (dat3 V qs c).Φ 0 := Idealize.SL.BI.Entails.refl _

theorem hout3 : (dat3 V qs c).Φ (Fin.last cfg3.N) ⊢ Pipeline.ΦA spec3 c := by
  rw [show (dat3 V qs c).Φ (Fin.last cfg3.N) = PhiAcc3 V c cfg3.N (Nat.le_refl _) from rfl,
    PhiAcc3_pos V c _ _ (by rw [show cfg3.N = 64 from N_3]; omega), PhiA3_eq]
  iintro ⟨⟨HS, HR⟩, Hg⟩
  iframe
  iexists _; iexact HS

theorem arrAt_in3 (w : Fin cfg3.W) (hw : w ≠ 3) (n : Nat) : (dat3 V qs c).arrAt w n = V c (Pipeline.arrRef spec3 w) :=
  match w, hw with
  | ⟨0, _⟩, _ => (dat3 V qs c).arrAt_in 0 rfl n
  | ⟨1, _⟩, _ => (dat3 V qs c).arrAt_in 1 rfl n
  | ⟨2, _⟩, _ => (dat3 V qs c).arrAt_in 2 rfl n
  | ⟨3, _⟩, hw => absurd rfl hw

end Frame

section Value
open Idealize.ShloMosaic.ValueIdx

variable (V : (c : Dev nD) → (b : Ref sig .tc) → Buf (Elt Ideal) ((c : Thread nD τ).loc b))
  (qs : Fin cfg3.W → PosShare TreeShare) (c : Dev nD)

section Shared

theorem prodLhsRow3 (i : S512x128.Idx) (q : dot_S512x512_S512x128_S512x128_1_0_0_1_n_n.contr.Idx) : (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem prodRhsCol3 (i : S512x128.Idx) (q : dot_S512x512_S512x128_S512x128_1_0_0_1_n_n.contr.Idx) : (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

theorem zeroBlock3_apply (j : S512x128.Idx) : (k3_pay1 (F := Ideal)) j = 0 := by
  unfold k3_pay1
  simp only [shapeCast_self]
  exact Ideal.ofBits_zero_f32

theorem accStep3_apply (acc : FVec Ideal S512x128 .f32) (a : FVec Ideal S512x512 .bf16) (h : FVec Ideal S512x128 .f32)
    (p : Fin 512) (q : Fin 128) :
    k3_pay2 (F := Ideal) acc a h (ix2 p q) = acc (ix2 p q) + ∑ r : Fin 512, a (ix2 p r) * h (ix2 r q) := by
  unfold k3_pay2
  simp only [shapeCast_self]
  rw [addf_apply]
  refine congrArg (acc (ix2 p q) + ·) ?_
  refine (Ideal.matmul_constant_zero_apply dot_S512x512_S512x128_S512x128_1_0_0_1_n_n none a (truncf .bf16 h bitsLt_bf16_f32) (ix2 p q)).trans ?_
  rw [← Equiv.sum_comp (contrEquiv1 dot_S512x512_S512x128_S512x128_1_0_0_1_n_n 512 rfl rfl).symm]
  refine Finset.sum_congr rfl fun r _ => ?_
  have hr := contrEquiv1_symm_val dot_S512x512_S512x128_S512x128_1_0_0_1_n_n 512 rfl rfl r
  have el : dot_S512x512_S512x128_S512x128_1_0_0_1_n_n.lhsIdx (ix2 p q) ((contrEquiv1 dot_S512x512_S512x128_S512x128_1_0_0_1_n_n 512 rfl rfl).symm r) = ix2 p r := funext fun b => Fin.ext (by
    match b with
    | ⟨0, _⟩ => exact prodLhsRow3 _ _
    | ⟨1, _⟩ => exact (dot_S512x512_S512x128_S512x128_1_0_0_1_n_n.lhsIdx_val_of_single rfl _ _).trans hr)
  have er : dot_S512x512_S512x128_S512x128_1_0_0_1_n_n.rhsIdx (ix2 p q) ((contrEquiv1 dot_S512x512_S512x128_S512x128_1_0_0_1_n_n 512 rfl rfl).symm r) = ix2 r q := funext fun b => Fin.ext (by
    match b with
    | ⟨0, _⟩ => exact (dot_S512x512_S512x128_S512x128_1_0_0_1_n_n.rhsIdx_val_of_single rfl _ _).trans hr
    | ⟨1, _⟩ => exact prodRhsCol3 _ _)
  rw [el, er]
  rfl

theorem resBlock3_apply (acc : FVec Ideal S512x128 .f32) (x0 : FVec Ideal S512x128 .f32) (j : S512x128.Idx) :
    k3_pay3 (F := Ideal) acc x0 j = Cert.Spec.c9 * acc j + Cert.Spec.c1 * x0 j := by
  unfold k3_pay3
  simp only [shapeCast_self]
  rfl

def ent3 {n0 n1 : ℕ} (X : (⟨2, ![n0, n1]⟩ : Shape).Idx → EReal) (x y : ℕ) : EReal :=
  if h : x < n0 ∧ y < n1 then X (ix2 ⟨x, h.1⟩ ⟨y, h.2⟩) else 0

theorem ent3_ix2 {n0 n1 : ℕ} (X : (⟨2, ![n0, n1]⟩ : Shape).Idx → EReal) (a : Fin n0) (b : Fin n1) :
    ent3 X a.val b.val = X (ix2 a b) := by
  unfold ent3; rw [dif_pos ⟨a.isLt, b.isLt⟩]

theorem ent3_eq {n0 n1 : ℕ} (X : (⟨2, ![n0, n1]⟩ : Shape).Idx → EReal) (j : (⟨2, ![n0, n1]⟩ : Shape).Idx) {x y : ℕ}
    (hx : (j 0).val = x) (hy : (j 1).val = y) : X j = ent3 X x y :=
  hx ▸ hy ▸ (congrArg X (eq_ix2 j)).trans (ent3_ix2 X (j 0) (j 1)).symm

theorem sum_blocks3 (g : ℕ → EReal) :
    ∑ k' ∈ Finset.range 8, ∑ r : Fin 512, g (512 * k' + r.val) = ∑ x : Fin 4096, g x.val := by
  rw [Finset.sum_range (fun k' => ∑ r : Fin 512, g (512 * k' + r.val))]
  rw [← Equiv.sum_comp (finProdFinEquiv.trans (finCongr (show 8 * 512 = 4096 from rfl))) (fun x : Fin 4096 => g x.val),
    Fintype.sum_prod_type]
  refine Finset.sum_congr rfl fun k' _ => Finset.sum_congr rfl fun r _ => ?_
  refine congrArg g ?_
  show 512 * k'.val + r.val = r.val + 512 * k'.val
  omega

def blockProd3 (A : S4096x4096.Idx → EReal) (H : S4096x128.Idx → EReal) (b k' : ℕ) (p : Fin 512) (q : Fin 128) : EReal :=
  ∑ r : Fin 512, ent3 A (512 * b + p.val) (512 * k' + r.val) * ent3 H (512 * k' + r.val) q.val

end Shared

abbrev adjArr3 : S4096x4096.Idx → EReal := V c (Pipeline.arrRef spec3 0)
abbrev featArr3 : S4096x128.Idx → EReal := V c (Pipeline.arrRef spec3 1)
abbrev teleArr3 : S4096x128.Idx → EReal := V c (Pipeline.arrRef spec3 2)

theorem index3 : ∀ t : Fin cfg3.N, (win3_0.index t (0 : Fin 2) = t.val / 8 ∧ win3_0.index t (1 : Fin 2) = t.val % 8)
    ∧ (win3_1.index t (0 : Fin 2) = t.val % 8 ∧ win3_1.index t (1 : Fin 2) = 0)
    ∧ (win3_2.index t (0 : Fin 2) = t.val / 8 ∧ win3_2.index t (1 : Fin 2) = 0)
    ∧ (win3_3.index t (0 : Fin 2) = t.val / 8 ∧ win3_3.index t (1 : Fin 2) = 0) :=
  (by decide +kernel : ∀ t : Fin grid3.N, _)

theorem adjBlock3_apply (t : Fin cfg3.N) (p r : Fin 512) :
    iblk3 V c 0 t (ix2 p r) = ent3 (adjArr3 V c) (512 * (t.val / 8) + p.val) (512 * (t.val % 8) + r.val) := by
  have := index3 t
  refine ent3_eq (adjArr3 V c) (((cfg3.win 0).blk t).view.emb (ix2 p r)) ?_ ?_
  · show win3_0.index t (0 : Fin 2) * 512 + 1 * p.val = _; omega
  · show win3_0.index t (1 : Fin 2) * 512 + 1 * r.val = _; omega

theorem featBlock3_apply (t : Fin cfg3.N) (r : Fin 512) (q : Fin 128) :
    iblk3 V c 1 t (ix2 r q) = ent3 (featArr3 V c) (512 * (t.val % 8) + r.val) q.val := by
  have := index3 t
  refine ent3_eq (featArr3 V c) (((cfg3.win 1).blk t).view.emb (ix2 r q)) ?_ ?_
  · show win3_1.index t (0 : Fin 2) * 512 + 1 * r.val = _; omega
  · show win3_1.index t (1 : Fin 2) * 128 + 1 * q.val = _; omega

theorem teleBlock3_apply (t : Fin cfg3.N) (p : Fin 512) (q : Fin 128) :
    iblk3 V c 2 t (ix2 p q) = ent3 (teleArr3 V c) (512 * (t.val / 8) + p.val) q.val := by
  have := index3 t
  refine ent3_eq (teleArr3 V c) (((cfg3.win 2).blk t).view.emb (ix2 p q)) ?_ ?_
  · show win3_2.index t (0 : Fin 2) * 512 + 1 * p.val = _; omega
  · show win3_2.index t (1 : Fin 2) * 128 + 1 * q.val = _; omega

theorem mem_resBlk3 (t : Fin cfg3.N) (i : S4096x128.Idx) :
    i ∈ ((cfg3.win 3).blk t).view.set ↔ ∀ a : Fin 2, win3_3.index t a * S512x128.size a ≤ (i a).val ∧ (i a).val < win3_3.index t a * S512x128.size a + S512x128.size a := by
  show i ∈ ((View.whole main_v41).slice (win3_3.rect t)).set ↔ _
  rw [View.set_slice_whole, Rect.mem_set_unit]
  exact Iff.rfl

theorem cover3 (i : S4096x128.Idx) : ∃ t : Fin cfg3.N, (cfg3.win 3).flush t = true ∧ i ∈ ((cfg3.win 3).blk t).view.set := by
  have hi0 : (i 0).val < 4096 := (i 0).isLt
  have hi1 : (i 1).val < 128 := (i 1).isLt
  obtain ⟨t, ht⟩ : ∃ t : Fin cfg3.N, t.val = 8 * ((i 0).val / 512) + 7 := ⟨⟨_, by rw [show cfg3.N = 64 from N_3]; omega⟩, rfl⟩
  have := index3 t
  refine ⟨t, (flush3_3 t).mpr (by omega), (mem_resBlk3 t i).mpr fun a => ?_⟩
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 128 ≤ (i 1).val ∧ (i 1).val < win3_3.index t (1 : Fin 2) * 128 + 128; omega

theorem accAt3_closed (p : Fin 512) (q : Fin 128) : ∀ (n : ℕ) (hn : n < cfg3.N),
    accAt3 V c n hn (ix2 p q) = ∑ k' ∈ Finset.range (n % 8 + 1), blockProd3 (adjArr3 V c) (featArr3 V c) (n / 8) k' p q
  | 0, hn => by
    show k3_pay2 (F := Ideal) (k3_pay1 (F := Ideal)) (iblk3 V c 0 ⟨0, hn⟩) (iblk3 V c 1 ⟨0, hn⟩) (ix2 p q) = _
    rw [accStep3_apply, zeroBlock3_apply, zero_add]
    simp only [adjBlock3_apply, featBlock3_apply]
    rw [Finset.sum_range_succ, Finset.sum_range_zero, zero_add]
    rfl
  | n + 1, hn => by
    have hN : n + 1 < 64 := lt_of_lt_of_eq hn N_3
    show k3_pay2 (F := Ideal) (if (n + 1) % 8 = 0 then k3_pay1 (F := Ideal) else accAt3 V c n _) (iblk3 V c 0 ⟨n + 1, hn⟩) (iblk3 V c 1 ⟨n + 1, hn⟩) (ix2 p q) = _
    rw [accStep3_apply]
    simp only [adjBlock3_apply, featBlock3_apply]
    by_cases h0 : (n + 1) % 8 = 0
    · rw [if_pos h0, zeroBlock3_apply, zero_add, h0, Finset.sum_range_succ, Finset.sum_range_zero, zero_add]
      rfl
    · rw [if_neg h0, accAt3_closed p q n (Nat.lt_of_succ_lt hn), show (n + 1) % 8 = n % 8 + 1 by omega, show (n + 1) / 8 = n / 8 by omega,
        Finset.sum_range_succ (n := n % 8 + 1)]
      rfl

abbrev stepOut3 : S4096x128.Idx → EReal := Cert.Spec.stepR (adjArr3 V c) (featArr3 V c) (teleArr3 V c)

theorem flushed3_eq (t : Fin cfg3.N) (hf : (cfg3.win 3).flush t = true) :
    (dat3 (F := Ideal) V qs c).flushed 3 t = ((cfg3.win 3).blk t).view.read (Elt Ideal) (stepOut3 V c) := by
  have h7 : t.val % 8 = 7 := (flush3_3 t).mp hf
  have hN : t.val < 64 := lt_of_lt_of_eq t.isLt N_3
  obtain ⟨-, -, -, e0, e1⟩ := index3 t
  show (cfg3.win 3).cut (grid3.coords t) (k3_pay3 (F := Ideal) (accAt3 V c t.val t.isLt) (iblk3 V c 2 t)) = _
  funext j
  obtain ⟨p, q, rfl⟩ : ∃ (p : Fin 512) (q : Fin 128), j = ix2 p q := ⟨j 0, j 1, eq_ix2 j⟩
  rw [View.read_apply]
  have hemb : ((cfg3.win 3).blk t).view.emb (ix2 p q) = ix2 (⟨512 * (t.val / 8) + p.val, by omega⟩ : Fin 4096) q := by
    funext a; apply Fin.ext
    match a with
    | ⟨0, _⟩ => show win3_3.index t (0 : Fin 2) * 512 + 1 * p.val = 512 * (t.val / 8) + p.val; omega
    | ⟨1, _⟩ => show win3_3.index t (1 : Fin 2) * 128 + 1 * q.val = q.val; omega
  rw [hemb]
  show k3_pay3 (F := Ideal) (accAt3 V c t.val t.isLt) (iblk3 V c 2 t) (ix2 p q) = _
  rw [resBlock3_apply, accAt3_closed, teleBlock3_apply, h7]
  show _ = Cert.Spec.c9 * (∑ x : Fin 4096, (adjArr3 V c) (ix2 (⟨512 * (t.val / 8) + p.val, by omega⟩ : Fin 4096) x)
      * (featArr3 V c) (ix2 x q))
    + Cert.Spec.c1 * (teleArr3 V c) (ix2 (⟨512 * (t.val / 8) + p.val, by omega⟩ : Fin 4096) q)
  unfold blockProd3
  rw [sum_blocks3 (fun x => ent3 (adjArr3 V c) (512 * (t.val / 8) + p.val) x * ent3 (featArr3 V c) x q.val),
    ent3_ix2 (teleArr3 V c) (⟨512 * (t.val / 8) + p.val, by omega⟩ : Fin 4096) q]
  refine congrArg (Cert.Spec.c9 * · + _) (Finset.sum_congr rfl fun x _ => ?_)
  rw [ent3_ix2 _ x q, ent3_ix2 (adjArr3 V c) (⟨512 * (t.val / 8) + p.val, by omega⟩ : Fin 4096) x]

theorem value3 : (dat3 (F := Ideal) V qs c).arrAt 3 cfg3.N
    = Cert.Spec.stepR (V c main_v40 : S4096x4096.Idx → EReal) (V c main_v4 : S4096x128.Idx → EReal) (V c main_v4 : S4096x128.Idx → EReal) :=
  (dat3 (F := Ideal) V qs c).arrAt_eq_of_cover 3 (stepOut3 V c) (fun t hf => flushed3_eq V qs c t hf) (cover3)

end Value

end Cert.ReferenceIdeal.Hand

end
-- ==== Proof.RI.Reg4.lean ====
import proofs.«153234_g2000604307514898_pallasbulk_606_4_alg».proof.Proof.RI.Reg3

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Frame

variable {F : FTy → Type} [FloatOps F]

local notation "𝕄" => MT nD τ sig Unit (Elt F) ℕ (UR sig nD τ) ℕ

variable (V : (c : Dev nD) → (b : Ref sig .tc) → Buf (Elt F) ((c : Thread nD τ).loc b))
  (qs : Fin cfg4.W → PosShare TreeShare) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

theorem idleRes4 : ∀ t : Fin cfg4.N, ¬isLast3 (grid4.coords t) → cfg4.idle 3 (grid4.coords t) = true ∧ (cfg4.win 3).flush t = false := by
  decide +kernel
theorem liveRes4 : ∀ t : Fin cfg4.N, isLast3 (grid4.coords t) → cfg4.idle 3 (grid4.coords t) = false := by decide +kernel

abbrev accM4 : Memref sig .tc .vmem S512x128 .f32 := Memref.whole cc4_scratch0

def accAt4 : (n : ℕ) → n < cfg4.N → Vec F S512x128 .f32
  | 0, hn => k3_pay2 (k3_pay1 (F := F)) (iblk4 V c 0 ⟨0, hn⟩) (iblk4 V c 1 ⟨0, hn⟩)
  | n + 1, hn => k3_pay2 (if (n + 1) % 8 = 0 then k3_pay1 (F := F) else accAt4 n (Nat.lt_of_succ_lt hn))
      (iblk4 V c 0 ⟨n + 1, hn⟩) (iblk4 V c 1 ⟨n + 1, hn⟩)

theorem accAt4_step (t : Fin cfg4.N) : accAt4 V c t.val t.isLt
    = k3_pay2 (if t.val % 8 = 0 then k3_pay1 (F := F) else accAt4 V c (t.val - 1) (Nat.lt_of_le_of_lt (Nat.sub_le _ _) t.isLt))
      (iblk4 V c 0 t) (iblk4 V c 1 t) := by
  obtain ⟨_ | n, hn⟩ := t <;> rfl

def restA4 : sProp 𝕄 :=
  iprop(Pipeline.scopedRestBut (Ix := Unit) (Name := ℕ) (U := UR sig nD τ) (Lvl := ℕ) (Val := Elt F) spec4 c [cc4_scratch0])

theorem PhiA4_eq : (Pipeline.ΦA spec4 c : sProp 𝕄)
    = iprop(iprop(iprop((∃ d, owns (c : Thread nD τ) accM4 fullShare d)) ∗ restA4 (F := F) c) ∗ (∃ r, prngReg c r)) := by
  unfold Pipeline.ΦA restA4; rw [scopedRest4_split]; simp only [accM4, owns_whole]; try rfl

def PhiAcc4 : (n : ℕ) → n ≤ cfg4.N → sProp 𝕄
  | 0, _ => Pipeline.ΦA spec4 c
  | n + 1, hn => iprop(iprop(owns (c : Thread nD τ) accM4 fullShare (accAt4 V c n hn) ∗ restA4 (F := F) c) ∗ (∃ r, prngReg c r))

theorem PhiAcc4_pos (n : ℕ) (h : n ≤ cfg4.N) (hz : n ≠ 0) :
    PhiAcc4 V c n h = iprop(iprop(owns (c : Thread nD τ) accM4 fullShare (accAt4 V c (n - 1) (by omega)) ∗ restA4 (F := F) c) ∗ (∃ r, prngReg c r)) := by
  cases n with
  | zero => exact absurd rfl hz
  | succ n => rfl

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k3_pay3 (accAt4 V c t.val t.isLt) (iblk4 V c 2 t)
  Φ t := PhiAcc4 V c t.val (Nat.le_of_lt_succ t.isLt)
  q := qs
  owed _ := 0

theorem A_eq4 (w : Fin cfg4.W) : (dat4 V qs c).A w = V c (Pipeline.arrRef spec4 w) := rfl
theorem owed_eq4 (t : Fin (cfg4.N + 1)) : (dat4 V qs c).owed t = 0 := rfl
theorem q_eq4 (w : Fin cfg4.W) : (dat4 V qs c).q w = qs w := rfl
theorem recorded_eq4 (t : Fin (cfg4.N + 1)) : (dat4 V qs c).recorded t = Set.univ := rfl

theorem before4 (t : Fin cfg4.N) : (∀ d, (dat4 V qs c).before 0 t d = iblk4 V c 0 t) ∧ (∀ d, (dat4 V qs c).before 1 t d = iblk4 V c 1 t)
    ∧ (∀ d, (dat4 V qs c).before 2 t d = iblk4 V c 2 t) := by
  refine ⟨?_, ?_, ?_⟩ <;>
    exact fun d => ((dat4 V qs c).before_in_eq_fetched _ rfl (fun _ => rfl) (fun _ _ _ => rfl) (fun _ => rfl) t d).trans rfl

theorem leaves4 (t : Fin cfg4.N) : (dat4 V qs c).leavesExact 0 t = owns (c : Thread nD τ) (st4_0 t) fullShare (iblk4 V c 0 t)
    ∧ (dat4 V qs c).leavesExact 1 t = owns (c : Thread nD τ) (st4_1 t) fullShare (iblk4 V c 1 t)
    ∧ (dat4 V qs c).leavesExact 2 t = owns (c : Thread nD τ) (st4_2 t) fullShare (iblk4 V c 2 t) :=
  ⟨rfl, rfl, rfl⟩

def bodyPre4 (t : Fin cfg4.N) : sProp 𝕄 :=
  iprop((dat4 V qs c).Φ t.castSucc ∗ (dat4 V qs c).owesAt () t.castSucc
    ∗ (∃ d, owns (c : Thread nD τ) (st4_0 t) fullShare ((dat4 V qs c).before 0 t d))
    ∗ (∃ d, owns (c : Thread nD τ) (st4_1 t) fullShare ((dat4 V qs c).before 1 t d))
    ∗ (∃ d, owns (c : Thread nD τ) (st4_2 t) fullShare ((dat4 V qs c).before 2 t d))
    ∗ (∃ d, owns (c : Thread nD τ) (st4_3 t) fullShare ((dat4 V qs c).before 3 t d)))

def bodyPost4 (t : Fin cfg4.N) : sProp 𝕄 :=
  iprop((dat4 V qs c).Φ t.succ ∗ (dat4 V qs c).owesAt () t.succ
    ∗ (dat4 V qs c).leavesExact 0 t
    ∗ (dat4 V qs c).leavesExact 1 t
    ∗ (dat4 V qs c).leavesExact 2 t
    ∗ (dat4 V qs c).leavesExact 3 t)

set_option maxHeartbeats 4800000 in
theorem sound_body4 (t : Fin cfg4.N) :
    bodyPre4 V qs c t ⊢ wp frame (wpE (defs₀ (F := F)) Variants.none c none) Set.univ (bodyAt4 t) (fun _ => bodyPost4 V qs c t) := by
  unfold bodyPre4 bodyPost4 bodyAt4
  rw [show @cc4_appnp_step_kernel F _ _ = @cc3_appnp_step_kernel F _ _ from rfl]
  simp only [before4 V qs c t]
  rw [show (dat4 V qs c).owesAt () t.succ = (dat4 V qs c).owesAt () t.castSucc from rfl,
    show (dat4 V qs c).Φ t.succ = iprop(iprop(owns (c : Thread nD τ) accM4 fullShare (accAt4 V c t.val t.isLt) ∗ restA4 (F := F) c) ∗ (∃ r, prngReg c r)) from rfl,
    show (dat4 V qs c).Φ t.castSucc = PhiAcc4 V c t.val (Nat.le_of_lt t.isLt) from rfl,
    (leaves4 V qs c t).1, (leaves4 V qs c t).2.1, (leaves4 V qs c t).2.2, accAt4_step V c t]
  by_cases h0 : t.val % 8 = 0
  · have hF := (isFirst3_iff t).mpr h0
    have hL : ¬isLast3 (grid4.coords t) := fun h => by have := (isLast3_iff t).mp h; omega
    rw [Dat.leavesExact_idle (dat4 V qs c) 3 t (idleRes4 t hL).1 (idleRes4 t hL).2, if_pos h0]
    by_cases hz : t.val = 0
    · rw [show PhiAcc4 V c t.val (Nat.le_of_lt t.isLt) = Pipeline.ΦA spec4 c from by
        obtain ⟨_ | n, hn⟩ := t <;> first | rfl | exact absurd hz (Nat.succ_ne_zero _), PhiA4_eq]
      iintro ⟨⟨⟨⟨%a, HS⟩, HR⟩, Hg⟩, Ho, ⟨%d0, H0⟩, ⟨%d1, H1⟩, ⟨%d2, H2⟩, ⟨%d4, H4⟩⟩
      iapply (run3 c Set.univ (grid4.coords t) _ _ _ _ _ _ _ _ _ _ (iblk4 V c 0 t) (iblk4 V c 1 t) (iblk4 V c 2 t) _ a _)
      iframe H0 H1 H2 H4 HS
      rw [if_pos hF, if_neg hL]
      iintro ⟨H0, H1, H2, H4, HS⟩
      iframe
      iexists _; iexact H4
    · rw [PhiAcc4_pos V c _ _ hz]
      iintro ⟨⟨⟨HS, HR⟩, Hg⟩, Ho, ⟨%d0, H0⟩, ⟨%d1, H1⟩, ⟨%d2, H2⟩, ⟨%d4, H4⟩⟩
      iapply (run3 c Set.univ (grid4.coords t) _ _ _ _ _ _ _ _ _ _ (iblk4 V c 0 t) (iblk4 V c 1 t) (iblk4 V c 2 t) _ _ _)
      iframe H0 H1 H2 H4 HS
      rw [if_pos hF, if_neg hL]
      iintro ⟨H0, H1, H2, H4, HS⟩
      iframe
      iexists _; iexact H4
  · have hF : ¬isFirst3 (grid4.coords t) := fun h => h0 ((isFirst3_iff t).mp h)
    rw [if_neg h0, PhiAcc4_pos V c _ _ fun e => h0 (by rw [e])]
    by_cases h1 : t.val % 8 = 7
    · have hL : isLast3 (grid4.coords t) := (isLast3_iff t).mpr h1
      rw [show (dat4 V qs c).leavesExact 3 t = owns (c : Thread nD τ) (st4_3 t) fullShare (k3_pay3 (accAt4 V c t.val t.isLt) (iblk4 V c 2 t)) from by
        unfold Dat.leavesExact; rw [liveRes4 t hL]; rfl, accAt4_step V c t, if_neg h0]
      iintro ⟨⟨⟨HS, HR⟩, Hg⟩, Ho, ⟨%d0, H0⟩, ⟨%d1, H1⟩, ⟨%d2, H2⟩, ⟨%d4, H4⟩⟩
      iapply (run3 c Set.univ (grid4.coords t) _ _ _ _ _ _ _ _ _ _ (iblk4 V c 0 t) (iblk4 V c 1 t) (iblk4 V c 2 t) _ _ _)
      iframe H0 H1 H2 H4 HS
      rw [if_neg hF, if_pos hL]
      iintro ⟨H0, H1, H2, H4, HS⟩
      iframe
    · have hL : ¬isLast3 (grid4.coords t) := fun h => h1 ((isLast3_iff t).mp h)
      rw [Dat.leavesExact_idle (dat4 V qs c) 3 t (idleRes4 t hL).1 (idleRes4 t hL).2]
      iintro ⟨⟨⟨HS, HR⟩, Hg⟩, Ho, ⟨%d0, H0⟩, ⟨%d1, H1⟩, ⟨%d2, H2⟩, ⟨%d4, H4⟩⟩
      iapply (run3 c Set.univ (grid4.coords t) _ _ _ _ _ _ _ _ _ _ (iblk4 V c 0 t) (iblk4 V c 1 t) (iblk4 V c 2 t) _ _ _)
      iframe H0 H1 H2 H4 HS
      rw [if_neg hF, if_neg hL]
      iintro ⟨H0, H1, H2, H4, HS⟩
      iframe
      iexists _; iexact H4

theorem body_obligation4 : BodyObligation (dat4 (F := F) V qs c) (defs₀ (F := F)) Variants.none () Set.univ := fun t => by
  rw [bigSep_W4, bigSep_W4]
  exact sound_body4 V qs c t

theorem hin4 : Pipeline.ΦA spec4 c ⊢ (dat4 V qs c).Φ 0 := Idealize.SL.BI.Entails.refl _

theorem hout4 : (dat4 V qs c).Φ (Fin.last cfg4.N) ⊢ Pipeline.ΦA spec4 c := by
  rw [show (dat4 V qs c).Φ (Fin.last cfg4.N) = PhiAcc4 V c cfg4.N (Nat.le_refl _) from rfl,
    PhiAcc4_pos V c _ _ (by rw [show cfg4.N = 64 from N_4]; omega), PhiA4_eq]
  iintro ⟨⟨HS, HR⟩, Hg⟩
  iframe
  iexists _; iexact HS

theorem arrAt_in4 (w : Fin cfg4.W) (hw : w ≠ 3) (n : Nat) : (dat4 V qs c).arrAt w n = V c (Pipeline.arrRef spec4 w) :=
  match w, hw with
  | ⟨0, _⟩, _ => (dat4 V qs c).arrAt_in 0 rfl n
  | ⟨1, _⟩, _ => (dat4 V qs c).arrAt_in 1 rfl n
  | ⟨2, _⟩, _ => (dat4 V qs c).arrAt_in 2 rfl n
  | ⟨3, _⟩, hw => absurd rfl hw

end Frame

section Value
open Idealize.ShloMosaic.ValueIdx

variable (V : (c : Dev nD) → (b : Ref sig .tc) → Buf (Elt Ideal) ((c : Thread nD τ).loc b))
  (qs : Fin cfg4.W → PosShare TreeShare) (c : Dev nD)

abbrev adjArr4 : S4096x4096.Idx → EReal := V c (Pipeline.arrRef spec4 0)
abbrev featArr4 : S4096x128.Idx → EReal := V c (Pipeline.arrRef spec4 1)
abbrev teleArr4 : S4096x128.Idx → EReal := V c (Pipeline.arrRef spec4 2)

theorem index4 : ∀ t : Fin cfg4.N, (win4_0.index t (0 : Fin 2) = t.val / 8 ∧ win4_0.index t (1 : Fin 2) = t.val % 8)
    ∧ (win4_1.index t (0 : Fin 2) = t.val % 8 ∧ win4_1.index t (1 : Fin 2) = 0)
    ∧ (win4_2.index t (0 : Fin 2) = t.val / 8 ∧ win4_2.index t (1 : Fin 2) = 0)
    ∧ (win4_3.index t (0 : Fin 2) = t.val / 8 ∧ win4_3.index t (1 : Fin 2) = 0) :=
  (by decide +kernel : ∀ t : Fin grid4.N, _)

theorem adjBlock4_apply (t : Fin cfg4.N) (p r : Fin 512) :
    iblk4 V c 0 t (ix2 p r) = ent3 (adjArr4 V c) (512 * (t.val / 8) + p.val) (512 * (t.val % 8) + r.val) := by
  have := index4 t
  refine ent3_eq (adjArr4 V c) (((cfg4.win 0).blk t).view.emb (ix2 p r)) ?_ ?_
  · show win4_0.index t (0 : Fin 2) * 512 + 1 * p.val = _; omega
  · show win4_0.index t (1 : Fin 2) * 512 + 1 * r.val = _; omega

theorem featBlock4_apply (t : Fin cfg4.N) (r : Fin 512) (q : Fin 128) :
    iblk4 V c 1 t (ix2 r q) = ent3 (featArr4 V c) (512 * (t.val % 8) + r.val) q.val := by
  have := index4 t
  refine ent3_eq (featArr4 V c) (((cfg4.win 1).blk t).view.emb (ix2 r q)) ?_ ?_
  · show win4_1.index t (0 : Fin 2) * 512 + 1 * r.val = _; omega
  · show win4_1.index t (1 : Fin 2) * 128 + 1 * q.val = _; omega

theorem teleBlock4_apply (t : Fin cfg4.N) (p : Fin 512) (q : Fin 128) :
    iblk4 V c 2 t (ix2 p q) = ent3 (teleArr4 V c) (512 * (t.val / 8) + p.val) q.val := by
  have := index4 t
  refine ent3_eq (teleArr4 V c) (((cfg4.win 2).blk t).view.emb (ix2 p q)) ?_ ?_
  · show win4_2.index t (0 : Fin 2) * 512 + 1 * p.val = _; omega
  · show win4_2.index t (1 : Fin 2) * 128 + 1 * q.val = _; omega

theorem mem_resBlk4 (t : Fin cfg4.N) (i : S4096x128.Idx) :
    i ∈ ((cfg4.win 3).blk t).view.set ↔ ∀ a : Fin 2, win4_3.index t a * S512x128.size a ≤ (i a).val ∧ (i a).val < win4_3.index t a * S512x128.size a + S512x128.size a := by
  show i ∈ ((View.whole main_v42).slice (win4_3.rect t)).set ↔ _
  rw [View.set_slice_whole, Rect.mem_set_unit]
  exact Iff.rfl

theorem cover4 (i : S4096x128.Idx) : ∃ t : Fin cfg4.N, (cfg4.win 3).flush t = true ∧ i ∈ ((cfg4.win 3).blk t).view.set := by
  have hi0 : (i 0).val < 4096 := (i 0).isLt
  have hi1 : (i 1).val < 128 := (i 1).isLt
  obtain ⟨t, ht⟩ : ∃ t : Fin cfg4.N, t.val = 8 * ((i 0).val / 512) + 7 := ⟨⟨_, by rw [show cfg4.N = 64 from N_4]; omega⟩, rfl⟩
  have := index4 t
  refine ⟨t, (flush4_3 t).mpr (by omega), (mem_resBlk4 t i).mpr fun a => ?_⟩
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 128 ≤ (i 1).val ∧ (i 1).val < win4_3.index t (1 : Fin 2) * 128 + 128; omega

theorem accAt4_closed (p : Fin 512) (q : Fin 128) : ∀ (n : ℕ) (hn : n < cfg4.N),
    accAt4 V c n hn (ix2 p q) = ∑ k' ∈ Finset.range (n % 8 + 1), blockProd3 (adjArr4 V c) (featArr4 V c) (n / 8) k' p q
  | 0, hn => by
    show k3_pay2 (F := Ideal) (k3_pay1 (F := Ideal)) (iblk4 V c 0 ⟨0, hn⟩) (iblk4 V c 1 ⟨0, hn⟩) (ix2 p q) = _
    rw [accStep3_apply, zeroBlock3_apply, zero_add]
    simp only [adjBlock4_apply, featBlock4_apply]
    rw [Finset.sum_range_succ, Finset.sum_range_zero, zero_add]
    rfl
  | n + 1, hn => by
    have hN : n + 1 < 64 := lt_of_lt_of_eq hn N_4
    show k3_pay2 (F := Ideal) (if (n + 1) % 8 = 0 then k3_pay1 (F := Ideal) else accAt4 V c n _) (iblk4 V c 0 ⟨n + 1, hn⟩) (iblk4 V c 1 ⟨n + 1, hn⟩) (ix2 p q) = _
    rw [accStep3_apply]
    simp only [adjBlock4_apply, featBlock4_apply]
    by_cases h0 : (n + 1) % 8 = 0
    · rw [if_pos h0, zeroBlock3_apply, zero_add, h0, Finset.sum_range_succ, Finset.sum_range_zero, zero_add]
      rfl
    · rw [if_neg h0, accAt4_closed p q n (Nat.lt_of_succ_lt hn), show (n + 1) % 8 = n % 8 + 1 by omega, show (n + 1) / 8 = n / 8 by omega,
        Finset.sum_range_succ (n := n % 8 + 1)]
      rfl

abbrev stepOut4 : S4096x128.Idx → EReal := Cert.Spec.stepR (adjArr4 V c) (featArr4 V c) (teleArr4 V c)

theorem flushed4_eq (t : Fin cfg4.N) (hf : (cfg4.win 3).flush t = true) :
    (dat4 (F := Ideal) V qs c).flushed 3 t = ((cfg4.win 3).blk t).view.read (Elt Ideal) (stepOut4 V c) := by
  have h7 : t.val % 8 = 7 := (flush4_3 t).mp hf
  have hN : t.val < 64 := lt_of_lt_of_eq t.isLt N_4
  obtain ⟨-, -, -, e0, e1⟩ := index4 t
  show (cfg4.win 3).cut (grid4.coords t) (k3_pay3 (F := Ideal) (accAt4 V c t.val t.isLt) (iblk4 V c 2 t)) = _
  funext j
  obtain ⟨p, q, rfl⟩ : ∃ (p : Fin 512) (q : Fin 128), j = ix2 p q := ⟨j 0, j 1, eq_ix2 j⟩
  rw [View.read_apply]
  have hemb : ((cfg4.win 3).blk t).view.emb (ix2 p q) = ix2 (⟨512 * (t.val / 8) + p.val, by omega⟩ : Fin 4096) q := by
    funext a; apply Fin.ext
    match a with
    | ⟨0, _⟩ => show win4_3.index t (0 : Fin 2) * 512 + 1 * p.val = 512 * (t.val / 8) + p.val; omega
    | ⟨1, _⟩ => show win4_3.index t (1 : Fin 2) * 128 + 1 * q.val = q.val; omega
  rw [hemb]
  show k3_pay3 (F := Ideal) (accAt4 V c t.val t.isLt) (iblk4 V c 2 t) (ix2 p q) = _
  rw [resBlock3_apply, accAt4_closed, teleBlock4_apply, h7]
  show _ = Cert.Spec.c9 * (∑ x : Fin 4096, (adjArr4 V c) (ix2 (⟨512 * (t.val / 8) + p.val, by omega⟩ : Fin 4096) x)
      * (featArr4 V c) (ix2 x q))
    + Cert.Spec.c1 * (teleArr4 V c) (ix2 (⟨512 * (t.val / 8) + p.val, by omega⟩ : Fin 4096) q)
  unfold blockProd3
  rw [sum_blocks3 (fun x => ent3 (adjArr4 V c) (512 * (t.val / 8) + p.val) x * ent3 (featArr4 V c) x q.val),
    ent3_ix2 (teleArr4 V c) (⟨512 * (t.val / 8) + p.val, by omega⟩ : Fin 4096) q]
  refine congrArg (Cert.Spec.c9 * · + _) (Finset.sum_congr rfl fun x _ => ?_)
  rw [ent3_ix2 _ x q, ent3_ix2 (adjArr4 V c) (⟨512 * (t.val / 8) + p.val, by omega⟩ : Fin 4096) x]

theorem value4 : (dat4 (F := Ideal) V qs c).arrAt 3 cfg4.N
    = Cert.Spec.stepR (V c main_v40 : S4096x4096.Idx → EReal) (V c main_v41 : S4096x128.Idx → EReal) (V c main_v4 : S4096x128.Idx → EReal) :=
  (dat4 (F := Ideal) V qs c).arrAt_eq_of_cover 3 (stepOut4 V c) (fun t hf => flushed4_eq V qs c t hf) (cover4)

end Value

end Cert.ReferenceIdeal.Hand

end
-- ==== Proof.RI.Run.lean ====
import proofs.«153234_g2000604307514898_pallasbulk_606_4_alg».proof.Proof.Gen.ReferenceIdeal.Regions
import proofs.«153234_g2000604307514898_pallasbulk_606_4_alg».proof.Proof.RI.RunCond
import proofs.«153234_g2000604307514898_pallasbulk_606_4_alg».proof.Proof.RI.Reg0
import proofs.«153234_g2000604307514898_pallasbulk_606_4_alg».proof.Proof.RI.Reg1
import proofs.«153234_g2000604307514898_pallasbulk_606_4_alg».proof.Proof.RI.Reg2
import proofs.«153234_g2000604307514898_pallasbulk_606_4_alg».proof.Proof.RI.Reg3
import proofs.«153234_g2000604307514898_pallasbulk_606_4_alg».proof.Proof.RI.Reg4
import proofs.«153234_g2000604307514898_pallasbulk_606_4_alg».proof.Proof.LibRun
set_option maxRecDepth 16384
noncomputable section
namespace Cert.ReferenceIdeal.Hand
open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Hand.Run
export Cert.Hand.Run (atRefs)
variable {F : FTy → Type} [FloatOps F]
local notation "𝕄" => MT nD τ sig Unit (Elt F) ℕ (UR sig nD τ) ℕ
variable (m : (ℓ : Loc nD τ sig) → Buf (Elt F) ℓ) (ρ : Dev nD → PrngReg)
def qs0 : Fin cfg0.W → PosShare TreeShare := fun _ => fullShare
def qs1 : Fin cfg1.W → PosShare TreeShare := fun _ => fullShare
def qs2 : Fin cfg2.W → PosShare TreeShare := fun _ => fullShare
def qs3 : Fin cfg3.W → PosShare TreeShare
  | ⟨0, _⟩ => fullShare
  | ⟨1, _⟩ => fullShare.left
  | ⟨2, _⟩ => fullShare.right
  | ⟨3, _⟩ => fullShare
def qs4 : Fin cfg4.W → PosShare TreeShare := fun _ => fullShare
def U2 (c : Dev nD) : Valuation τ sig (Elt F) :=
  Function.update (V1 m c) main_v2 ((dat0 (atRefs (V1 m)) qs0 c).arrAt 3 cfg0.N)
def U3 (c : Dev nD) : Valuation τ sig (Elt F) :=
  Function.update (U2 m c) main_v3 ((dat1 (atRefs (U2 m)) qs1 c).arrAt 3 cfg1.N)
def U4 (c : Dev nD) : Valuation τ sig (Elt F) :=
  Function.update (U3 m c) main_v4 ((dat2 (atRefs (U3 m)) qs2 c).arrAt 3 cfg2.N)
def U9 (c : Dev nD) : Valuation τ sig (Elt F) :=
  StableHlo.after hostOps3_4 (StableHlo.after hostOps3_3 (StableHlo.after hostOps3_2
    (StableHlo.after hostOps3_1 (StableHlo.after hostOps3 (U4 m c)))))
def U10 (c : Dev nD) : Valuation τ sig (Elt F) :=
  Function.update (U9 m c) main_v41 ((dat3 (atRefs (U9 m)) qs3 c).arrAt 3 cfg3.N)
def U11 (c : Dev nD) : Valuation τ sig (Elt F) :=
  Function.update (U10 m c) main_v42 ((dat4 (atRefs (U10 m)) qs4 c).arrAt 3 cfg4.N)
def outs : Outs (F := F) := fun J r c =>
  match J with
  | 2 => U2 m c r
  | 3 => U3 m c r
  | 4 => U4 m c r
  | 10 => U10 m c r
  | 11 => U11 m c r
  | _ => V1 m c r
theorem V2_eq (c : Dev nD) : V2 m (outs m) c = U2 m c := upd_step rfl _ _
theorem V3_eq (c : Dev nD) : V3 m (outs m) c = U3 m c := upd_step (V2_eq m c) _ _
theorem V4_eq (c : Dev nD) : V4 m (outs m) c = U4 m c := upd_step (V3_eq m c) _ _
theorem V9_eq (c : Dev nD) : V9 m (outs m) c = U9 m c :=
  congrArg (fun W => StableHlo.after hostOps3_4 (StableHlo.after hostOps3_3 (StableHlo.after hostOps3_2
    (StableHlo.after hostOps3_1 (StableHlo.after hostOps3 W))))) (V4_eq m c)
theorem V10_eq (c : Dev nD) : V10 m (outs m) c = U10 m c := upd_step (V9_eq m c) _ _
theorem V11_eq (c : Dev nD) : V11 m (outs m) c = U11 m c := upd_step (V10_eq m c) _ _
def pdats : (p : Fin 5) → (c : Dev nD) → Dat τ (Elt F) Unit ℕ (UR sig nD τ) ℕ (cfgs p) c
  | ⟨0, _⟩ => fun c => dat0 (atRefs (V1 m)) qs0 c
  | ⟨1, _⟩ => fun c => dat1 (atRefs (U2 m)) qs1 c
  | ⟨2, _⟩ => fun c => dat2 (atRefs (U3 m)) qs2 c
  | ⟨3, _⟩ => fun c => dat3 (atRefs (U9 m)) qs3 c
  | ⟨4, _⟩ => fun c => dat4 (atRefs (U10 m)) qs4 c
set_option backward.isDefEq.respectTransparency.types false in
def reg0 : RegionSeg (pcfgs (F := F)) adm (pdats m) () defs₀ Variants.none Lz lvz 0 :=
  regOf pcfgs adm (pdats m) defs₀ 0 rfl launch0.block_pos launch0.stage_whole (V1 m) (U2 m)
    (body_obligation0 (atRefs (V1 m)) qs0) (owed_eq0 (atRefs (V1 m)) qs0) (recorded_eq0 (atRefs (V1 m)) qs0 · 0)
    (hin0 (atRefs (V1 m)) qs0) (hout0 (atRefs (V1 m)) qs0) 3 (A_eq0 (atRefs (V1 m)) qs0) (arrAt_in0 (atRefs (V1 m)) qs0)
    (fun c => Function.update_self ..) (fun c b h => upd_other _ _ h) launch0.win launch0.arr_whole (q_eq0 (atRefs (V1 m)) qs0)
set_option backward.isDefEq.respectTransparency.types false in
def reg1 : RegionSeg (pcfgs (F := F)) adm (pdats m) () defs₀ Variants.none Lz lvz 1 :=
  regOf pcfgs adm (pdats m) defs₀ 1 rfl launch1.block_pos launch1.stage_whole (U2 m) (U3 m)
    (body_obligation1 (atRefs (U2 m)) qs1) (owed_eq1 (atRefs (U2 m)) qs1) (recorded_eq1 (atRefs (U2 m)) qs1 · 0)
    (hin1 (atRefs (U2 m)) qs1) (hout1 (atRefs (U2 m)) qs1) 3 (A_eq1 (atRefs (U2 m)) qs1) (arrAt_in1 (atRefs (U2 m)) qs1)
    (fun c => Function.update_self ..) (fun c b h => upd_other _ _ h) launch1.win launch1.arr_whole (q_eq1 (atRefs (U2 m)) qs1)
set_option backward.isDefEq.respectTransparency.types false in
def reg2 : RegionSeg (pcfgs (F := F)) adm (pdats m) () defs₀ Variants.none Lz lvz 2 :=
  regOf pcfgs adm (pdats m) defs₀ 2 rfl launch2.block_pos launch2.stage_whole (U3 m) (U4 m)
    (body_obligation2 (atRefs (U3 m)) qs2) (owed_eq2 (atRefs (U3 m)) qs2) (recorded_eq2 (atRefs (U3 m)) qs2 · 0)
    (hin2 (atRefs (U3 m)) qs2) (hout2 (atRefs (U3 m)) qs2) 3 (A_eq2 (atRefs (U3 m)) qs2) (arrAt_in2 (atRefs (U3 m)) qs2)
    (fun c => Function.update_self ..) (fun c b h => upd_other _ _ h) launch2.win launch2.arr_whole (q_eq2 (atRefs (U3 m)) qs2)
set_option backward.isDefEq.respectTransparency.types false in
def reg4 : RegionSeg (pcfgs (F := F)) adm (pdats m) () defs₀ Variants.none Lz lvz 4 :=
  regOf pcfgs adm (pdats m) defs₀ 4 rfl launch4.block_pos launch4.stage_whole (U10 m) (U11 m)
    (body_obligation4 (atRefs (U10 m)) qs4) (owed_eq4 (atRefs (U10 m)) qs4) (recorded_eq4 (atRefs (U10 m)) qs4 · 0)
    (hin4 (atRefs (U10 m)) qs4) (hout4 (atRefs (U10 m)) qs4) 3 (A_eq4 (atRefs (U10 m)) qs4) (arrAt_in4 (atRefs (U10 m)) qs4)
    (fun c => Function.update_self ..) (fun c b h => upd_other _ _ h) launch4.win launch4.arr_whole (q_eq4 (atRefs (U10 m)) qs4)
theorem arrs3 : Finset.univ.image (Pipeline.arrRef spec3) = {main_v40, main_v4, main_v41} := by decide
theorem arrays3_iff (c : Dev nD) (D : Dat τ (Elt F) Unit ℕ (UR sig nD τ) ℕ cfg3 c) (hq : ∀ w, D.q w = qs3 w)
    (V : (b : Ref sig .tc) → Buf (Elt F) ((c : Thread nD τ).loc b))
    (G : (w : Fin cfg3.W) → Buf (Elt F) ((cfg3.win w).arr.view.loc (c : Thread nD τ)))
    (hG : ∀ w, G w = V (Pipeline.arrRef spec3 w)) :
    (Pipeline.arrBufs spec3 c V : sProp 𝕄) ⊣⊢ D.arrays G := by
  have hs (w : Fin cfg3.W) : D.share w = qs3 w := by
    unfold Pipeline.Dat.share; rw [hq]; revert w; decide
  have e1 : D.arrays G = bigSep Finset.univ fun w : Fin 4 =>
      (((c : Thread nD τ).loc (Pipeline.arrRef spec3 w)) ↦{qs3 w} V (Pipeline.arrRef spec3 w) : sProp 𝕄) := by
    unfold Pipeline.Dat.arrays
    exact bigSep_congr fun w _ => by rw [(arr_whole3 w).set_eq_univ, hG, hs]
  have e3 : (Pipeline.arrBufs spec3 c V : sProp 𝕄) = iprop((((c : Thread nD τ).loc main_v40) ↦{fullShare} V main_v40)
      ∗ (((c : Thread nD τ).loc main_v4) ↦{fullShare} V main_v4) ∗ (((c : Thread nD τ).loc main_v41) ↦{fullShare} V main_v41)) := by
    unfold Pipeline.arrBufs
    rw [arrs3, bigSep_insert (by decide), bigSep_insert (by decide), bigSep_singleton]
    rfl
  rw [e1, e3, bigSep_W3]
  exact sep_congr .rfl <| (sep_congr (pointsTo_share (PosShare.mem_left_op_right fullShare)) .rfl).trans sep_assoc
set_option backward.isDefEq.respectTransparency.types false in
def reg3 : RegionSeg (pcfgs (F := F)) adm (pdats m) () defs₀ Variants.none Lz lvz 3 :=
  regShared pcfgs adm (pdats m) defs₀ 3 rfl block_pos3 stage_whole3 (U9 m) (U10 m)
    (body_obligation3 (atRefs (U9 m)) qs3) (owed_eq3 (atRefs (U9 m)) qs3) (recorded_eq3 (atRefs (U9 m)) qs3 · 0)
    (hin3 (atRefs (U9 m)) qs3) (hout3 (atRefs (U9 m)) qs3) 3 (A_eq3 (atRefs (U9 m)) qs3) (arrAt_in3 (atRefs (U9 m)) qs3)
    (fun c => Function.update_self ..) (fun c b h => upd_other _ _ h) winFacts₀3 winFacts₀3.arr_unscoped (by decide : ∀ w : Fin cfg3.W, w ≠ 3 → Pipeline.arrRef spec3 w ≠ Pipeline.arrRef spec3 3)
    fun c V G hG => arrays3_iff c _ (q_eq3 (atRefs (U9 m)) qs3 c) V G hG
set_option backward.isDefEq.respectTransparency.types false in
theorem run_all : θ_run defs (onTc (τ := τ) (main (F := F))) ⟨m, fun _ => 0, ρ⟩ (fun r => ∀ c : Dev nD,
    ∀ b ∈ Pipeline.ucRefs τ sig, r.2.mem (((c : Thread nD τ)).1, b) = U11 m c b) :=
  (θ_run defs _ _).mono (fun r h c b hb => (h c b hb).trans (congrFun (V11_eq m c) b))
    (run_cond m ρ (outs m) (pdats m)
      (reg0 m) (fun c => .rfl) (fun c => by rw [V2_eq]; exact .rfl)
      (reg1 m) (fun c => by rw [V2_eq]; exact .rfl) (fun c => by rw [V3_eq]; exact .rfl)
      (reg2 m) (fun c => by rw [V3_eq]; exact .rfl) (fun c => by rw [V4_eq]; exact .rfl)
      (reg3 m) (fun c => by rw [V9_eq]; exact .rfl) (fun c => by rw [V10_eq]; exact .rfl)
      (reg4 m) (fun c => by rw [V10_eq]; exact .rfl) (fun c => by rw [V11_eq]; exact .rfl))
abbrev ArgsKept (m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7)
theorem run_value : θ_run defs (onTc (τ := τ) (main (F := F))) ⟨m, fun _ => 0, ρ⟩ (fun r => ∀ c : Dev nD,
      r.2.mem ((c.tc : Thread nD τ).loc main_v42) = U11 m c main_v42 ∧ ArgsKept m r.2.mem c) := by
  refine (θ_run defs _ _).mono (fun r hr c => ?_) (run_all m ρ)
  have harg (b : Ref sig .tc) (hb : ¬ (Proc.devRef .tc b : DevRef τ sig).isScoped) :
      r.2.mem ((c.tc : Thread nD τ).loc b) = V11 m (outs m) c b :=
    (hr c _ (Finset.mem_filter.mpr ⟨StableHlo.devRef_mem_tcRefs b, hb⟩)).trans (congrFun (V11_eq m c).symm _)
  exact ⟨(harg main_v42 (by decide)).trans (congrFun (V11_eq m c) _),
    (harg main_arg0 (by decide)).trans (V11_main_arg0 m (outs m) c),
    (harg main_arg1 (by decide)).trans (V11_main_arg1 m (outs m) c),
    (harg main_arg2 (by decide)).trans (V11_main_arg2 m (outs m) c),
    (harg main_arg3 (by decide)).trans (V11_main_arg3 m (outs m) c),
    (harg main_arg4 (by decide)).trans (V11_main_arg4 m (outs m) c),
    (harg main_arg5 (by decide)).trans (V11_main_arg5 m (outs m) c),
    (harg main_arg6 (by decide)).trans (V11_main_arg6 m (outs m) c),
    (harg main_arg7 (by decide)).trans (V11_main_arg7 m (outs m) c)⟩
theorem frame : θ_run defs (onTc (τ := τ) (main (F := F))) ⟨m, fun _ => 0, ρ⟩ (fun r => ∀ c : Dev nD, ArgsKept m r.2.mem c) :=
  (θ_run defs _ _).mono (fun r hr c => (hr c).2) (run_value m ρ)
end Cert.ReferenceIdeal.Hand
end
-- ==== Proof.KI.Host.lean ====
import proofs.«153234_g2000604307514898_pallasbulk_606_4_alg».proof.Proof.Gen.KernelIdeal.Regions
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (outs : Outs (F := F))

def countsK (e : IVec S2x40000 32) : FVec F S4096x4096 .f32 :=
  let src : IVec S40000 32 :=
    shapeCast S40000 (extractStridedSlice S1x40000 ![0, 0] e slices_S2x40000_S1x40000_0_0) shapeCasts_S1x40000_S40000
  let dst : IVec S40000 32 :=
    shapeCast S40000 (extractStridedSlice S1x40000 ![1, 0] e slices_S2x40000_S1x40000_1_0) shapeCasts_S1x40000_S40000
  let nodes : IVec S4096 32 := iotaInDim S4096 32 0
  let rows : IVec S44096 32 :=
    concatenate S44096 0 [⟨S40000, dst⟩, ⟨S4096, nodes⟩] concatenates_S40000_S4096_S44096_d0
  let cols : IVec S44096 32 :=
    concatenate S44096 0 [⟨S40000, src⟩, ⟨S4096, nodes⟩] concatenates_S40000_S4096_S44096_d0
  let ones : FVec F S44096 .f32 :=
    broadcastInDim S44096 ![] bcast_S_S44096 (constant (F := F) S_ .f32 0x3F800000#32)
  let zeros : FVec F S4096x4096 .f32 :=
    broadcastInDim S4096x4096 ![] bcast_S_S4096x4096 (constant (F := F) S_ .f32 0x00000000#32)
  let rows' : IVec S44096 32 :=
    select (cmpi .slt rows (broadcastInDim S44096 ![] bcast_S_S44096 (constantI S_ 32 0#32)))
      (addi rows (broadcastInDim S44096 ![] bcast_S_S44096 (constantI S_ 32 4096#32))) rows
  let cols' : IVec S44096 32 :=
    select (cmpi .slt cols (broadcastInDim S44096 ![] bcast_S_S44096 (constantI S_ 32 0#32)))
      (addi cols (broadcastInDim S44096 ![] bcast_S_S44096 (constantI S_ 32 4096#32))) cols
  let at_ : IVec S44096x2 32 :=
    concatenate S44096x2 1
      [⟨S44096x1, broadcastInDim S44096x1 ![0] bcast_S44096_S44096x1_0 rows'⟩,
       ⟨S44096x1, broadcastInDim S44096x1 ![0] bcast_S44096_S44096x1_0 cols'⟩]
      concatenates_S44096x1_S44096x1_S44096x2_d1
  Host.scatterAdd scatter_S4096x4096_S44096x2_S44096_n_01_01_1 zeros at_ ones

def floorModK (x : IVec S40000 32) (n : IVec S_ 32) : IVec S40000 32 :=
  let isZero : IVec S_ 1 := cmpi .eq n (constantI S_ 32 0#32)
  let n' : IVec S_ 32 := select isZero (constantI S_ 32 1#32) n
  let r : IVec S40000 32 := Host.remsi x (broadcastInDim S40000 ![] bcast_S_S40000 n')
  let nonzero : IVec S40000 1 :=
    cmpi .ne r (broadcastInDim S40000 ![] bcast_S_S40000 (constantI S_ 32 0#32))
  let rNeg : IVec S40000 1 :=
    cmpi .slt r (broadcastInDim S40000 ![] bcast_S_S40000 (constantI S_ 32 0#32))
  let nNeg : IVec S40000 1 :=
    broadcastInDim S40000 ![] bcast_S_S40000 (cmpi .slt n' (constantI S_ 32 0#32))
  let shift : IVec S40000 1 := andi (cmpi .ne rNeg nNeg) nonzero
  select shift (addi r (broadcastInDim S40000 ![] bcast_S_S40000 n')) r

def dinvOfK (dst lane : IVec S40000 32) (ones : FVec F S40000 .f32) (zeros : FVec F S4096x128 .f32) :
    FVec F S4096x1 .f32 :=
  let dst' : IVec S40000 32 :=
    select (cmpi .slt dst (broadcastInDim S40000 ![] bcast_S_S40000 (constantI S_ 32 0#32)))
      (addi dst (broadcastInDim S40000 ![] bcast_S_S40000 (constantI S_ 32 4096#32))) dst
  let lane' : IVec S40000 32 :=
    select (cmpi .slt lane (broadcastInDim S40000 ![] bcast_S_S40000 (constantI S_ 32 0#32)))
      (addi lane (broadcastInDim S40000 ![] bcast_S_S40000 (constantI S_ 32 128#32))) lane
  let at_ : IVec S40000x2 32 :=
    concatenate S40000x2 1
      [⟨S40000x1, broadcastInDim S40000x1 ![0] bcast_S40000_S40000x1_0 dst'⟩,
       ⟨S40000x1, broadcastInDim S40000x1 ![0] bcast_S40000_S40000x1_0 lane'⟩]
      concatenates_S40000x1_S40000x1_S40000x2_d1
  let spread : FVec F S4096x128 .f32 :=
    Host.scatterAdd scatter_S4096x128_S40000x2_S40000_n_01_01_1 zeros at_ ones
  let inDeg : FVec F S4096 .f32 :=
    Host.reduceAdd spread (constant (F := F) S_ .f32 0x00000000#32) reducesTo_S4096x128_S4096_d1 h_S_
  let deg : FVec F S4096 .f32 :=
    addf inDeg (broadcastInDim S4096 ![] bcast_S_S4096 (constant (F := F) S_ .f32 0x3F800000#32))
  broadcastInDim S4096x1 ![0] bcast_S4096_S4096x1_0 (Host.rsqrt deg)

def dinvK (e : IVec S2x40000 32) : FVec F S4096x1 .f32 :=
  let dst : IVec S40000 32 :=
    shapeCast S40000 (extractStridedSlice S1x40000 ![1, 0] e slices_S2x40000_S1x40000_1_0) shapeCasts_S1x40000_S40000
  dinvOfK dst (floorModK dst (id (constantI S_ 32 128#32)))
    (broadcastInDim S40000 ![] bcast_S_S40000 (constant (F := F) S_ .f32 0x3F800000#32))
    (broadcastInDim S4096x128 ![] bcast_S_S4096x128 (constant (F := F) S_ .f32 0x00000000#32))

theorem V1_v0 (c : Dev nD) :
    V1 m c main_v0 = truncf .bf16 (m ((c : Thread nD τ).loc main_arg2)) bitsLt_bf16_f32 := by
  dsimp only [V1, V0, hostOps0]; after_results
theorem V1_v1 (c : Dev nD) :
    V1 m c main_v1 = truncf .bf16 (m ((c : Thread nD τ).loc main_arg3)) bitsLt_bf16_f32 := by
  dsimp only [V1, V0, hostOps0]; after_results
theorem V1_v2 (c : Dev nD) :
    V1 m c main_v2 = truncf .bf16 (m ((c : Thread nD τ).loc main_arg4)) bitsLt_bf16_f32 := by
  dsimp only [V1, V0, hostOps0]; after_results

set_option maxHeartbeats 4000000 in

theorem V5_v26 (c : Dev nD) : V5 m outs c main_v26 = countsK (m ((c : Thread nD τ).loc main_arg1)) := by
  rw [V5_of m outs c main_v26 (by decide), V4_of m outs c main_v26 (by decide)]
  dsimp only [V3, hostOps1]
  after_results
  rw [V2_of m outs c main_arg1 (by decide), V1_of m c main_arg1 (by decide)]
  rfl

section Stretches

variable (W : Valuation τ sig (Elt F))

theorem hostOps1_v7 : StableHlo.after hostOps1 W (Proc.devRef .tc main_v7)
    = (shapeCast S40000 (extractStridedSlice S1x40000 ![1, 0] (W (Proc.devRef .tc main_arg1) : IVec S2x40000 32)
        slices_S2x40000_S1x40000_1_0) shapeCasts_S1x40000_S40000 : IVec S40000 32) := by
  dsimp only [hostOps1]; after_results; rfl

theorem hostOps1_v27 : StableHlo.after hostOps1 W (Proc.devRef .tc main_v27)
    = (broadcastInDim S40000 ![] bcast_S_S40000 (constant (F := F) S_ .f32 0x3F800000#32) : FVec F S40000 .f32) := by
  dsimp only [hostOps1]; after_results

theorem hostOps1_v28 : StableHlo.after hostOps1 W (Proc.devRef .tc main_v28)
    = (broadcastInDim S4096x128 ![] bcast_S_S4096x128 (constant (F := F) S_ .f32 0x00000000#32) : FVec F S4096x128 .f32) := by
  dsimp only [hostOps1]; after_results

theorem hostOps1_c_6 : StableHlo.after hostOps1 W (Proc.devRef .tc main_c_6) = (constantI S_ 32 128#32 : IVec S_ 32) := by
  dsimp only [hostOps1]; after_results

set_option maxHeartbeats 2000000 in

theorem hostOps1_1_v29 : StableHlo.after hostOps1_1 W (Proc.devRef .tc main_v29)
    = floorModK (W (Proc.devRef .tc main_v7)) (W (Proc.devRef .tc main_c_6)) := by
  dsimp only [hostOps1_1]; after_results; rfl

set_option maxHeartbeats 2000000 in

theorem hostOps1_2_v48 : StableHlo.after hostOps1_2 W (Proc.devRef .tc main_v48)
    = dinvOfK (W (Proc.devRef .tc main_v7)) (W (Proc.devRef .tc main_v29)) (W (Proc.devRef .tc main_v27))
        (W (Proc.devRef .tc main_v28)) := by
  dsimp only [hostOps1_2]; after_results; rfl

end Stretches

theorem V5_v48 (c : Dev nD) : V5 m outs c main_v48 = dinvK (m ((c : Thread nD τ).loc main_arg1)) := by
  have e1 : V2 m outs c main_arg1 = m ((c : Thread nD τ).loc main_arg1) :=
    (V2_of m outs c main_arg1 (by decide)).trans ((V1_of m c main_arg1 (by decide)).trans rfl)
  have h7' : V3 m outs c main_v7 = _ := hostOps1_v7 (V2 m outs c)
  have h6 : V3 m outs c main_c_6 = _ := hostOps1_c_6 (V2 m outs c)
  have h7 : V4 m outs c main_v7 = _ := (V4_of m outs c main_v7 (by decide)).trans h7'
  have h27 : V4 m outs c main_v27 = _ := (V4_of m outs c main_v27 (by decide)).trans (hostOps1_v27 (V2 m outs c))
  have h28 : V4 m outs c main_v28 = _ := (V4_of m outs c main_v28 (by decide)).trans (hostOps1_v28 (V2 m outs c))
  have h29 : V4 m outs c main_v29 = _ := hostOps1_1_v29 (V3 m outs c)
  rw [show V5 m outs c main_v48 = _ from hostOps1_2_v48 (V4 m outs c), h7, h27, h28, h29, h7', h6, e1]
  rfl

theorem V5_keep (c : Dev nD) (r : Ref sig .tc) (h3 : r ∉ hostOps1_W) (h4 : r ∉ hostOps1_1_W) (h5 : r ∉ hostOps1_2_W) :
    V5 m outs c r = V2 m outs c r :=
  (V5_of m outs c r h5).trans <| (V4_of m outs c r h4).trans (V3_of m outs c r h3)

end Cert.KernelIdeal.Hand

end
-- ==== Proof.KI.Value.lean ====
import proofs.«153234_g2000604307514898_pallasbulk_606_4_alg».proof.Proof.KI.Run
import proofs.«153234_g2000604307514898_pallasbulk_606_4_alg».proof.Proof.KI.Host
import proofs.«153234_g2000604307514898_pallasbulk_606_4_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf Seg HostSeg RegionSeg)

section AtIdeal

variable (m : (ℓ : Loc nD τ sig) → Buf (Elt Ideal) ℓ)

def featsK (a0 : FVec Ideal S4096x1536 .f32) (a2 : FVec Ideal S1536x512 .f32) (a3 : FVec Ideal S512x256 .f32)
    (a4 : FVec Ideal S256x128 .f32) (a5 : FVec Ideal S1x512 .f32) (a6 : FVec Ideal S1x256 .f32) (a7 : FVec Ideal S1x128 .f32) :
    S4096x128.Idx → EReal :=
  Cert.Spec.mlp a0 (truncf .bf16 a2 bitsLt_bf16_f32) a5 (truncf .bf16 a3 bitsLt_bf16_f32) a6 (truncf .bf16 a4 bitsLt_bf16_f32) a7

def resultK (a0 : FVec Ideal S4096x1536 .f32) (a1 : IVec S2x40000 32) (a2 : FVec Ideal S1536x512 .f32) (a3 : FVec Ideal S512x256 .f32)
    (a4 : FVec Ideal S256x128 .f32) (a5 : FVec Ideal S1x512 .f32) (a6 : FVec Ideal S1x256 .f32) (a7 : FVec Ideal S1x128 .f32) :
    S4096x128.Idx → EReal :=
  let x0 := Cert.Spec.mlp a0 (truncf .bf16 a2 bitsLt_bf16_f32) a5 (truncf .bf16 a3 bitsLt_bf16_f32) a6 (truncf .bf16 a4 bitsLt_bf16_f32) a7
  Cert.Spec.propK (countsK (F := Ideal) a1) (Cert.Spec.propK (countsK (F := Ideal) a1) x0 (dinvK (F := Ideal) a1) x0) (dinvK (F := Ideal) a1) x0

theorem resultK_eq (a0 : FVec Ideal S4096x1536 .f32) (a1 : IVec S2x40000 32) (a2 : FVec Ideal S1536x512 .f32) (a3 : FVec Ideal S512x256 .f32)
    (a4 : FVec Ideal S256x128 .f32) (a5 : FVec Ideal S1x512 .f32) (a6 : FVec Ideal S1x256 .f32) (a7 : FVec Ideal S1x128 .f32) :
    resultK a0 a1 a2 a3 a4 a5 a6 a7
      = Cert.Spec.propK (countsK (F := Ideal) a1)
          (Cert.Spec.propK (countsK (F := Ideal) a1) (featsK a0 a2 a3 a4 a5 a6 a7) (dinvK (F := Ideal) a1) (featsK a0 a2 a3 a4 a5 a6 a7))
          (dinvK (F := Ideal) a1) (featsK a0 a2 a3 a4 a5 a6 a7) := rfl

theorem propK_congr {N Fd : Nat} {C C' : (Cert.Spec.M N N).Idx → EReal} {h h' : (Cert.Spec.M N Fd).Idx → EReal}
    {d d' : (Cert.Spec.M N 1).Idx → EReal} {x0 x0' : (Cert.Spec.M N Fd).Idx → EReal}
    (hC : C = C') (hh : h = h') (hd : d = d') (hx : x0 = x0') : Cert.Spec.propK C h d x0 = Cert.Spec.propK C' h' d' x0' := by
  subst hC hh hd hx; rfl

theorem mlp_congr {R K0 K1 K2 K3 : Nat} {x x' : (Cert.Spec.M R K0).Idx → EReal} {w0 w0' : (Cert.Spec.M K0 K1).Idx → EReal}
    {b0 b0' : (Cert.Spec.M 1 K1).Idx → EReal} {w1 w1' : (Cert.Spec.M K1 K2).Idx → EReal} {b1 b1' : (Cert.Spec.M 1 K2).Idx → EReal}
    {w2 w2' : (Cert.Spec.M K2 K3).Idx → EReal} {b2 b2' : (Cert.Spec.M 1 K3).Idx → EReal}
    (hx : x = x') (hw0 : w0 = w0') (hb0 : b0 = b0') (hw1 : w1 = w1') (hb1 : b1 = b1') (hw2 : w2 = w2') (hb2 : b2 = b2') :
    Cert.Spec.mlp x w0 b0 w1 b1 w2 b2 = Cert.Spec.mlp x' w0' b0' w1' b1' w2' b2' := by
  subst hx hw0 hb0 hw1 hb1 hw2 hb2; rfl

theorem entry1_counts (c : Dev nD) :
    (U5 m c main_v26 : S4096x4096.Idx → EReal) = countsK (F := Ideal) (m ((c.tc : Thread nD τ).loc main_arg1)) := by
  rw [← V5_eq m c]; exact V5_v26 m (outs m) c

theorem entry1_dinv (c : Dev nD) :
    (U5 m c main_v48 : S4096x1.Idx → EReal) = dinvK (F := Ideal) (m ((c.tc : Thread nD τ).loc main_arg1)) := by
  rw [← V5_eq m c]; exact V5_v48 m (outs m) c

theorem entry1_feats (c : Dev nD) :
    (U5 m c main_v3 : S4096x128.Idx → EReal)
      = featsK (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) := by
  rw [← V5_eq m c, V5_keep m (outs m) c main_v3 (by decide) (by decide) (by decide), V2_eq m c, U2_v3 m c]
  exact (value0 (atRefs (V1 m)) qs0 c).trans
    (mlp_congr (V1_of m c main_arg0 (by decide)) (V1_v0 m c) (V1_of m c main_arg5 (by decide)) (V1_v1 m c)
      (V1_of m c main_arg6 (by decide)) (V1_v2 m c) (V1_of m c main_arg7 (by decide)))

theorem entry2_counts (c : Dev nD) :
    (U6 m c main_v26 : S4096x4096.Idx → EReal) = countsK (F := Ideal) (m ((c.tc : Thread nD τ).loc main_arg1)) :=
  (U6_of_ne m c main_v26 (by decide)).trans (entry1_counts m c)

theorem entry2_dinv (c : Dev nD) :
    (U6 m c main_v48 : S4096x1.Idx → EReal) = dinvK (F := Ideal) (m ((c.tc : Thread nD τ).loc main_arg1)) :=
  (U6_of_ne m c main_v48 (by decide)).trans (entry1_dinv m c)

theorem entry2_feats (c : Dev nD) :
    (U6 m c main_v3 : S4096x128.Idx → EReal)
      = featsK (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) :=
  (U6_of_ne m c main_v3 (by decide)).trans (entry1_feats m c)

theorem entry2_step (c : Dev nD) :
    (U6 m c main_v49 : S4096x128.Idx → EReal)
      = Cert.Spec.propK (countsK (F := Ideal) (m ((c.tc : Thread nD τ).loc main_arg1)))
          (featsK (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7)))
          (dinvK (F := Ideal) (m ((c.tc : Thread nD τ).loc main_arg1)))
          (featsK (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7))) := by
  rw [U6_v49 m c]
  exact (value1 (atRefs (U5 m)) qs1 c).trans
    (propK_congr (entry1_counts m c) (entry1_feats m c) (entry1_dinv m c) (entry1_feats m c))

theorem U7_result (c : Dev nD) :
    (U7 m c main_v50 : S4096x128.Idx → EReal)
      = resultK (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rw [U7_v50 m c, resultK_eq]
  exact (value2 (atRefs (U6 m)) qs2 c).trans
    (propK_congr (entry2_counts m c) (entry2_step m c) (entry2_dinv m c) (entry2_feats m c))

end AtIdeal

end Cert.KernelIdeal.Hand

end
-- ==== Proof.RI.Host.lean ====
import proofs.«153234_g2000604307514898_pallasbulk_606_4_alg».proof.Proof.Gen.ReferenceIdeal.Regions
import proofs.«153234_g2000604307514898_pallasbulk_606_4_alg».proof.Proof.Spec
import Idealize.ShloMosaic.Lib.StableHlo.Run
import Idealize.ShloMosaic.Lib.ValueIdx
import Idealize.ShloMosaic.Lib.Pipeline.Value
import Idealize.ShloMosaic.Lib.KernelVsHost

noncomputable section

namespace Cert.ReferenceIdeal.Hand

open Idealize.ShloMosaic Idealize.ShloMosaic.TcCoe
open Idealize.ShloMosaic.ValueIdx
open Cert.ReferenceIdeal Cert.ReferenceIdeal.Gen

variable (m : (ℓ : Loc nD τ sig) → Buf (Elt Ideal) ℓ) (outs : Outs (F := Ideal))

namespace HostStretch

theorem foldl_write_at {α : Type} {s : Shape} (upd : s.Idx → α)
    (g : (s.Idx → α) → Fin s.numel → (s.Idx → α))
    (hg : ∀ r n, g r n = fun i' => if i' = s.rowMajor.symm n then upd (s.rowMajor.symm n) else r i') :
    ∀ (L : List (Fin s.numel)) (r : s.Idx → α) (i' : s.Idx),
      (L.foldl g r) i' = if s.rowMajor i' ∈ L then upd i' else r i'
  | [], r, i' => by simp
  | n :: L, r, i' => by
    rw [List.foldl_cons, foldl_write_at upd g hg L, hg]
    dsimp only
    by_cases hL : s.rowMajor i' ∈ L
    · rw [if_pos hL, if_pos (List.mem_cons_of_mem _ hL)]
    · rw [if_neg hL]
      by_cases hn : i' = s.rowMajor.symm n
      · subst hn
        simp
      · have hne : s.rowMajor i' ≠ n := fun e => hn (by rw [← e, Equiv.symm_apply_apply])
        rw [if_neg hn, if_neg (by simp [hne, hL])]

theorem scatter_set_eq_update {α : Type} {s si : Shape} {w : Nat} (d : ScatterDims s si s) (x upd : s.Idx → α)
    (idx : IVec si w) (h : ∀ j, d.resultIdx? j idx = some j) :
    Host.scatter d (fun _ b => b) x idx upd = upd := by
  funext i'
  unfold Host.scatter
  rw [foldl_write_at upd _ (fun r n => by simp only [h]) (List.finRange s.numel) x i']
  simp

theorem resultIdx_whole {w : Nat} (j : S4096x1536.Idx) (idx : IVec S0 w) :
    scatter_S4096x1536_S0_S4096x1536_01_n_n_0.resultIdx? j idx = some j := by
  have hs : ∀ a, scatter_S4096x1536_S0_S4096x1536_01_n_n_0.start j idx a = 0 := fun a => by
    unfold ScatterDims.start
    exact dif_neg (List.not_mem_nil)
  have hw : ∀ a, scatter_S4096x1536_S0_S4096x1536_01_n_n_0.window j a = (j a).val := fun a => by
    fin_cases a <;> rfl
  unfold ScatterDims.resultIdx?
  rw [dif_pos (fun a => by rw [hs, hw]; have := (j a).isLt; omega)]
  congr 1
  funext a
  apply Fin.ext
  simp only [hs, hw]
  omega

end HostStretch
open HostStretch

theorem V1_v1 (c : Dev nD) : V1 m c main_v1 = m ((c : Thread nD τ).loc main_arg0) := by
  dsimp only [V1, hostOps0]
  after_results
  exact scatter_set_eq_update _ _ _ _ (fun j => resultIdx_whole j _)

def srcR (e : IVec S2x40000 32) : IVec S40000 32 :=
  shapeCast S40000 (extractStridedSlice S1x40000 ![0, 0] e slices_S2x40000_S1x40000_0_0) shapeCasts_S1x40000_S40000

def dstR (e : IVec S2x40000 32) : IVec S40000 32 :=
  shapeCast S40000 (extractStridedSlice S1x40000 ![1, 0] e slices_S2x40000_S1x40000_1_0) shapeCasts_S1x40000_S40000

def withLoops (a : IVec S40000 32) : IVec S44096 32 :=
  concatenate S44096 0 [⟨S40000, a⟩, ⟨S4096, iotaInDim S4096 32 0⟩] concatenates_S40000_S4096_S44096_d0

def wrapR (a : IVec S44096 32) : IVec S44096 32 :=
  select (cmpi .slt a (broadcastInDim S44096 ![] bcast_S_S44096 (constantI S_ 32 0#32)))
    (addi a (broadcastInDim S44096 ![] bcast_S_S44096 (constantI S_ 32 4096#32))) a

def idxR (e : IVec S2x40000 32) : IVec S44096x2 32 :=
  concatenate S44096x2 1
    [⟨S44096x1, broadcastInDim S44096x1 ![0] bcast_S44096_S44096x1_0 (wrapR (withLoops (dstR e)))⟩,
     ⟨S44096x1, broadcastInDim S44096x1 ![0] bcast_S44096_S44096x1_0 (wrapR (withLoops (srcR e)))⟩]
    concatenates_S44096x1_S44096x1_S44096x2_d1

def countsR (e : IVec S2x40000 32) : FVec Ideal S4096x4096 .f32 :=
  Host.scatterAdd scatter_S4096x4096_S44096x2_S44096_n_01_01_1
    (broadcastInDim S4096x4096 ![] bcast_S_S4096x4096 (constant S_ .f32 0x00000000#32))
    (idxR e)
    (broadcastInDim S44096 ![] bcast_S_S44096 (constant S_ .f32 0x3F800000#32))

def degR (e : IVec S2x40000 32) : FVec Ideal S4096 .f32 :=
  Host.reduceAdd (countsR e) (constant S_ .f32 0x00000000#32) reducesTo_S4096x4096_S4096_d1 h_S_

def dinvR (e : IVec S2x40000 32) : FVec Ideal S4096 .f32 :=
  select (cmpf .ogt (degR e) (broadcastInDim S4096 ![] bcast_S_S4096 (constant S_ .f32 0x00000000#32)))
    (Host.rsqrt (degR e))
    (broadcastInDim S4096 ![] bcast_S_S4096 (id (constant S_ .f32 0x00000000#32)))

def scaledR (e : IVec S2x40000 32) : FVec Ideal S4096x4096 .f32 :=
  mulf
    (mulf (broadcastInDim S4096x4096 ![0, 1] bcast_S4096x1_S4096x4096_0_1 (broadcastInDim S4096x1 ![0] bcast_S4096_S4096x1_0 (dinvR e)))
      (countsR e))
    (broadcastInDim S4096x4096 ![0, 1] bcast_S1x4096_S4096x4096_0_1 (broadcastInDim S1x4096 ![1] bcast_S4096_S1x4096_1 (dinvR e)))

def ahatR (e : IVec S2x40000 32) : FVec Ideal S4096x4096 .bf16 :=
  truncf .bf16
    (pad S4096x4096 ![0, 0] ![0, 0] ![0, 0] (scaledR e) (sitofp .f32 (constantI S_ 32 0#32) : FVec Ideal S_ .f32)
      pads_S4096x4096_S4096x4096_000_000 h_S_)
    bitsLt_bf16_f32

namespace HostStretch

theorem colBcast_apply {α : Type} (d : S4096.Idx → α) (i : S4096x4096.Idx) :
    broadcastInDim S4096x4096 ![0, 1] bcast_S4096x1_S4096x4096_0_1 (broadcastInDim S4096x1 ![0] bcast_S4096_S4096x1_0 d) i
      = d (ix1 (i 0)) :=
  (broadcastInDim_apply _ _ _ i (ix2 (i 0) (0 : Fin 1)) (fun a => by match a with | ⟨0, _⟩ => rfl | ⟨1, _⟩ => rfl)).trans
    (broadcastInDim_apply _ _ _ _ (ix1 (i 0)) (fun a => by match a with | ⟨0, _⟩ => rfl))

theorem rowBcast_apply {α : Type} (d : S4096.Idx → α) (i : S4096x4096.Idx) :
    broadcastInDim S4096x4096 ![0, 1] bcast_S1x4096_S4096x4096_0_1 (broadcastInDim S1x4096 ![1] bcast_S4096_S1x4096_1 d) i
      = d (ix1 (i 1)) :=
  (broadcastInDim_apply _ _ _ i (ix2 (0 : Fin 1) (i 1)) (fun a => by match a with | ⟨0, _⟩ => rfl | ⟨1, _⟩ => rfl)).trans
    (broadcastInDim_apply _ _ _ _ (ix1 (i 1)) (fun a => by match a with | ⟨0, _⟩ => rfl))

end HostStretch
open HostStretch

theorem ahatR_eq (e : IVec S2x40000 32) :
    (ahatR e : S4096x4096.Idx → EReal) = Cert.Spec.ahat (dinvR e) (countsR e) := by
  funext i
  unfold ahatR Cert.Spec.ahat scaledR
  rw [truncf_apply]
  rw [pad_apply_of_inside ![0, 0] ![0, 0] ![0, 0] _ _ pads_S4096x4096_S4096x4096_000_000 h_S_ i i
    (fun a => by match a with | ⟨0, _⟩ => simp | ⟨1, _⟩ => simp)]
  rw [mulf_apply, mulf_apply, colBcast_apply, rowBcast_apply]

namespace HostStretch

local macro "results_rw" : tactic =>
  `(tactic| (repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide))))

theorem where_result (W : Valuation τ sig (Elt Ideal)) :
    (StableHlo.after hostOps3_1 W main_v32 : FVec Ideal S4096 .f32)
      = select (W main_v30) (W main_v31) (broadcastInDim S4096 ![] bcast_S_S4096 (id (W main_cst_8))) := by
  dsimp only [hostOps3_1]
  after_results
  rfl

theorem scale_result (W : Valuation τ sig (Elt Ideal)) :
    (StableHlo.after hostOps3_2 W main_v38 : FVec Ideal S4096x4096 .f32)
      = (mulf
          (mulf (broadcastInDim S4096x4096 ![0, 1] bcast_S4096x1_S4096x4096_0_1
              (broadcastInDim S4096x1 ![0] bcast_S4096_S4096x1_0 (W main_v32 : FVec Ideal S4096 .f32)))
            (W main_v27 : FVec Ideal S4096x4096 .f32))
          (broadcastInDim S4096x4096 ![0, 1] bcast_S1x4096_S4096x4096_0_1
            (broadcastInDim S1x4096 ![1] bcast_S4096_S1x4096_1 (W main_v32 : FVec Ideal S4096 .f32)))
          : FVec Ideal S4096x4096 .f32) := by
  dsimp only [hostOps3_2]
  after_results

theorem c9_result (W : Valuation τ sig (Elt Ideal)) :
    (StableHlo.after hostOps3_2 W main_c_9 : IVec S_ 32) = constantI S_ 32 0#32 := by
  dsimp only [hostOps3_2]
  after_results

theorem pad_result (W : Valuation τ sig (Elt Ideal)) :
    (StableHlo.after hostOps3_3 W main_v39 : FVec Ideal S4096x4096 .f32)
      = pad S4096x4096 ![0, 0] ![0, 0] ![0, 0] (W main_v38 : FVec Ideal S4096x4096 .f32)
          (sitofp .f32 (W main_c_9 : IVec S_ 32) : FVec Ideal S_ .f32)
          pads_S4096x4096_S4096x4096_000_000 h_S_ := by
  dsimp only [hostOps3_3]
  after_results
  rfl

theorem cast_result (W : Valuation τ sig (Elt Ideal)) :
    (StableHlo.after hostOps3_4 W main_v40 : FVec Ideal S4096x4096 .bf16)
      = (truncf .bf16 (W main_v39 : FVec Ideal S4096x4096 .f32) bitsLt_bf16_f32 : FVec Ideal S4096x4096 .bf16) := by
  dsimp only [hostOps3_4]
  after_results

set_option maxHeartbeats 8000000 in

theorem long_result (W : Valuation τ sig (Elt Ideal)) :
    (StableHlo.after hostOps3 W main_v27 : FVec Ideal S4096x4096 .f32) = countsR (W main_arg1 : IVec S2x40000 32)
    ∧ (StableHlo.after hostOps3 W main_v30 : IVec S4096 1)
        = cmpf .ogt (degR (W main_arg1 : IVec S2x40000 32))
            (broadcastInDim S4096 ![] bcast_S_S4096 (constant S_ .f32 0x00000000#32) : FVec Ideal S4096 .f32)
    ∧ (StableHlo.after hostOps3 W main_v31 : FVec Ideal S4096 .f32) = Host.rsqrt (degR (W main_arg1 : IVec S2x40000 32))
    ∧ (StableHlo.after hostOps3 W main_cst_8 : FVec Ideal S_ .f32) = (constant S_ .f32 0x00000000#32 : FVec Ideal S_ .f32) := by
  dsimp only [hostOps3]
  after_results_simp
  results_rw
  refine ⟨rfl, rfl, rfl, ?_⟩
  first | trivial | rfl

theorem V4_arg1 (c : Dev nD) : V4 m outs c main_arg1 = m ((c : Thread nD τ).loc main_arg1) :=
  (V4_of m outs c main_arg1 (by decide)).trans <| (V3_of m outs c main_arg1 (by decide)).trans <|
    (V2_of m outs c main_arg1 (by decide)).trans <| (V1_of m c main_arg1 (by decide)).trans rfl

end HostStretch
open HostStretch

theorem V5_reads (c : Dev nD) :
    V5 m outs c main_v27 = countsR (m ((c : Thread nD τ).loc main_arg1))
    ∧ V5 m outs c main_v30
        = cmpf .ogt (degR (m ((c : Thread nD τ).loc main_arg1)))
            (broadcastInDim S4096 ![] bcast_S_S4096 (constant S_ .f32 0x00000000#32) : FVec Ideal S4096 .f32)
    ∧ V5 m outs c main_v31 = Host.rsqrt (degR (m ((c : Thread nD τ).loc main_arg1)))
    ∧ V5 m outs c main_cst_8 = (constant S_ .f32 0x00000000#32 : FVec Ideal S_ .f32) := by
  have h := long_result (V4 m outs c)
  rw [V4_arg1] at h
  exact h

theorem V6_v32 (c : Dev nD) : V6 m outs c main_v32 = dinvR (m ((c : Thread nD τ).loc main_arg1)) := by
  have h5 := V5_reads m outs c
  have h := where_result (V5 m outs c)
  rw [h5.2.1, h5.2.2.1, h5.2.2.2] at h
  exact h

theorem V6_v27 (c : Dev nD) : V6 m outs c main_v27 = countsR (m ((c : Thread nD τ).loc main_arg1)) :=
  (V6_of m outs c main_v27 (by decide)).trans (V5_reads m outs c).1

theorem V7_v38 (c : Dev nD) : V7 m outs c main_v38 = scaledR (m ((c : Thread nD τ).loc main_arg1)) := by
  have h := scale_result (V6 m outs c)
  rw [V6_v32, V6_v27] at h
  exact h

theorem V8_v39 (c : Dev nD) :
    V8 m outs c main_v39
      = pad S4096x4096 ![0, 0] ![0, 0] ![0, 0] (scaledR (m ((c : Thread nD τ).loc main_arg1)))
          (sitofp .f32 (constantI S_ 32 0#32) : FVec Ideal S_ .f32) pads_S4096x4096_S4096x4096_000_000 h_S_ := by
  have h := pad_result (V7 m outs c)
  rw [V7_v38, show V7 m outs c main_c_9 = _ from c9_result (V6 m outs c)] at h
  exact h

theorem V9_v40 (c : Dev nD) : V9 m outs c main_v40 = ahatR (m ((c : Thread nD τ).loc main_arg1)) := by
  have h := cast_result (V8 m outs c)
  rw [V8_v39] at h
  exact h

theorem V9_keep (c : Dev nD) (r : Ref sig .tc)
    (h : r ∉ hostOps3_W ∧ r ∉ hostOps3_1_W ∧ r ∉ hostOps3_2_W ∧ r ∉ hostOps3_3_W ∧ r ∉ hostOps3_4_W) :
    V9 m outs c r = V4 m outs c r :=
  (V9_of m outs c r h.2.2.2.2).trans <| (V8_of m outs c r h.2.2.2.1).trans <| (V7_of m outs c r h.2.2.1).trans <|
    (V6_of m outs c r h.2.1).trans (V5_of m outs c r h.1)

end Cert.ReferenceIdeal.Hand

end
-- ==== Proof.RI.Value.lean ====
import proofs.«153234_g2000604307514898_pallasbulk_606_4_alg».proof.Proof.RI.Run
import proofs.«153234_g2000604307514898_pallasbulk_606_4_alg».proof.Proof.RI.Host
import proofs.«153234_g2000604307514898_pallasbulk_606_4_alg».proof.Proof.Spec

set_option maxRecDepth 16384

noncomputable section

namespace Cert.ReferenceIdeal.Hand

open Cert.ReferenceIdeal Cert.ReferenceIdeal.Gen
open Idealize.ShloMosaic Idealize.ShloMosaic.TcCoe
open Idealize.SL Idealize.SL.RA Idealize.SL.BI
open Idealize.SL.Sem
open Idealize.ShloMosaic.Pipeline (Dat Cfg Window)

variable (m : (ℓ : Loc nD τ sig) → Buf (Elt Ideal) ℓ)

def resultR (a0 : FVec Ideal S4096x1536 .f32) (a1 : IVec S2x40000 32) (a2 : FVec Ideal S1536x512 .f32) (a3 : FVec Ideal S512x256 .f32)
    (a4 : FVec Ideal S256x128 .f32) (a5 : FVec Ideal S1x512 .f32) (a6 : FVec Ideal S1x256 .f32) (a7 : FVec Ideal S1x128 .f32) :
    S4096x128.Idx → EReal :=
  let x0 := Cert.Spec.mlp a0 a2 a5 a3 a6 a4 a7
  Cert.Spec.stepR (ahatR a1) (Cert.Spec.stepR (ahatR a1) x0 x0) x0

namespace ReadBack

theorem lin_of_eq {R K N : Nat} {x x' : (Cert.Spec.M R K).Idx → EReal} {w w' : (Cert.Spec.M K N).Idx → EReal}
    {b b' : (Cert.Spec.M 1 N).Idx → EReal} (hx : x = x') (hw : w = w') (hb : b = b') :
    Cert.Spec.lin x w b = Cert.Spec.lin x' w' b' := by subst hx hw hb; rfl

theorem stepR_of_eq {N Fd : Nat} {A A' : (Cert.Spec.M N N).Idx → EReal} {h h' x x' : (Cert.Spec.M N Fd).Idx → EReal}
    (hA : A = A') (hh : h = h') (hx : x = x') : Cert.Spec.stepR A h x = Cert.Spec.stepR A' h' x' := by subst hA hh hx; rfl

abbrev features₀ (c : Dev nD) : S4096x1536.Idx → EReal := m ((c : Thread nD τ).loc main_arg0)
abbrev edges₀ (c : Dev nD) : IVec S2x40000 32 := m ((c : Thread nD τ).loc main_arg1)
abbrev weights₀ (c : Dev nD) : S1536x512.Idx → EReal := m ((c : Thread nD τ).loc main_arg2)
abbrev weights₁ (c : Dev nD) : S512x256.Idx → EReal := m ((c : Thread nD τ).loc main_arg3)
abbrev weights₂ (c : Dev nD) : S256x128.Idx → EReal := m ((c : Thread nD τ).loc main_arg4)
abbrev bias₀ (c : Dev nD) : S1x512.Idx → EReal := m ((c : Thread nD τ).loc main_arg5)
abbrev bias₁ (c : Dev nD) : S1x256.Idx → EReal := m ((c : Thread nD τ).loc main_arg6)
abbrev bias₂ (c : Dev nD) : S1x128.Idx → EReal := m ((c : Thread nD τ).loc main_arg7)

abbrev network₀ (c : Dev nD) : S4096x128.Idx → EReal :=
  Cert.Spec.mlp (features₀ m c) (weights₀ m c) (bias₀ m c) (weights₁ m c) (bias₁ m c) (weights₂ m c) (bias₂ m c)

theorem afterCall0_result (c : Dev nD) : U2 m c main_v2 = (dat0 (atRefs (V1 m)) qs0 c).arrAt 3 cfg0.N := by
  unfold U2; rw [Function.update_self]
theorem afterCall0_other (c : Dev nD) (r : Ref sig .tc) (h : r ≠ main_v2) : U2 m c r = V1 m c r := by
  unfold U2; rw [Function.update_of_ne (StableHlo.devRef_ne_of_ne h)]
theorem afterCall1_result (c : Dev nD) : U3 m c main_v3 = (dat1 (atRefs (U2 m)) qs1 c).arrAt 3 cfg1.N := by
  unfold U3; rw [Function.update_self]
theorem afterCall1_other (c : Dev nD) (r : Ref sig .tc) (h : r ≠ main_v3) : U3 m c r = U2 m c r := by
  unfold U3; rw [Function.update_of_ne (StableHlo.devRef_ne_of_ne h)]
theorem afterCall2_result (c : Dev nD) : U4 m c main_v4 = (dat2 (atRefs (U3 m)) qs2 c).arrAt 3 cfg2.N := by
  unfold U4; rw [Function.update_self]
theorem afterCall2_other (c : Dev nD) (r : Ref sig .tc) (h : r ≠ main_v4) : U4 m c r = U3 m c r := by
  unfold U4; rw [Function.update_of_ne (StableHlo.devRef_ne_of_ne h)]
theorem afterHost_other (c : Dev nD) (r : Ref sig .tc)
    (h : r ∉ hostOps3_W ∧ r ∉ hostOps3_1_W ∧ r ∉ hostOps3_2_W ∧ r ∉ hostOps3_3_W ∧ r ∉ hostOps3_4_W) : U9 m c r = U4 m c r :=
  (congrFun (V9_eq m c) r).symm.trans ((V9_keep m (outs m) c r h).trans (congrFun (V4_eq m c) r))
theorem afterCall3_result (c : Dev nD) : U10 m c main_v41 = (dat3 (atRefs (U9 m)) qs3 c).arrAt 3 cfg3.N := by
  unfold U10; rw [Function.update_self]
theorem afterCall3_other (c : Dev nD) (r : Ref sig .tc) (h : r ≠ main_v41) : U10 m c r = U9 m c r := by
  unfold U10; rw [Function.update_of_ne (StableHlo.devRef_ne_of_ne h)]
theorem afterCall4_result (c : Dev nD) : U11 m c main_v42 = (dat4 (atRefs (U10 m)) qs4 c).arrAt 3 cfg4.N := by
  unfold U11; rw [Function.update_self]

theorem launched (c : Dev nD) (r : Ref sig .tc) (h : r ∉ hostOps0_W) : V1 m c r = m ((c : Thread nD τ).loc r) :=
  (V1_of m c r h).trans rfl

theorem layer1_value (c : Dev nD) :
    (U2 m c main_v2 : S4096x512.Idx → EReal) = Cert.Spec.lin (features₀ m c) (weights₀ m c) (bias₀ m c) :=
  (afterCall0_result m c).trans <| (value0 (atRefs (V1 m)) qs0 c).trans <|
    lin_of_eq (V1_v1 m c) (launched m c main_arg2 (by decide)) (launched m c main_arg5 (by decide))

theorem layer2_value (c : Dev nD) :
    (U3 m c main_v3 : S4096x256.Idx → EReal) = Cert.Spec.lin (Cert.Spec.lin (features₀ m c) (weights₀ m c) (bias₀ m c)) (weights₁ m c) (bias₁ m c) :=
  (afterCall1_result m c).trans <| (value1 (atRefs (U2 m)) qs1 c).trans <|
    lin_of_eq (layer1_value m c)
      ((afterCall0_other m c main_arg3 (by decide)).trans (launched m c main_arg3 (by decide)))
      ((afterCall0_other m c main_arg6 (by decide)).trans (launched m c main_arg6 (by decide)))

theorem features_value (c : Dev nD) :
    (U4 m c main_v4 : S4096x128.Idx → EReal) = network₀ m c :=
  (afterCall2_result m c).trans <| (value2 (atRefs (U3 m)) qs2 c).trans <|
    lin_of_eq (layer2_value m c)
      ((afterCall1_other m c main_arg4 (by decide)).trans <| (afterCall0_other m c main_arg4 (by decide)).trans (launched m c main_arg4 (by decide)))
      ((afterCall1_other m c main_arg7 (by decide)).trans <| (afterCall0_other m c main_arg7 (by decide)).trans (launched m c main_arg7 (by decide)))

theorem adjacency_value (c : Dev nD) : U9 m c main_v40 = ahatR (edges₀ m c) :=
  (congrFun (V9_eq m c) main_v40).symm.trans (V9_v40 m (outs m) c)

theorem features_kept (c : Dev nD) :
    (U9 m c main_v4 : S4096x128.Idx → EReal) = network₀ m c :=
  (afterHost_other m c main_v4 (by decide)).trans (features_value m c)

theorem step1_value (c : Dev nD) :
    (U10 m c main_v41 : S4096x128.Idx → EReal)
      = Cert.Spec.stepR (ahatR (edges₀ m c) : S4096x4096.Idx → EReal) (network₀ m c) (network₀ m c) :=
  (afterCall3_result m c).trans <| (value3 (atRefs (U9 m)) qs3 c).trans <|
    stepR_of_eq (adjacency_value m c) (features_kept m c) (features_kept m c)

end ReadBack

open ReadBack in

theorem U11_result (c : Dev nD) :
    (U11 m c main_v42 : S4096x128.Idx → EReal)
      = resultR (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) :=
  (afterCall4_result m c).trans <| (value4 (atRefs (U10 m)) qs4 c).trans <|
    stepR_of_eq ((afterCall3_other m c main_v40 (by decide)).trans (adjacency_value m c)) (step1_value m c)
      ((afterCall3_other m c main_v4 (by decide)).trans (features_kept m c))

end Cert.ReferenceIdeal.Hand

end
-- ==== Proof.SpecLaws.lean ====
import proofs.«153234_g2000604307514898_pallasbulk_606_4_alg».proof.Proof.Spec
import Mathlib.Data.EReal.Basic
import Mathlib.Algebra.BigOperators.Group.Finset.Basic
import Mathlib.Algebra.BigOperators.Ring.Finset
import Mathlib.Tactic.Ring

noncomputable section

open scoped BigOperators

namespace Cert.Spec

open Idealize.ShloMosaic Idealize.ShloMosaic.ValueIdx

private theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

private theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

private theorem real_max_zero {a : EReal} (ha : ∃ r : ℝ, a = (r : EReal)) : ∃ r : ℝ, max a 0 = (r : EReal) := by
  rcases max_choice a 0 with h | h
  · rw [h]; exact ha
  · rw [h]; exact ⟨0, EReal.coe_zero.symm⟩

private theorem real_sum {ι : Type} (s : Finset ι) (f : ι → EReal) (hf : ∀ k, ∃ r : ℝ, f k = (r : EReal)) :
    ∃ r : ℝ, ∑ k ∈ s, f k = (r : EReal) := by
  classical
  induction s using Finset.induction_on with
  | empty => exact ⟨0, by rw [Finset.sum_empty, EReal.coe_zero]⟩
  | insert a s ha ih => rw [Finset.sum_insert ha]; exact real_add (hf a) ih

private theorem coe_sum {ι : Type} (s : Finset ι) (f : ι → ℝ) :
    ((∑ k ∈ s, f k : ℝ) : EReal) = ∑ k ∈ s, (f k : EReal) := by
  classical
  induction s using Finset.induction_on with
  | empty => rw [Finset.sum_empty, Finset.sum_empty, EReal.coe_zero]
  | insert a s ha ih => rw [Finset.sum_insert ha, Finset.sum_insert ha, EReal.coe_add, ih]

theorem c9_real : ∃ r : ℝ, c9 = (r : EReal) := by
  unfold c9 Ideal.ofBits Ideal.ieee
  dsimp only
  rw [if_neg (by decide), if_neg (by decide)]
  exact ⟨_, rfl⟩

theorem c1_real : ∃ r : ℝ, c1 = (r : EReal) := by
  unfold c1 Ideal.ofBits Ideal.ieee
  dsimp only
  rw [if_neg (by decide), if_neg (by decide)]
  exact ⟨_, rfl⟩

theorem isReal_lin {R K N : Nat} {x : (M R K).Idx → EReal} {w : (M K N).Idx → EReal} {b : (M 1 N).Idx → EReal}
    (hx : IsReal x) (hw : IsReal w) (hb : IsReal b) : IsReal (lin x w b) := fun i =>
  real_max_zero (real_add (real_sum _ _ fun k => real_mul (hx _) (hw _)) (hb _))

theorem isReal_mlp {R K0 K1 K2 K3 : Nat} {x : (M R K0).Idx → EReal} {w0 : (M K0 K1).Idx → EReal}
    {b0 : (M 1 K1).Idx → EReal} {w1 : (M K1 K2).Idx → EReal} {b1 : (M 1 K2).Idx → EReal}
    {w2 : (M K2 K3).Idx → EReal} {b2 : (M 1 K3).Idx → EReal}
    (hx : IsReal x) (hw0 : IsReal w0) (hb0 : IsReal b0) (hw1 : IsReal w1) (hb1 : IsReal b1)
    (hw2 : IsReal w2) (hb2 : IsReal b2) : IsReal (mlp x w0 b0 w1 b1 w2 b2) :=
  isReal_lin (isReal_lin (isReal_lin hx hw0 hb0) hw1 hb1) hw2 hb2

theorem isReal_propK {N Fd : Nat} {C : (M N N).Idx → EReal} {h : (M N Fd).Idx → EReal} {d : (M N 1).Idx → EReal}
    {x0 : (M N Fd).Idx → EReal} (hC : IsReal C) (hh : IsReal h) (hd : IsReal d) (hx : IsReal x0) :
    IsReal (propK (N := N) (Fd := Fd) C h d x0) := fun i =>
  real_add
    (real_mul (real_mul c9_real (hd _)) (real_sum _ _ fun k => real_mul (hC _) (real_mul (hh _) (hd _))))
    (real_mul c1_real (hx i))

theorem isReal_stepR {N Fd : Nat} {A : (M N N).Idx → EReal} {h : (M N Fd).Idx → EReal} {x0 : (M N Fd).Idx → EReal}
    (hA : IsReal A) (hh : IsReal h) (hx : IsReal x0) : IsReal (stepR (N := N) (Fd := Fd) A h x0) := fun i =>
  real_add (real_mul c9_real (real_sum _ _ fun k => real_mul (hA _) (hh _))) (real_mul c1_real (hx i))

theorem isReal_ahat {N : Nat} {d : (L N).Idx → EReal} {C : (M N N).Idx → EReal}
    (hd : IsReal d) (hC : IsReal C) : IsReal (ahat (N := N) d C) := fun i =>
  real_mul (real_mul (hd _) (hC i)) (hd _)

theorem stepR_ahat_eq_propK {N Fd : Nat} (C : (M N N).Idx → EReal) (h x0 : (M N Fd).Idx → EReal)
    (d : (L N).Idx → EReal) (d' : (M N 1).Idx → EReal)
    (hdd : ∀ k : Fin N, d' (ix2 k (0 : Fin 1)) = d (ix1 k)) (hC : IsReal C) (hd : IsReal d) (hh : IsReal h) :
    stepR (ahat d C) h x0 = propK C h d' x0 := by
  choose Cr hCr using hC
  choose dr hdr using hd
  choose hr hhr using hh
  funext i
  obtain ⟨p, q, rfl⟩ : ∃ (p : Fin N) (q : Fin Fd), i = ix2 p q := ⟨i 0, i 1, eq_ix2 i⟩

  show c9 * (∑ k : Fin N, ((d (ix1 p) * C (ix2 p k)) * d (ix1 k)) * h (ix2 k q)) + c1 * x0 (ix2 p q)
      = (c9 * d' (ix2 p (0 : Fin 1)))
          * (∑ k : Fin N, C (ix2 p k) * (h (ix2 k q) * d' (ix2 k (0 : Fin 1)))) + c1 * x0 (ix2 p q)
  congr 1

  rw [mul_assoc]
  congr 1

  simp only [hdd, hCr, hdr, hhr, ← EReal.coe_mul, ← coe_sum]
  congr 1
  rw [Finset.mul_sum]
  exact Finset.sum_congr rfl fun k _ => by ring

end Cert.Spec

end
-- ==== Proof.PreFacts.lean ====
import proofs.«153234_g2000604307514898_pallasbulk_606_4_alg».proof.Pre_finite_inputs
import proofs.«153234_g2000604307514898_pallasbulk_606_4_alg».proof.Proof.Gen.Pre_finite_inputs
import proofs.«153234_g2000604307514898_pallasbulk_606_4_alg».proof.Proof.Spec
import Idealize.ShloMosaic.Lib.ReduceAll
import Idealize.ShloMosaic.Lib.StableHlo.Predicate
import Idealize.ShloMosaic.Lib.ValueIdx

noncomputable section

namespace Cert.Hand.Pre

open Idealize.ShloMosaic Idealize.ShloMosaic.ValueIdx Cert.Pre_finite_inputs

instance : Subsingleton S_.Idx := ⟨fun _ _ => funext fun d => d.elim0⟩

theorem inf_bits : Ideal.ofBits .f32 0x7F800000#32 = (⊤ : EReal) := by
  simp [Ideal.ofBits, Ideal.ieee]

theorem real_of_abs_lt_top (x : EReal)
    (h : Ideal.cmp .olt (max x (-x)) (Ideal.ofBits .f32 0x7F800000#32) = 1#1) : ∃ r : ℝ, x = (r : EReal) := by
  rw [inf_bits] at h
  have hlt : max x (-x) < ⊤ := by
    simpa only [Ideal.cmp, StableHlo.Predicate.ofBool_eq_one_iff, decide_eq_true_eq] using h
  induction x using EReal.rec with
  | bot => simp at hlt
  | coe r => exact ⟨r, rfl⟩
  | top => simp at hlt

theorem sge_zero {e : BitVec 32} (h : IntOp.cmpi .sge e 0#32 = 1#1) : (0 : Int) ≤ e.toInt := by
  have h' : BitVec.ofBool ((0#32 : BitVec 32).sle e) = 1#1 := h
  rw [StableHlo.Predicate.ofBool_eq_one_iff] at h'
  have h2 : (0#32 : BitVec 32).toInt ≤ e.toInt := BitVec.sle_iff_toInt_le.1 h'
  have hz : (0#32 : BitVec 32).toInt = 0 := by decide
  omega

theorem slt_4096 {e : BitVec 32} (h : IntOp.cmpi .slt e 4096#32 = 1#1) : e.toInt < 4096 := by
  have h' : BitVec.ofBool (e.slt (4096#32 : BitVec 32)) = 1#1 := h
  rw [StableHlo.Predicate.ofBool_eq_one_iff] at h'
  have h2 : e.toInt < (4096#32 : BitVec 32).toInt := BitVec.slt_iff_toInt_lt.1 h'
  have hz : (4096#32 : BitVec 32).toInt = 4096 := by decide
  omega

theorem isReal_of_all {s : Shape} {axes : List (Fin s.rank)}
    (hb : S_.BroadcastsInDim s (![] : Fin 0 → Fin s.rank)) (hr : s.ReducesTo axes S_) (h0 : 0 < S_.numel)
    (a : FVec Ideal s .f32)
    (h : Host.reduce IntOp.andi
        (cmpf .olt (Host.absf a) (broadcastInDim s ![] hb (constant (F := Ideal) S_ .f32 0x7F800000#32)))
        (constantI S_ 1 1#1) hr h0 ix0 = 1#1) :
    Cert.Spec.IsReal a := by
  intro i
  have hi := Host.reduce_andi_all _ _ hr h0 ix0 h i
  exact real_of_abs_lt_top (a i) hi

theorem range_of_all {s : Shape} {axes : List (Fin s.rank)}
    (hb : S_.BroadcastsInDim s (![] : Fin 0 → Fin s.rank)) (hr : s.ReducesTo axes S_) (h0 : 0 < S_.numel)
    (e : IVec s 32)
    (h : Host.reduce IntOp.andi
        (andi (cmpi .sge e (broadcastInDim s ![] hb (constantI S_ 32 0#32)))
          (cmpi .slt e (broadcastInDim s ![] hb (constantI S_ 32 4096#32))))
        (constantI S_ 1 1#1) hr h0 ix0 = 1#1) :
    ∀ i, (0 : Int) ≤ (e i).toInt ∧ (e i).toInt < 4096 := by
  intro i
  have hi := Host.reduce_andi_all _ _ hr h0 ix0 h i
  obtain ⟨h1, h2⟩ := IntOp.andi_eq_one.1 hi
  exact ⟨sge_zero h1, slt_4096 h2⟩

theorem pre_facts [Cert.Pre_finite_inputs.Facts]
    (a0 : FVec Ideal S4096x1536 .f32) (a1 : IVec S2x40000 32) (a2 : FVec Ideal S1536x512 .f32)
    (a3 : FVec Ideal S512x256 .f32) (a4 : FVec Ideal S256x128 .f32) (a5 : FVec Ideal S1x512 .f32)
    (a6 : FVec Ideal S1x256 .f32) (a7 : FVec Ideal S1x128 .f32)
    (h : Cert.Pre_finite_inputs.fn (F := Ideal) a0 a1 a2 a3 a4 a5 a6 a7 = fun _ => 1#1) :
    Cert.Spec.IsReal a0 ∧ Cert.Spec.IsReal a2 ∧ Cert.Spec.IsReal a3 ∧ Cert.Spec.IsReal a4 ∧ Cert.Spec.IsReal a5
      ∧ Cert.Spec.IsReal a6 ∧ Cert.Spec.IsReal a7 ∧ (∀ i, (0 : Int) ≤ (a1 i).toInt ∧ (a1 i).toInt < 4096) := by
  have h0 := congrFun h ix0
  dsimp only [Cert.Pre_finite_inputs.fn, Cert.Pre_finite_inputs.fn_part1, Cert.Pre_finite_inputs.fn_part2] at h0
  obtain ⟨h0, he⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  exact ⟨isReal_of_all _ _ _ a0 h0, isReal_of_all _ _ _ a2 h2, isReal_of_all _ _ _ a3 h3, isReal_of_all _ _ _ a4 h4,
    isReal_of_all _ _ _ a5 h5, isReal_of_all _ _ _ a6 h6, isReal_of_all _ _ _ a7 h7, range_of_all _ _ _ a1 he⟩

end Cert.Hand.Pre

end
-- ==== Proof.LibScatterCount.lean ====
import Idealize.ShloMosaic.PureOps.Ideal
import Idealize.ShloMosaic.PureOps.Ideal.Laws
import Idealize.ShloMosaic.PureOps.Contract
import Idealize.ShloMosaic.Lib.ValueIdx

noncomputable section

open scoped BigOperators

namespace Cert.Hand.ScatterCount

open Idealize.ShloMosaic Idealize.ShloMosaic.ValueIdx

theorem ofBits_one_f32 : Ideal.ofBits .f32 0x3F800000#32 = 1 := by
  simp [Ideal.ofBits, Ideal.ieee]
  exact_mod_cast (by norm_num : (8388608 : ℝ) * ((2 : ℝ) ^ 23)⁻¹ = 1)

theorem scatterAdd_count {s si u : Shape} {φ : FTy} {w : Nat} (d : ScatterDims s si u) (x : FVec Ideal s φ)
    (idx : IVec si w) (upd : FVec Ideal u φ) (hx : ∀ i, x i = 0) (hu : ∀ j, upd j = 1) (i : s.Idx) :
    Host.scatterAdd d x idx upd i
      = (((Finset.univ.filter fun j => d.resultIdx? j idx = some i).card : ℕ) : EReal) := by
  show x i + ∑ j ∈ Finset.univ.filter (fun j => d.resultIdx? j idx = some i), upd j = _
  rw [hx, zero_add, Finset.sum_congr rfl (fun j _ => hu j), Finset.sum_const, nsmul_one]

abbrev pairDims {R C n : Nat} (wf : ScatterDims.WF (⟨2, ![R, C]⟩ : Shape) ⟨2, ![n, 2]⟩ ⟨1, ![n]⟩ [] [0, 1] [0, 1] 1) :
    ScatterDims ⟨2, ![R, C]⟩ ⟨2, ![n, 2]⟩ ⟨1, ![n]⟩ where
  updateWindowDims := []
  insertedWindowDims := [0, 1]
  scatterDimsToOperandDims := [0, 1]
  indexVectorDim := 1
  wf := wf

section Pair
variable {R C n w : Nat} (wf : ScatterDims.WF (⟨2, ![R, C]⟩ : Shape) ⟨2, ![n, 2]⟩ ⟨1, ![n]⟩ [] [0, 1] [0, 1] 1)

theorem pairDims_window (j : (⟨1, ![n]⟩ : Shape).Idx) (a : Fin 2) : (pairDims wf).window j a = 0 := by
  unfold ScatterDims.window
  rw [dif_neg]
  show a ∉ (⟨2, ![R, C]⟩ : Shape).kept [0, 1]
  rw [show (⟨2, ![R, C]⟩ : Shape).kept [0, 1] = [] from rfl]
  exact List.not_mem_nil

theorem pairDims_siIdx (j : (⟨1, ![n]⟩ : Shape).Idx) (c : Fin 2) :
    (pairDims wf).siIdx j c = ix2 (j 0 : Fin n) c := by
  funext b
  match b with
  | ⟨0, _⟩ =>
    unfold ScatterDims.siIdx
    rw [dif_neg (by show ¬ ((0 : ℕ) = 1); omega)]
    unfold ScatterDims.siCoord
    apply Fin.ext
    simp only [Fin.val_cast]
    have e : ∀ X : Fin 1, (j X).val = (j 0).val := fun X => by rw [Subsingleton.elim X 0]
    exact e _
  | ⟨1, _⟩ =>
    unfold ScatterDims.siIdx
    rw [dif_pos rfl]
    rfl

theorem pairDims_start (idx : IVec ⟨2, ![n, 2]⟩ w) (j : (⟨1, ![n]⟩ : Shape).Idx) (a : Fin 2) :
    (pairDims wf).start j idx a = (idx (ix2 (j 0 : Fin n) a)).toInt := by
  unfold ScatterDims.start
  have ha : a ∈ (pairDims wf).scatterDimsToOperandDims := by
    show a ∈ ([0, 1] : List (Fin 2))
    fin_cases a <;> simp
  rw [dif_pos ha, pairDims_siIdx]
  congr 3
  apply Fin.ext
  show List.idxOf a ([0, 1] : List (Fin 2)) = a.val
  fin_cases a <;> rfl

theorem pairDims_resultIdx?_eq_some (idx : IVec ⟨2, ![n, 2]⟩ w) (j : (⟨1, ![n]⟩ : Shape).Idx)
    (i : (⟨2, ![R, C]⟩ : Shape).Idx) :
    (pairDims wf).resultIdx? j idx = some i ↔
      (idx (ix2 (j 0 : Fin n) 0)).toInt = (((i 0 : Fin R) : ℕ) : Int)
        ∧ (idx (ix2 (j 0 : Fin n) 1)).toInt = (((i 1 : Fin C) : ℕ) : Int) := by
  have hi0 : ((i 0 : Fin R) : ℕ) < R := (i 0).isLt
  have hi1 : ((i 1 : Fin C) : ℕ) < C := (i 1).isLt
  have hs0 := pairDims_start wf idx j 0
  have hs1 := pairDims_start wf idx j 1
  have hw0 := pairDims_window wf j 0
  have hw1 := pairDims_window wf j 1
  constructor
  · intro h
    unfold ScatterDims.resultIdx? at h
    split at h
    · rename_i hr
      have e := Option.some.inj h
      have e0 : (((pairDims wf).start j idx 0 + ((pairDims wf).window j 0 : ℕ)).toNat) = ((i 0 : Fin R) : ℕ) :=
        congrArg (fun f : (⟨2, ![R, C]⟩ : Shape).Idx => ((f 0 : Fin R) : ℕ)) e
      have e1 : (((pairDims wf).start j idx 1 + ((pairDims wf).window j 1 : ℕ)).toNat) = ((i 1 : Fin C) : ℕ) :=
        congrArg (fun f : (⟨2, ![R, C]⟩ : Shape).Idx => ((f 1 : Fin C) : ℕ)) e
      have r0 := (hr 0).1
      have r1 := (hr 1).1
      rw [hs0, hw0] at e0 r0
      rw [hs1, hw1] at e1 r1
      constructor <;> omega
    · exact absurd h (by simp)
  · rintro ⟨h0, h1⟩
    unfold ScatterDims.resultIdx?
    have hr : ∀ a, 0 ≤ (pairDims wf).start j idx a + ((pairDims wf).window j a : ℕ)
        ∧ (pairDims wf).start j idx a + ((pairDims wf).window j a : ℕ) < ((⟨2, ![R, C]⟩ : Shape).size a : ℕ) := by
      intro a
      fin_cases a
      · show 0 ≤ (pairDims wf).start j idx 0 + ((pairDims wf).window j 0 : ℕ)
          ∧ (pairDims wf).start j idx 0 + ((pairDims wf).window j 0 : ℕ) < (R : ℕ)
        rw [hs0, hw0]; omega
      · show 0 ≤ (pairDims wf).start j idx 1 + ((pairDims wf).window j 1 : ℕ)
          ∧ (pairDims wf).start j idx 1 + ((pairDims wf).window j 1 : ℕ) < (C : ℕ)
        rw [hs1, hw1]; omega
    rw [dif_pos hr]
    congr 1
    funext a
    apply Fin.ext
    fin_cases a
    · show ((pairDims wf).start j idx 0 + ((pairDims wf).window j 0 : ℕ)).toNat = ((i 0 : Fin R) : ℕ)
      rw [hs0, hw0]; omega
    · show ((pairDims wf).start j idx 1 + ((pairDims wf).window j 1 : ℕ)).toNat = ((i 1 : Fin C) : ℕ)
      rw [hs1, hw1]; omega

end Pair

theorem hostReduceAdd_row {n m : Nat} (h : (⟨2, ![n, m]⟩ : Shape).ReducesTo [1] ⟨1, ![n]⟩)
    (x : (⟨2, ![n, m]⟩ : Shape).Idx → EReal) (init : EReal) (r : Fin n) :
    Ideal.hostReduceAdd h x init (ix1 r) = init + ∑ c : Fin m, x (ix2 r c) := by
  have hdrop : ∀ (a : Fin n) (b : Fin m), h.drop (ix2 a b) = ix1 r ↔ a = r := by
    intro a b
    have hv : (h.drop (ix2 a b) 0 : Nat) = (a : Nat) := Shape.ReducesTo.drop_apply_val h (ix2 a b) 0
    constructor
    · intro e
      rw [e] at hv
      exact Fin.ext hv.symm
    · intro e
      funext d
      have hd : d = 0 := Subsingleton.elim _ _
      subst hd
      exact Fin.ext (by rw [hv, e]; rfl)
  unfold Ideal.hostReduceAdd
  congr 1
  rw [Finset.sum_filter, sum_idx2, Finset.sum_eq_single r]
  · exact Finset.sum_congr rfl fun b _ => if_pos ((hdrop r b).2 rfl)
  · intro a _ hne
    exact Finset.sum_eq_zero fun b _ => if_neg fun e => hne ((hdrop a b).1 e)
  · intro hr
    exact absurd (Finset.mem_univ r) hr

theorem card_idx1 {n : Nat} (Q : (⟨1, ![n]⟩ : Shape).Idx → Prop) [DecidablePred Q] :
    (Finset.univ.filter Q).card = (Finset.univ.filter fun p : Fin n => Q (ix1 p)).card := by
  refine Finset.card_bij' (fun (j : (⟨1, ![n]⟩ : Shape).Idx) _ => (j 0 : Fin n))
    (fun (p : Fin n) _ => (ix1 p : (⟨1, ![n]⟩ : Shape).Idx)) ?_ ?_ ?_ ?_
  · intro j hj
    refine Finset.mem_filter.2 ⟨Finset.mem_univ _, ?_⟩
    exact (congrArg Q (eq_ix1 j)).mp (Finset.mem_filter.1 hj).2
  · intro p hp
    exact Finset.mem_filter.2 ⟨Finset.mem_univ _, (Finset.mem_filter.1 hp).2⟩
  · intro j _
    exact (eq_ix1 j).symm
  · intro p _
    rfl

theorem card_fin_add {m k : Nat} (P : Fin (m + k) → Prop) [DecidablePred P] :
    (Finset.univ.filter P).card
      = (Finset.univ.filter fun a : Fin m => P (Fin.castAdd k a)).card
        + (Finset.univ.filter fun b : Fin k => P (Fin.natAdd m b)).card := by
  simp only [Finset.card_filter]
  exact Fin.sum_univ_add _

theorem sum_card_cols {ι : Type} [Fintype ι] {C : Nat} (row : ι → Prop) [DecidablePred row] (col : ι → Int)
    (hcol : ∀ j, row j → 0 ≤ col j ∧ col j < C) :
    ∑ c : Fin C, (Finset.univ.filter fun j => row j ∧ col j = ((c : ℕ) : Int)).card
      = (Finset.univ.filter fun j => row j).card := by
  simp only [Finset.card_filter]
  rw [Finset.sum_comm]
  refine Finset.sum_congr rfl fun j _ => ?_
  by_cases hr : row j
  · obtain ⟨h0, h1⟩ := hcol j hr
    have hlt : (col j).toNat < C := by omega
    rw [Finset.sum_eq_single (⟨(col j).toNat, hlt⟩ : Fin C)]
    · rw [if_pos hr, if_pos ⟨hr, by show col j = (((col j).toNat : ℕ) : Int); omega⟩]
    · intro c _ hne
      rw [if_neg]
      rintro ⟨_, e⟩
      exact hne (Fin.ext (by show c.val = (col j).toNat; omega))
    · intro hn
      exact absurd (Finset.mem_univ _) hn
  · rw [if_neg hr]
    exact Finset.sum_eq_zero fun c _ => if_neg fun h => hr h.1

theorem msb_of_nonneg {x : BitVec 32} (hx : 0 ≤ x.toInt) : x.msb = false := by
  cases hm : x.msb with
  | false => rfl
  | true =>
    have h := BitVec.toInt_eq_msb_cond x
    rw [hm] at h
    have := x.isLt
    simp only [if_true] at h
    omega

theorem slt_zero_of_nonneg {x : BitVec 32} (hx : 0 ≤ x.toInt) : IntOp.cmpi .slt x 0#32 = 0#1 := by
  have hz : (0#32 : BitVec 32).toInt = 0 := by decide
  have hn : ¬ x.toInt < (0#32 : BitVec 32).toInt := by omega
  show BitVec.ofBool (x.slt 0#32) = 0#1
  rw [show x.slt 0#32 = false from by
    rw [Bool.eq_false_iff]; intro h; exact hn (BitVec.slt_iff_toInt_lt.1 h)]
  rfl

theorem wrap_of_nonneg {x : BitVec 32} (y : BitVec 32) (hx : 0 ≤ x.toInt) :
    Scalar.select (IntOp.cmpi .slt x 0#32) y x = x := by
  rw [slt_zero_of_nonneg hx]; exact select_zero _ _

theorem remsi_128 (un : ArithUnit) {x : BitVec 32} (hx : 0 ≤ x.toInt) :
    (IntOp.remsi un x 128#32).toInt = x.toInt % 128 := by
  have hm := msb_of_nonneg hx
  have hc : ¬ IntOp.SDivCorner x 128#32 := by
    intro h
    rcases h with h | ⟨_, h⟩ <;> exact absurd h (by decide)
  have hxi : x.toInt = x.toNat := by rw [BitVec.toInt_eq_msb_cond, hm]; simp
  have hxlt : x.toNat < 2 ^ 31 := by
    have := BitVec.msb_eq_false_iff_two_mul_lt.1 hm; omega
  unfold IntOp.remsi
  rw [if_neg hc]
  have hs : x.srem 128#32 = x % 128#32 := by
    rw [BitVec.srem_eq, hm, show (128#32 : BitVec 32).msb = false from by decide]
  rw [hs, hxi]
  have hn : (x % 128#32).toNat = x.toNat % 128 := by simp [BitVec.toNat_umod]
  have hlt : (x % 128#32).toNat < 2 ^ 31 := by rw [hn]; omega
  rw [BitVec.toInt_eq_msb_cond, BitVec.msb_eq_false_iff_two_mul_lt.2 (by omega)]
  simp only [Bool.false_eq_true, if_false, hn]
  omega

end Cert.Hand.ScatterCount

end
-- ==== Proof.Degree.lean ====
import proofs.«153234_g2000604307514898_pallasbulk_606_4_alg».proof.Proof.KI.Host
import proofs.«153234_g2000604307514898_pallasbulk_606_4_alg».proof.Proof.RI.Host
import proofs.«153234_g2000604307514898_pallasbulk_606_4_alg».proof.Proof.LibScatterCount
import proofs.«153234_g2000604307514898_pallasbulk_606_4_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.PureOps.Contract

noncomputable section

open scoped BigOperators

namespace Cert.Hand.Degree

open Idealize.ShloMosaic Idealize.ShloMosaic.ValueIdx Cert.Hand.ScatterCount

def inDeg (e : IVec ⟨2, ![2, 40000]⟩ 32) (r : Fin 4096) : ℕ :=
  (Finset.univ.filter fun p : Fin 40000 => (e (ix2 (1 : Fin 2) p)).toInt = ((r : ℕ) : Int)).card

section Reference
open Cert.ReferenceIdeal Cert.ReferenceIdeal.Gen Cert.ReferenceIdeal.Hand

variable (e : IVec S2x40000 32)

theorem srcR_apply (p : Fin 40000) : srcR e (ix1 p) = e (ix2 (0 : Fin 2) p) := by
  unfold srcR
  rw [shapeCast_1a_a_apply, slice2_axis0_apply 0 e _ (0 : Fin 1) p (0 : Fin 2) rfl]

theorem dstR_apply (p : Fin 40000) : dstR e (ix1 p) = e (ix2 (1 : Fin 2) p) := by
  unfold dstR
  rw [shapeCast_1a_a_apply, slice2_axis0_apply 1 e _ (0 : Fin 1) p (1 : Fin 2) rfl]

theorem withLoops_left (a : IVec S40000 32) (p : Fin 40000) :
    withLoops a (ix1 (Fin.castAdd 4096 p)) = a (ix1 p) := by
  unfold withLoops
  exact concatenate_pair_apply_left (t := S44096) 0 a (iotaInDim S4096 32 0) concatenates_S40000_S4096_S44096_d0
    (ix1 (Fin.castAdd 4096 p)) rfl (ix1 p) (fun b => by match b with | ⟨0, _⟩ => rfl)

theorem withLoops_right (a : IVec S40000 32) (k : Fin 4096) :
    withLoops a (ix1 (Fin.natAdd 40000 k)) = BitVec.ofNat 32 k.val := by
  unfold withLoops
  exact concatenate_pair_apply_right (t := S44096) 0 a (iotaInDim S4096 32 0) concatenates_S40000_S4096_S44096_d0
    (ix1 (Fin.natAdd 40000 k)) rfl rfl (ix1 k)
    (fun b hb => absurd (Subsingleton.elim _ _) hb) (by show k.val + 40000 = 40000 + k.val; omega)

theorem withLoops_range (a : IVec S40000 32) (ha : ∀ p, (0 : Int) ≤ (a (ix1 p)).toInt ∧ (a (ix1 p)).toInt < 4096)
    (q : Fin (40000 + 4096)) : (0 : Int) ≤ (withLoops a (ix1 q)).toInt ∧ (withLoops a (ix1 q)).toInt < 4096 := by
  refine Fin.addCases (fun p => ?_) (fun k => ?_) q
  · rw [withLoops_left]; exact ha p
  · rw [withLoops_right, StableHlo.Predicate.toInt_ofNat_small k.val (by have := k.isLt; omega)]
    have := k.isLt; omega

theorem wrapR_apply (a : IVec S44096 32) (q : S44096.Idx) (h : (0 : Int) ≤ (a q).toInt) : wrapR a q = a q := by
  unfold wrapR
  rw [select_apply]
  exact wrap_of_nonneg _ h

theorem idxR_col0 (q : Fin 44096) : idxR e (ix2 q (0 : Fin 2)) = wrapR (withLoops (dstR e)) (ix1 q) := by
  unfold idxR
  rw [concatenate_pair_apply_left (t := S44096x2) 1 _ _ concatenates_S44096x1_S44096x1_S44096x2_d1
    (ix2 q (0 : Fin 2)) rfl (ix2 q (0 : Fin 1)) (fun b => by match b with | ⟨0, _⟩ => rfl | ⟨1, _⟩ => rfl)]
  exact broadcastInDim_apply _ _ _ _ (ix1 q) (fun a => by match a with | ⟨0, _⟩ => rfl)

theorem idxR_col1 (q : Fin 44096) : idxR e (ix2 q (1 : Fin 2)) = wrapR (withLoops (srcR e)) (ix1 q) := by
  unfold idxR
  rw [concatenate_pair_apply_right (t := S44096x2) 1 _ _ concatenates_S44096x1_S44096x1_S44096x2_d1
    (ix2 q (1 : Fin 2)) rfl rfl (ix2 q (0 : Fin 1))
    (fun b hb => by match b with | ⟨0, _⟩ => rfl | ⟨1, _⟩ => exact absurd rfl hb) rfl]
  exact broadcastInDim_apply _ _ _ _ (ix1 q) (fun a => by match a with | ⟨0, _⟩ => rfl)

theorem countsR_apply (r c : Fin 4096) :
    countsR e (ix2 r c)
      = (((Finset.univ.filter fun j : S44096.Idx =>
            (idxR e (ix2 (j 0 : Fin 44096) 0)).toInt = ((r : ℕ) : Int)
              ∧ (idxR e (ix2 (j 0 : Fin 44096) 1)).toInt = ((c : ℕ) : Int)).card : ℕ) : EReal) := by
  unfold countsR
  refine (scatterAdd_count scatter_S4096x4096_S44096x2_S44096_n_01_01_1
    (broadcastInDim S4096x4096 ![] bcast_S_S4096x4096 (constant S_ .f32 0x00000000#32)) (idxR e)
    (broadcastInDim S44096 ![] bcast_S_S44096 (constant S_ .f32 0x3F800000#32))
    (fun _ => Ideal.ofBits_zero_f32) (fun _ => ofBits_one_f32) (ix2 r c)).trans ?_
  exact congrArg (fun S : Finset S44096.Idx => ((S.card : ℕ) : EReal))
    (Finset.filter_congr (fun j _ => pairDims_resultIdx?_eq_some _ (idxR e) j (ix2 r c)))

variable (hrange : ∀ i, (0 : Int) ≤ (e i).toInt ∧ (e i).toInt < 4096)
include hrange

theorem rowR_apply (q : Fin (40000 + 4096)) :
    idxR e (ix2 q (0 : Fin 2)) = withLoops (dstR e) (ix1 q) := by
  rw [idxR_col0]
  exact wrapR_apply _ _ (withLoops_range _ (fun p => by rw [dstR_apply]; exact hrange _) q).1

theorem colR_apply (q : Fin (40000 + 4096)) :
    idxR e (ix2 q (1 : Fin 2)) = withLoops (srcR e) (ix1 q) := by
  rw [idxR_col1]
  exact wrapR_apply _ _ (withLoops_range _ (fun p => by rw [srcR_apply]; exact hrange _) q).1

theorem card_edgesR (r : Fin 4096) :
    (Finset.univ.filter fun a : Fin 40000 =>
      (idxR e (ix2 (Fin.castAdd 4096 a) (0 : Fin 2))).toInt = ((r : ℕ) : Int)).card = inDeg e r := by
  unfold inDeg
  refine congrArg Finset.card (Finset.filter_congr fun p _ => ?_)
  rw [rowR_apply e hrange, withLoops_left, dstR_apply]

theorem card_loopsR (r : Fin 4096) :
    (Finset.univ.filter fun b : Fin 4096 =>
      (idxR e (ix2 (Fin.natAdd 40000 b) (0 : Fin 2))).toInt = ((r : ℕ) : Int)).card = 1 := by
  rw [Finset.card_eq_one]
  refine ⟨r, Finset.ext fun k => ?_⟩
  rw [Finset.mem_filter, Finset.mem_singleton, rowR_apply e hrange, withLoops_right,
    StableHlo.Predicate.toInt_ofNat_small k.val (by have := k.isLt; omega)]
  constructor
  · rintro ⟨_, h⟩; exact Fin.ext (by omega)
  · rintro rfl; exact ⟨Finset.mem_univ _, rfl⟩

theorem degR_apply (r : Fin 4096) : degR e (ix1 r) = (((inDeg e r + 1 : ℕ)) : EReal) := by
  have hcols : ∀ j : S44096.Idx, (idxR e (ix2 (j 0 : Fin 44096) 0)).toInt = ((r : ℕ) : Int) →
      (0 : Int) ≤ (idxR e (ix2 (j 0 : Fin 44096) 1)).toInt ∧ (idxR e (ix2 (j 0 : Fin 44096) 1)).toInt < ((4096 : ℕ) : Int) := by
    intro j _
    rw [colR_apply e hrange (j 0)]
    exact withLoops_range _ (fun p => by rw [srcR_apply]; exact hrange _) (j 0)
  show Ideal.hostReduceAdd reducesTo_S4096x4096_S4096_d1 (countsR e) (Ideal.ofBits .f32 0x00000000#32) (ix1 r) = _
  rw [hostReduceAdd_row, Ideal.ofBits_zero_f32, zero_add, Finset.sum_congr rfl (fun c _ => countsR_apply e r c),
    ← Nat.cast_sum, sum_card_cols _ _ hcols, card_idx1]
  refine congrArg (Nat.cast : ℕ → EReal) ?_
  refine (card_fin_add (m := 40000) (k := 4096)
    (fun q => (idxR e (ix2 q (0 : Fin 2))).toInt = ((r : ℕ) : Int))).trans ?_
  exact congrArg₂ (· + ·) (card_edgesR e hrange r) (card_loopsR e hrange r)

omit hrange in

theorem isReal_countsR : Cert.Spec.IsReal (countsR e) := by
  intro i
  obtain ⟨a, b, rfl⟩ : ∃ (a b : Fin 4096), i = ix2 a b := ⟨i 0, i 1, eq_ix2 i⟩
  rw [countsR_apply]
  exact ⟨_, EReal.coe_natCast.symm⟩

omit hrange in

theorem rsqrt_natSucc (n : ℕ) :
    Ideal.rsqrt ((n + 1 : ℕ) : EReal) = (((Real.sqrt ((n : ℝ) + 1))⁻¹ : ℝ) : EReal) := by
  have h : ((n + 1 : ℕ) : EReal) = (((n : ℝ) + 1 : ℝ) : EReal) := by
    show ((((n + 1 : ℕ) : ℝ)) : EReal) = _
    rw [Nat.cast_succ]
  have hp : (0 : ℝ) < (n : ℝ) + 1 := by positivity
  rw [h, Ideal.rsqrt_coe, if_neg (not_lt.2 hp.le), if_neg hp.ne']

omit hrange in

theorem natSucc_pos (n : ℕ) : (0 : EReal) < ((n + 1 : ℕ) : EReal) := by
  show (0 : EReal) < ((((n + 1 : ℕ) : ℝ)) : EReal)
  exact EReal.coe_pos.2 (by positivity)

theorem dinvR_apply (r : Fin 4096) : dinvR e (ix1 r) = Ideal.rsqrt (((inDeg e r + 1 : ℕ)) : EReal) := by
  have hd := degR_apply e hrange r
  have hpos : cmpf .ogt (degR e) (broadcastInDim S4096 ![] bcast_S_S4096 (constant S_ .f32 0x00000000#32)) (ix1 r)
      = 1#1 := by
    show Ideal.cmp .ogt (degR e (ix1 r)) (Ideal.ofBits .f32 0x00000000#32) = 1#1
    rw [hd, Ideal.ofBits_zero_f32]
    show BitVec.ofBool (decide ((0 : EReal) < ((inDeg e r + 1 : ℕ) : EReal))) = 1#1
    rw [StableHlo.Predicate.ofBool_eq_one_iff, decide_eq_true_eq]
    exact natSucc_pos _
  unfold dinvR
  rw [select_apply, hpos, select_one]
  show Ideal.rsqrt (degR e (ix1 r)) = _
  rw [hd]

theorem isReal_dinvR : Cert.Spec.IsReal (dinvR e) := by
  intro i
  obtain ⟨r, rfl⟩ : ∃ r : Fin 4096, i = ix1 r := ⟨i 0, eq_ix1 i⟩
  rw [dinvR_apply e hrange, rsqrt_natSucc]
  exact ⟨_, rfl⟩

end Reference

section Kernel
open Cert.KernelIdeal Cert.KernelIdeal.Gen Cert.KernelIdeal.Hand

theorem counts_eq (e : IVec S2x40000 32) :
    (countsK (F := Ideal) e : S4096x4096.Idx → EReal) = Cert.ReferenceIdeal.Hand.countsR e := by
  unfold countsK Cert.ReferenceIdeal.Hand.countsR Cert.ReferenceIdeal.Hand.idxR Cert.ReferenceIdeal.Hand.wrapR
    Cert.ReferenceIdeal.Hand.withLoops Cert.ReferenceIdeal.Hand.srcR Cert.ReferenceIdeal.Hand.dstR
  rfl

theorem rowsum128 (idx : IVec S40000x2 32)
    (hcol : ∀ p : Fin 40000, (0 : Int) ≤ (idx (ix2 p (1 : Fin 2))).toInt ∧ (idx (ix2 p (1 : Fin 2))).toInt < 128)
    (r : Fin 4096) :
    Ideal.hostReduceAdd reducesTo_S4096x128_S4096_d1
        (Host.scatterAdd scatter_S4096x128_S40000x2_S40000_n_01_01_1
          (broadcastInDim S4096x128 ![] bcast_S_S4096x128 (constant (F := Ideal) S_ .f32 0x00000000#32)) idx
          (broadcastInDim S40000 ![] bcast_S_S40000 (constant (F := Ideal) S_ .f32 0x3F800000#32)))
        (Ideal.ofBits .f32 0x00000000#32) (ix1 r)
      = (((Finset.univ.filter fun p : Fin 40000 => (idx (ix2 p (0 : Fin 2))).toInt = ((r : ℕ) : Int)).card : ℕ) : EReal) := by
  have hcount : ∀ c : Fin 128,
      Host.scatterAdd scatter_S4096x128_S40000x2_S40000_n_01_01_1
          (broadcastInDim S4096x128 ![] bcast_S_S4096x128 (constant (F := Ideal) S_ .f32 0x00000000#32)) idx
          (broadcastInDim S40000 ![] bcast_S_S40000 (constant (F := Ideal) S_ .f32 0x3F800000#32)) (ix2 r c)
        = (((Finset.univ.filter fun j : S40000.Idx =>
              (idx (ix2 (j 0 : Fin 40000) 0)).toInt = ((r : ℕ) : Int)
                ∧ (idx (ix2 (j 0 : Fin 40000) 1)).toInt = ((c : ℕ) : Int)).card : ℕ) : EReal) := by
    intro c
    refine (scatterAdd_count scatter_S4096x128_S40000x2_S40000_n_01_01_1 _ idx _
      (fun _ => Ideal.ofBits_zero_f32) (fun _ => ofBits_one_f32) (ix2 r c)).trans ?_
    exact congrArg (fun S : Finset S40000.Idx => ((S.card : ℕ) : EReal))
      (Finset.filter_congr (fun j _ => pairDims_resultIdx?_eq_some _ idx j (ix2 r c)))
  have hcols : ∀ j : S40000.Idx, (idx (ix2 (j 0 : Fin 40000) 0)).toInt = ((r : ℕ) : Int) →
      (0 : Int) ≤ (idx (ix2 (j 0 : Fin 40000) 1)).toInt ∧ (idx (ix2 (j 0 : Fin 40000) 1)).toInt < ((128 : ℕ) : Int) :=
    fun j _ => hcol (j 0)
  rw [hostReduceAdd_row, Ideal.ofBits_zero_f32, zero_add, Finset.sum_congr rfl (fun c _ => hcount c),
    ← Nat.cast_sum, sum_card_cols _ _ hcols, card_idx1]

theorem pairTable_col0 (a b : IVec S40000 32) (p : Fin 40000) :
    concatenate S40000x2 1
        [⟨S40000x1, broadcastInDim S40000x1 ![0] bcast_S40000_S40000x1_0 a⟩,
         ⟨S40000x1, broadcastInDim S40000x1 ![0] bcast_S40000_S40000x1_0 b⟩]
        concatenates_S40000x1_S40000x1_S40000x2_d1 (ix2 p (0 : Fin 2)) = a (ix1 p) := by
  rw [concatenate_pair_apply_left (t := S40000x2) 1 _ _ concatenates_S40000x1_S40000x1_S40000x2_d1
    (ix2 p (0 : Fin 2)) rfl (ix2 p (0 : Fin 1)) (fun c => by match c with | ⟨0, _⟩ => rfl | ⟨1, _⟩ => rfl)]
  exact broadcastInDim_apply _ _ _ _ (ix1 p) (fun c => by match c with | ⟨0, _⟩ => rfl)

theorem pairTable_col1 (a b : IVec S40000 32) (p : Fin 40000) :
    concatenate S40000x2 1
        [⟨S40000x1, broadcastInDim S40000x1 ![0] bcast_S40000_S40000x1_0 a⟩,
         ⟨S40000x1, broadcastInDim S40000x1 ![0] bcast_S40000_S40000x1_0 b⟩]
        concatenates_S40000x1_S40000x1_S40000x2_d1 (ix2 p (1 : Fin 2)) = b (ix1 p) := by
  rw [concatenate_pair_apply_right (t := S40000x2) 1 _ _ concatenates_S40000x1_S40000x1_S40000x2_d1
    (ix2 p (1 : Fin 2)) rfl rfl (ix2 p (0 : Fin 1))
    (fun c hc => by match c with | ⟨0, _⟩ => rfl | ⟨1, _⟩ => exact absurd rfl hc) rfl]
  exact broadcastInDim_apply _ _ _ _ (ix1 p) (fun c => by match c with | ⟨0, _⟩ => rfl)

theorem safeDivisor128 :
    Scalar.select (IntOp.cmpi .eq (128#32 : BitVec 32) 0#32) (1#32 : BitVec 32) 128#32 = 128#32 := by decide

theorem remsi128_range {x : BitVec 32} (hx : (0 : Int) ≤ x.toInt) :
    (0 : Int) ≤ (IntOp.remsi .host x 128#32).toInt ∧ (IntOp.remsi .host x 128#32).toInt < 128 := by
  rw [remsi_128 .host hx]; omega

theorem jnpRem128 {x : BitVec 32} (hx : (0 : Int) ≤ x.toInt) :
    Scalar.select
        (IntOp.andi (IntOp.cmpi .ne (IntOp.cmpi .slt (IntOp.remsi .host x 128#32) 0#32) (IntOp.cmpi .slt (128#32 : BitVec 32) 0#32))
          (IntOp.cmpi .ne (IntOp.remsi .host x 128#32) 0#32))
        (IntOp.addi (IntOp.remsi .host x 128#32) 128#32) (IntOp.remsi .host x 128#32)
      = IntOp.remsi .host x 128#32 := by
  rw [slt_zero_of_nonneg (remsi128_range hx).1,
    show IntOp.cmpi .slt (128#32 : BitVec 32) 0#32 = 0#1 from by decide,
    show IntOp.cmpi .ne (0#1 : BitVec 1) 0#1 = 0#1 from by decide,
    show ∀ c : BitVec 1, IntOp.andi 0#1 c = 0#1 from by decide]
  exact select_zero _ _

theorem natCast_add_one (n : ℕ) : ((n : ℕ) : EReal) + 1 = (((n + 1 : ℕ)) : EReal) := (Nat.cast_succ n).symm

theorem dinv_core (idx : IVec S40000x2 32) (row : Fin 40000 → Int)
    (hrow : ∀ p : Fin 40000, (idx (ix2 p (0 : Fin 2))).toInt = row p)
    (hcol : ∀ p : Fin 40000, (0 : Int) ≤ (idx (ix2 p (1 : Fin 2))).toInt ∧ (idx (ix2 p (1 : Fin 2))).toInt < 128)
    (k : Fin 4096) :
    broadcastInDim S4096x1 ![0] bcast_S4096_S4096x1_0
        (Host.rsqrt (addf
          (Host.reduceAdd
            (Host.scatterAdd scatter_S4096x128_S40000x2_S40000_n_01_01_1
              (broadcastInDim S4096x128 ![] bcast_S_S4096x128 (constant (F := Ideal) S_ .f32 0x00000000#32)) idx
              (broadcastInDim S40000 ![] bcast_S_S40000 (constant (F := Ideal) S_ .f32 0x3F800000#32)))
            (constant (F := Ideal) S_ .f32 0x00000000#32) reducesTo_S4096x128_S4096_d1 h_S_)
          (broadcastInDim S4096 ![] bcast_S_S4096 (constant (F := Ideal) S_ .f32 0x3F800000#32))))
        (ix2 k (0 : Fin 1))
      = Ideal.rsqrt ((((Finset.univ.filter fun p : Fin 40000 => row p = ((k : ℕ) : Int)).card + 1 : ℕ)) : EReal) := by
  rw [broadcastInDim_apply _ _ _ (ix2 k (0 : Fin 1)) (ix1 k) (fun a => by match a with | ⟨0, _⟩ => rfl)]
  show Ideal.rsqrt (Ideal.hostReduceAdd reducesTo_S4096x128_S4096_d1
      (Host.scatterAdd scatter_S4096x128_S40000x2_S40000_n_01_01_1
        (broadcastInDim S4096x128 ![] bcast_S_S4096x128 (constant (F := Ideal) S_ .f32 0x00000000#32)) idx
        (broadcastInDim S40000 ![] bcast_S_S40000 (constant (F := Ideal) S_ .f32 0x3F800000#32)))
      (Ideal.ofBits .f32 0x00000000#32) (ix1 k) + Ideal.ofBits .f32 0x3F800000#32) = _
  rw [rowsum128 idx hcol k, ofBits_one_f32, natCast_add_one]
  have hc : (Finset.univ.filter fun p : Fin 40000 => (idx (ix2 p (0 : Fin 2))).toInt = ((k : ℕ) : Int)).card
      = (Finset.univ.filter fun p : Fin 40000 => row p = ((k : ℕ) : Int)).card :=
    congrArg Finset.card (Finset.filter_congr fun p _ => by rw [hrow p])
  rw [hc]

abbrev dstK (e : IVec S2x40000 32) : IVec S40000 32 :=
  shapeCast S40000 (extractStridedSlice S1x40000 ![1, 0] e slices_S2x40000_S1x40000_1_0) shapeCasts_S1x40000_S40000

theorem dstK_apply (e : IVec S2x40000 32) (p : Fin 40000) : dstK e (ix1 p) = e (ix2 (1 : Fin 2) p) := by
  unfold dstK
  rw [shapeCast_1a_a_apply, slice2_axis0_apply 1 e _ (0 : Fin 1) p (1 : Fin 2) rfl]

def colS (x : BitVec 32) : BitVec 32 :=
  let y : BitVec 32 := Scalar.select (IntOp.cmpi .eq (128#32 : BitVec 32) 0#32) (1#32 : BitVec 32) 128#32
  let rm := IntOp.remsi .host x y
  let md := Scalar.select
    (IntOp.andi (IntOp.cmpi .ne (IntOp.cmpi .slt rm 0#32) (IntOp.cmpi .slt y 0#32)) (IntOp.cmpi .ne rm 0#32)) (IntOp.addi rm y) rm
  Scalar.select (IntOp.cmpi .slt md 0#32) (IntOp.addi md 128#32) md

theorem colS_range {x : BitVec 32} (hx : (0 : Int) ≤ x.toInt) : (0 : Int) ≤ (colS x).toInt ∧ (colS x).toInt < 128 := by
  unfold colS
  dsimp only
  rw [safeDivisor128, jnpRem128 hx, wrap_of_nonneg _ (remsi128_range hx).1]
  exact remsi128_range hx

theorem dinvK_apply (e : IVec S2x40000 32) (hrange : ∀ i, (0 : Int) ≤ (e i).toInt ∧ (e i).toInt < 4096) (k : Fin 4096) :
    dinvK (F := Ideal) e (ix2 k (0 : Fin 1)) = Ideal.rsqrt (((inDeg e k + 1 : ℕ)) : EReal) := by
  have hd : ∀ p : Fin 40000, (0 : Int) ≤ (dstK e (ix1 p)).toInt := fun p => by rw [dstK_apply]; exact (hrange _).1
  unfold dinvK
  dsimp only
  refine dinv_core _ (fun p => (e (ix2 (1 : Fin 2) p)).toInt) ?_ ?_ k
  · intro p
    rw [pairTable_col0, select_apply]
    exact (congrArg BitVec.toInt (wrap_of_nonneg (x := dstK e (ix1 p)) _ (hd p))).trans (by rw [dstK_apply])
  · intro p
    rw [pairTable_col1, select_apply]
    exact colS_range (hd p)

end Kernel

theorem isReal_counts (e : IVec ⟨2, ![2, 40000]⟩ 32) : Cert.Spec.IsReal (Cert.ReferenceIdeal.Hand.countsR e) :=
  isReal_countsR e

theorem dinv_eq (e : IVec ⟨2, ![2, 40000]⟩ 32) (hrange : ∀ i, (0 : Int) ≤ (e i).toInt ∧ (e i).toInt < 4096) (k : Fin 4096) :
    Cert.KernelIdeal.Hand.dinvK (F := Ideal) e (ix2 k (0 : Fin 1)) = Cert.ReferenceIdeal.Hand.dinvR e (ix1 k) :=
  (dinvK_apply e hrange k).trans (dinvR_apply e hrange k).symm

theorem isReal_dinv (e : IVec ⟨2, ![2, 40000]⟩ 32) (hrange : ∀ i, (0 : Int) ≤ (e i).toInt ∧ (e i).toInt < 4096) :
    Cert.Spec.IsReal (Cert.ReferenceIdeal.Hand.dinvR e) :=
  isReal_dinvR e hrange

end Cert.Hand.Degree

end
-- ==== Proof.Final.lean ====
import proofs.«153234_g2000604307514898_pallasbulk_606_4_alg».proof.Proof.KI.Value
import proofs.«153234_g2000604307514898_pallasbulk_606_4_alg».proof.Proof.RI.Value
import proofs.«153234_g2000604307514898_pallasbulk_606_4_alg».proof.Proof.SpecLaws
import proofs.«153234_g2000604307514898_pallasbulk_606_4_alg».proof.Proof.PreFacts
import proofs.«153234_g2000604307514898_pallasbulk_606_4_alg».proof.Proof.Degree

noncomputable section

namespace Cert.Hand.Final

open Idealize.ShloMosaic Idealize.ShloMosaic.ValueIdx
open Cert.Spec

theorem result_eq [Cert.Pre_finite_inputs.Facts]
    (a0 : FVec Ideal Cert.Pre_finite_inputs.S4096x1536 .f32) (a1 : IVec Cert.Pre_finite_inputs.S2x40000 32)
    (a2 : FVec Ideal Cert.Pre_finite_inputs.S1536x512 .f32) (a3 : FVec Ideal Cert.Pre_finite_inputs.S512x256 .f32)
    (a4 : FVec Ideal Cert.Pre_finite_inputs.S256x128 .f32) (a5 : FVec Ideal Cert.Pre_finite_inputs.S1x512 .f32)
    (a6 : FVec Ideal Cert.Pre_finite_inputs.S1x256 .f32) (a7 : FVec Ideal Cert.Pre_finite_inputs.S1x128 .f32)
    (h : Cert.Pre_finite_inputs.fn (F := Ideal) a0 a1 a2 a3 a4 a5 a6 a7 = fun _ => 1#1) :
    Cert.ReferenceIdeal.Hand.resultR a0 a1 a2 a3 a4 a5 a6 a7 = Cert.KernelIdeal.Hand.resultK a0 a1 a2 a3 a4 a5 a6 a7 := by
  obtain ⟨h0, h2, h3, h4, h5, h6, h7, hr⟩ := Cert.Hand.Pre.pre_facts a0 a1 a2 a3 a4 a5 a6 a7 h
  have hx : IsReal (mlp (R := 4096) (K0 := 1536) (K1 := 512) (K2 := 256) (K3 := 128) a0 a2 a5 a3 a6 a4 a7) :=
    isReal_mlp h0 h2 h5 h3 h6 h4 h7
  have hC := Cert.Hand.Degree.isReal_counts a1
  have hd := Cert.Hand.Degree.isReal_dinv a1 hr
  have hdd := fun k : Fin 4096 => Cert.Hand.Degree.dinv_eq a1 hr k
  have hdK : IsReal (s := M 4096 1) (Cert.KernelIdeal.Hand.dinvK (F := Ideal) a1) := fun i => by
    obtain ⟨p, q, rfl⟩ : ∃ (p : Fin 4096) (q : Fin 1), i = ix2 p q := ⟨i 0, i 1, eq_ix2 i⟩
    obtain rfl : q = 0 := Subsingleton.elim _ _
    obtain ⟨r, hr'⟩ := hd (ix1 p)
    exact ⟨r, (hdd p).trans hr'⟩
  unfold Cert.ReferenceIdeal.Hand.resultR Cert.KernelIdeal.Hand.resultK
  dsimp only
  rw [Cert.ReferenceIdeal.Hand.ahatR_eq]
  have hstep1 := stepR_ahat_eq_propK (N := 4096) (Fd := 128) (Cert.ReferenceIdeal.Hand.countsR a1) (mlp a0 a2 a5 a3 a6 a4 a7) (mlp a0 a2 a5 a3 a6 a4 a7)
    (Cert.ReferenceIdeal.Hand.dinvR a1) (Cert.KernelIdeal.Hand.dinvK (F := Ideal) a1) hdd hC hd hx
  rw [hstep1]
  have hh1 : IsReal (propK (N := 4096) (Fd := 128) (Cert.ReferenceIdeal.Hand.countsR a1) (mlp a0 a2 a5 a3 a6 a4 a7)
      (Cert.KernelIdeal.Hand.dinvK (F := Ideal) a1) (mlp a0 a2 a5 a3 a6 a4 a7)) :=
    isReal_propK hC hx hdK hx
  rw [stepR_ahat_eq_propK (N := 4096) (Fd := 128) (Cert.ReferenceIdeal.Hand.countsR a1) _ (mlp a0 a2 a5 a3 a6 a4 a7)
    (Cert.ReferenceIdeal.Hand.dinvR a1) (Cert.KernelIdeal.Hand.dinvK (F := Ideal) a1) hdd hC hd hh1]
  rw [← Cert.Hand.Degree.counts_eq a1]
  rfl

end Cert.Hand.Final

end
-- ==== Proof.lean ====
import proofs.«153234_g2000604307514898_pallasbulk_606_4_alg».proof.Defs
import proofs.«153234_g2000604307514898_pallasbulk_606_4_alg».proof.Proof.Gen.Kernel
import proofs.«153234_g2000604307514898_pallasbulk_606_4_alg».proof.Proof.Gen.KernelIdeal
import proofs.«153234_g2000604307514898_pallasbulk_606_4_alg».proof.Proof.Gen.ReferenceIdeal
import proofs.«153234_g2000604307514898_pallasbulk_606_4_alg».proof.Proof.Gen.Pre_finite_inputs
import proofs.«153234_g2000604307514898_pallasbulk_606_4_alg».proof.Proof.KB.Run
import proofs.«153234_g2000604307514898_pallasbulk_606_4_alg».proof.Proof.KI.Run
import proofs.«153234_g2000604307514898_pallasbulk_606_4_alg».proof.Proof.RI.Run
import proofs.«153234_g2000604307514898_pallasbulk_606_4_alg».proof.Proof.KI.Value
import proofs.«153234_g2000604307514898_pallasbulk_606_4_alg».proof.Proof.RI.Value
import proofs.«153234_g2000604307514898_pallasbulk_606_4_alg».proof.Proof.Final

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

theorem frame_referenceIdeal : Cert.frame_ReferenceIdeal (hReferenceIdeal := Cert.ReferenceIdeal.Gen.facts) (hPre_finite_inputs := Cert.Pre_finite_inputs.Gen.facts) :=
  fun m ρ _ => Cert.ReferenceIdeal.Hand.frame m ρ

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.Hand.U7_result m c), (h c).2⟩)
      (Cert.KernelIdeal.Hand.run_value m ρ)
  · refine (θ_run Cert.ReferenceIdeal.defs _ _).mono (fun r h c => ⟨(h c).1.trans ?_, (h c).2⟩)
      (Cert.ReferenceIdeal.Hand.run_value m' ρ')
    rw [Cert.ReferenceIdeal.Hand.U11_result m' c, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact @Cert.Hand.Final.result_eq Cert.Pre_finite_inputs.Gen.facts _ _ _ _ _ _ _ _ (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
